-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S1x8192 : Shape := ⟨2, ![1, 8192]⟩
abbrev S1 : Shape := ⟨1, ![1]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1x8192 : S_.BroadcastsInDim S1x8192 (![] : Fin 0 → Fin S1x8192.rank)
  reducesTo_S1x8192_S_d0_1 : S1x8192.ReducesTo [0, 1] S_
  bcast_S_S1 : S_.BroadcastsInDim S1 (![] : Fin 0 → Fin S1.rank)
  reducesTo_S1_S_d0 : S1.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128x16 .f32) (main_arg10 : FVec F S16 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x16 .f32 := Host.absf main_arg9
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S1 .f32) (main_arg5 : FVec F S512x128 .f32) (main_arg6 : FVec F S128 .f32) (main_arg7 : FVec F S128x128 .f32) (main_arg8 : FVec F S128 .f32) (main_arg9 : FVec F S128x16 .f32) (main_arg10 : FVec F S16 .f32) (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x8192 .f32) (main_arg1 : FVec F S8192x8192 .f32) (main_arg2 : FVec F S8192x512 .f32) (main_arg3 : FVec F S1x8192 .f32) (main_arg4 : FVec F S1 .f32) (main_arg5 : FVec F S512x128 .f32) (main_arg6 : FVec F S128 .f32) (main_arg7 : FVec F S128x128 .f32) (main_arg8 : FVec F S128 .f32) (main_arg9 : FVec F S128x16 .f32) (main_arg10 : FVec F S16 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_arg4 main_arg5 main_arg6 main_arg7 main_arg8 main_arg9 main_arg10 main_v13 main_v16
-- ==== Kernel.lean ====
abbrev S8192x8192 : Shape := ⟨2, ![8192, 8192]⟩
abbrev S8192x512 : Shape := ⟨2, ![8192, 512]⟩
abbrev S1x8192 : Shape := ⟨2, ![1, 8192]⟩
abbrev S1 : Shape := ⟨1, ![1]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S8192 : Shape := ⟨1, ![8192]⟩
abbrev S_ : Shape := ⟨0, ![]⟩
abbrev S8192x8 : Shape := ⟨2, ![8192, 8]⟩
abbrev S1024x1024 : Shape := ⟨2, ![1024, 1024]⟩
abbrev S1024x8 : Shape := ⟨2, ![1024, 8]⟩
abbrev S8192x1 : Shape := ⟨2, ![8192, 1]⟩
abbrev S1x1 : Shape := ⟨2, ![1, 1]⟩
abbrev S8192x2 : Shape := ⟨2, ![8192, 2]⟩
abbrev S8192x128 : Shape := ⟨2, ![8192, 128]⟩
abbrev S1024x128 : Shape := ⟨2, ![1024, 128]⟩
abbrev S1x128 : Shape := ⟨2, ![1, 128]⟩
abbrev S8192x16 : Shape := ⟨2, ![8192, 16]⟩
abbrev S1024x16 : Shape := ⟨2, ![1024, 16]⟩
abbrev S1x16 : Shape := ⟨2, ![1, 16]⟩

abbrev nBuf : Space → Nat
  | .hbm => 95
  | .vmem => 44
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x512, .f32⟩
  | .hbm, ⟨3, _⟩ => ⟨S1x8192, .f32⟩
  | .hbm, ⟨4, _⟩ => ⟨S1, .f32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S8192, .f32⟩
  | .hbm, ⟨12, _⟩ => ⟨S_, .f32⟩
  | .hbm, ⟨13, _⟩ => ⟨S8192x8, .f32⟩
  | .hbm, ⟨14, _⟩ => ⟨S_, .i32⟩
  | .hbm, ⟨15, _⟩ => ⟨S1, .i32⟩
  | .hbm, ⟨16, _⟩ => ⟨S8192x8, .f32⟩
  | .hbm, ⟨17, _⟩ => ⟨S_, .f32⟩
  | .hbm, ⟨18, _⟩ => ⟨S8192x8, .f32⟩
  | .hbm, ⟨19, _⟩ => ⟨S_, .i32⟩
  | .hbm, ⟨20, _⟩ => ⟨S1, .i32⟩
  | .hbm, ⟨21, _⟩ => ⟨S8192x8, .f32⟩
  | .hbm, ⟨22, _⟩ => ⟨S8192x8, .f32⟩
  | .hbm, ⟨23, _⟩ => ⟨S8192x1, .f32⟩
  | .hbm, ⟨24, _⟩ => ⟨S1x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S1x1, .f32⟩
  | .hbm, ⟨29, _⟩ => ⟨S8192x1, .f32⟩
  | .hbm, ⟨30, _⟩ => ⟨S8192x1, .f32⟩
  | .hbm, ⟨31, _⟩ => ⟨S8192x2, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x2, .f32⟩
  | .hbm, ⟨39, _⟩ => ⟨S8192x2, .f32⟩
  | .hbm, ⟨40, _⟩ => ⟨S8192x2, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x2, .f32⟩
  | .hbm, ⟨45, _⟩ => ⟨S8192x2, .f32⟩
  | .hbm, ⟨46, _⟩ => ⟨S8192x1, .f32⟩
  | .hbm, ⟨47, _⟩ => ⟨S8192x1, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S1x128, .f32⟩
  | .hbm, ⟨55, _⟩ => ⟨S8192x128, .f32⟩
  | .hbm, ⟨56, _⟩ => ⟨S8192x128, .f32⟩
  | .hbm, ⟨57, _⟩ => ⟨S_, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S1x128, .f32⟩
  | .hbm, ⟨67, _⟩ => ⟨S8192x128, .f32⟩
  | .hbm, ⟨68, _⟩ => ⟨S8192x128, .f32⟩
  | .hbm, ⟨69, _⟩ => ⟨S_, .f32⟩
  | .hbm, ⟨70, _⟩ => ⟨S8192x128, .f32⟩
  | .hbm, ⟨71, _⟩ => ⟨S8192x128, .f32⟩
  | .hbm, ⟨72, _⟩ => ⟨S8192x16, .f32⟩
  | .hbm, ⟨73, _⟩ => ⟨S8192x16, .f32⟩
  | .hbm, ⟨74, _⟩ => ⟨S8192x16, .f32⟩
  | .hbm, ⟨75, _⟩ => ⟨S8192x16, .f32⟩
  | .hbm, ⟨76, _⟩ => ⟨S8192x16, .f32⟩
  | .hbm, ⟨77, _⟩ => ⟨S8192x16, .f32⟩
  | .hbm, ⟨78, _⟩ => ⟨S1x16, .f32⟩
  | .hbm, ⟨79, _⟩ => ⟨S8192x16, .f32⟩
  | .hbm, ⟨80, _⟩ => ⟨S8192x16, .f32⟩
  | .hbm, ⟨81, _⟩ => ⟨S_, .f32⟩
  | .hbm, ⟨82, _⟩ => ⟨S8192, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S8192x1, .f32⟩
  | .hbm, ⟨87, _⟩ => ⟨S8192x16, .f32⟩
  | .hbm, ⟨88, _⟩ => ⟨S8192x16, .f32⟩
  | .hbm, ⟨89, _⟩ => ⟨S8192x16, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x16, .f32⟩
  | .hbm, ⟨94, _⟩ => ⟨S8192x16, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x8, .f32⟩
  | .local _ .vmem, ⟨5, _⟩ => ⟨S1024x8, .f32⟩
  | .local _ .vmem, ⟨6, _⟩ => ⟨S1024x8, .f32⟩
  | .local _ .vmem, ⟨7, _⟩ => ⟨S1024x8, .f32⟩
  | .local _ .vmem, ⟨8, _⟩ => ⟨S1024x8, .f32⟩
  | .local _ .vmem, ⟨9, _⟩ => ⟨S1024x8, .f32⟩
  | .local _ .vmem, ⟨10, _⟩ => ⟨S1024x8, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | .local _ .vmem, ⟨36, _⟩ => ⟨S1024x1024, .f32⟩
  | .local _ .vmem, ⟨37, _⟩ => ⟨S1024x16, .f32⟩
  | .local _ .vmem, ⟨38, _⟩ => ⟨S1024x16, .f32⟩
  | .local _ .vmem, ⟨39, _⟩ => ⟨S1024x16, .f32⟩
  | .local _ .vmem, ⟨40, _⟩ => ⟨S1024x16, .f32⟩
  | .local _ .vmem, ⟨41, _⟩ => ⟨S1024x16, .f32⟩
  | .local _ .vmem, ⟨42, _⟩ => ⟨S1024x16, .f32⟩
  | .local _ .vmem, ⟨43, _⟩ => ⟨S1024x16, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_cst : Ref sig .tc := ⟨.hbm, 57, rfl⟩
abbrev main_call0_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_5 : Ref sig .tc := ⟨.hbm, 81, rfl⟩
abbrev main_v59 : Ref sig .tc := ⟨.hbm, 82, rfl⟩
abbrev main_cst_6 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_7 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_17 : BitVec 32 := 0#32
  let v27 : BitVec 1 := Scalar.cmpi .ne v26 c0_i32_17
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_17 : BitVec 32 := 0#32
  let v27 : BitVec 1 := Scalar.cmpi .ne v26 c0_i32_17
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_17 : BitVec 32 := 0#32
  let v27 : BitVec 1 := Scalar.cmpi .ne v26 c0_i32_17
  v27

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1024x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  shapeCasts_S1x8192_S8192 : S1x8192.ShapeCasts S8192
  bcast_S_S8192x8 : S_.BroadcastsInDim S8192x8 (![] : Fin 0 → Fin S8192x8.rank)
  bcast_S_S1 : S_.BroadcastsInDim S1 (![] : Fin 0 → Fin S1.rank)
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  slices_S8192x8_S8192x1_0_0 : S8192x8.Slices ![0, 0] S8192x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  slices_S8192x8_S8192x1_0_1 : S8192x8.Slices ![0, 1] S8192x1
  concatenates_S8192x1_S8192x1_S8192x2_d1 : Shape.Concatenates [S8192x1, S8192x1] S8192x2 1
  reducesTo_S8192x2_S8192_d1 : S8192x2.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  bcast_S8192x1_S8192x128_0_1 : S8192x1.BroadcastsInDim S8192x128 (![0, 1] : Fin 2 → Fin S8192x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S8192x1_S8192x16_0_1 : S8192x1.BroadcastsInDim S8192x16 (![0, 1] : Fin 2 → Fin S8192x16.rank)
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  scatter_S8192x8_S1_S8192_0_1_1_0_wf : ScatterDims.WF S8192x8 S1 S8192 [0] [1] [1] 0
  dot_S1024x1024_S1024x8_S1024x8_1_0_0_1_n_n_wf : DotDims.WF S1024x1024 S1024x8 S1024x8 [1] [0] [0] [1] [] []
  dot_S8192x512_S512x128_S8192x128_1_0_0_1_n_n_wf : DotDims.WF S8192x512 S512x128 S8192x128 [1] [0] [0] [1] [] []
  dot_S1024x1024_S1024x128_S1024x128_1_0_0_1_n_n_wf : DotDims.WF S1024x1024 S1024x128 S1024x128 [1] [0] [0] [1] [] []
  dot_S8192x128_S128x128_S8192x128_1_0_0_1_n_n_wf : DotDims.WF S8192x128 S128x128 S8192x128 [1] [0] [0] [1] [] []
  dot_S8192x128_S128x16_S8192x16_1_0_0_1_n_n_wf : DotDims.WF S8192x128 S128x16 S8192x16 [1] [0] [0] [1] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8.size a ≤ S8192x8.size a
  hwx0_2 : ∀ i : grid0.Coords, EltTy.bits .f32 = 32 ∨ (Rect.block (s := S8192x8) S1024x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S8192x8.size a
  hwx0_3 : ∀ i : grid0.Coords, EltTy.bits .f32 = 32 ∨ (Rect.block (s := S8192x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x8.size a ≤ S8192x8.size a
  hwx0_4 : ∀ i : grid0.Coords, EltTy.bits .f32 = 32 ∨ (Rect.block (s := S8192x8) S1024x8.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x8192.size a
  hwx2_1 : ∀ i : grid2.Coords, EltTy.bits .f32 = 32 ∨ (Rect.block (s := S8192x8192) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S8192x128.size a
  hwx2_4 : ∀ i : grid2.Coords, EltTy.bits .f32 = 32 ∨ (Rect.block (s := S8192x128) S1024x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S8192x8192.size a
  hwx3_1 : ∀ i : grid3.Coords, EltTy.bits .f32 = 32 ∨ (Rect.block (s := S8192x8192) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x16.size a ≤ S8192x16.size a
  hwx3_2 : ∀ i : grid3.Coords, EltTy.bits .f32 = 32 ∨ (Rect.block (s := S8192x16) S1024x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x16.size a ≤ S8192x16.size a
  hwx3_3 : ∀ i : grid3.Coords, EltTy.bits .f32 = 32 ∨ (Rect.block (s := S8192x16) S1024x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x16.size a ≤ S8192x16.size a
  hwx3_4 : ∀ i : grid3.Coords, EltTy.bits .f32 = 32 ∨ (Rect.block (s := S8192x16) S1024x16.size (cc3_transform_4 i) (hinb3_4 i)).WholeWords (EltTy.packing .f32)

variable [Facts₀]

def scatter_S8192x8_S1_S8192_0_1_1_0 : ScatterDims S8192x8 S1 S8192 where
  updateWindowDims := [0]
  insertedWindowDims := [1]
  scatterDimsToOperandDims := [1]
  indexVectorDim := 0
  wf := scatter_S8192x8_S1_S8192_0_1_1_0_wf
def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1024x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1024x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_arg0) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1024x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1024x16.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1024x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S1x8192 : Shape := ⟨2, ![1, 8192]⟩
abbrev S1 : Shape := ⟨1, ![1]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S8192x1 : Shape := ⟨2, ![8192, 1]⟩
abbrev S1x1 : Shape := ⟨2, ![1, 1]⟩
abbrev S8192x2 : Shape := ⟨2, ![8192, 2]⟩
abbrev S_ : Shape := ⟨0, ![]⟩
abbrev S8192 : Shape := ⟨1, ![8192]⟩
abbrev S8192x128 : Shape := ⟨2, ![8192, 128]⟩
abbrev S1x128 : Shape := ⟨2, ![1, 128]⟩
abbrev S8192x16 : Shape := ⟨2, ![8192, 16]⟩
abbrev S1x16 : Shape := ⟨2, ![1, 16]⟩

abbrev nBuf : Space → Nat
  | .hbm => 82
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x512, .f32⟩
  | .hbm, ⟨3, _⟩ => ⟨S1x8192, .f32⟩
  | .hbm, ⟨4, _⟩ => ⟨S1, .f32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S8192x1, .f32⟩
  | .hbm, ⟨12, _⟩ => ⟨S8192x1, .f32⟩
  | .hbm, ⟨13, _⟩ => ⟨S1x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S1x1, .f32⟩
  | .hbm, ⟨19, _⟩ => ⟨S8192x1, .f32⟩
  | .hbm, ⟨20, _⟩ => ⟨S8192x1, .f32⟩
  | .hbm, ⟨21, _⟩ => ⟨S8192x2, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x2, .f32⟩
  | .hbm, ⟨29, _⟩ => ⟨S8192x2, .f32⟩
  | .hbm, ⟨30, _⟩ => ⟨S8192x2, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2, .f32⟩
  | .hbm, ⟨35, _⟩ => ⟨S8192x2, .f32⟩
  | .hbm, ⟨36, _⟩ => ⟨S8192x1, .f32⟩
  | .hbm, ⟨37, _⟩ => ⟨S8192, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S8192x1, .f32⟩
  | .hbm, ⟨42, _⟩ => ⟨S8192, .f32⟩
  | .hbm, ⟨43, _⟩ => ⟨S1x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x128, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S1x128, .f32⟩
  | .hbm, ⟨58, _⟩ => ⟨S8192x128, .f32⟩
  | .hbm, ⟨59, _⟩ => ⟨S8192x128, .f32⟩
  | .hbm, ⟨60, _⟩ => ⟨S_, .f32⟩
  | .hbm, ⟨61, _⟩ => ⟨S8192x128, .f32⟩
  | .hbm, ⟨62, _⟩ => ⟨S8192x128, .f32⟩
  | .hbm, ⟨63, _⟩ => ⟨S8192x16, .f32⟩
  | .hbm, ⟨64, _⟩ => ⟨S8192x16, .f32⟩
  | .hbm, ⟨65, _⟩ => ⟨S1x16, .f32⟩
  | .hbm, ⟨66, _⟩ => ⟨S8192x16, .f32⟩
  | .hbm, ⟨67, _⟩ => ⟨S8192x16, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192x1, .f32⟩
  | .hbm, ⟨74, _⟩ => ⟨S8192x16, .f32⟩
  | .hbm, ⟨75, _⟩ => ⟨S8192x16, .f32⟩
  | .hbm, ⟨76, _⟩ => ⟨S8192x16, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x16, .f32⟩
  | .hbm, ⟨81, _⟩ => ⟨S8192x16, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call1_cst : Ref sig .tc := ⟨.hbm, 60, rfl⟩
abbrev main_call1_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_2 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_4 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]

class Facts₀ : Prop where
  transposes_S1x8192_S8192x1_1_0 : S1x8192.Transposes [1, 0] S8192x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  concatenates_S8192x1_S8192x1_S8192x2_d1 : Shape.Concatenates [S8192x1, S8192x1] S8192x2 1
  reducesTo_S8192x2_S8192_d1 : S8192x2.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  slices_S8192x2_S8192x1_0_0 : S8192x2.Slices ![0, 0] S8192x1
  shapeCasts_S8192x1_S8192 : S8192x1.ShapeCasts S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x2_S8192x1_0_1 : S8192x2.Slices ![0, 1] S8192x1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  bcast_S8192x1_S8192x16_0_1 : S8192x1.BroadcastsInDim S8192x16 (![0, 1] : Fin 2 → Fin S8192x16.rank)
  dot_S8192x8192_S8192x1_S8192x1_1_0_0_1_n_n_wf : DotDims.WF S8192x8192 S8192x1 S8192x1 [1] [0] [0] [1] [] []
  dot_S8192x512_S512x128_S8192x128_1_0_0_1_n_n_wf : DotDims.WF S8192x512 S512x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S8192x128_S128x16_S8192x16_1_0_0_1_n_n_wf : DotDims.WF S8192x128 S128x16 S8192x16 [1] [0] [0] [1] [] []
  dot_S8192x8192_S8192x16_S8192x16_1_0_0_1_n_n_wf : DotDims.WF S8192x8192 S8192x16 S8192x16 [1] [0] [0] [1] [] []

variable [Facts₀]

def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.KB.R0.Conds.lean ====
import proofs.«165102_j58428735095548_1_alg».proof.Proof.Gen.Kernel.Launch
import proofs.«165102_j58428735095548_1_alg».proof.Proof.Gen.Kernel.Skeleton
import proofs.«165102_j58428735095548_1_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Spmm0
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
abbrev UU : Type := UR sig nD τ
abbrev first0 (i : grid0.Coords) : Prop :=
  (Scalar.cmpi .ne (Scalar.extui (Scalar.cmpi .eq (BitVec.ofNat 32 (i 1).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)
theorem nfl0 : ∀ t : Fin cfg0.N, ¬(first0 (grid0.coords t) ∧ last0 (grid0.coords t)) := by decide +kernel
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, ¬last0 (grid0.coords t) → cfg0.idle 4 (grid0.coords t) = true := by decide +kernel
theorem noflush0_4 : ∀ t : Fin cfg0.N, ¬last0 (grid0.coords t) → (cfg0.win 4).flush t = false := by decide +kernel
theorem live0_4 : ∀ t : Fin cfg0.N, last0 (grid0.coords t) → cfg0.idle 4 (grid0.coords t) = false := by decide +kernel
abbrev mr0_0 (t : Fin cfg0.N) : Memref sig .tc .vmem S1024x1024 .f32 := win0_0.stage (cfg0.slots t 0)
abbrev mr0_1 (t : Fin cfg0.N) : Memref sig .tc .vmem S1024x1024 .f32 := win0_1.stage (cfg0.slots t 1)
abbrev mr0_2 (t : Fin cfg0.N) : Memref sig .tc .vmem S1024x8 .f32 := win0_2.stage (cfg0.slots t 2)
abbrev mr0_3 (t : Fin cfg0.N) : Memref sig .tc .vmem S1024x8 .f32 := win0_3.stage (cfg0.slots t 3)
abbrev mr0_4 (t : Fin cfg0.N) : Memref sig .tc .vmem S1024x8 .f32 := win0_4.stage (cfg0.slots t 4)
abbrev acc0 : Memref sig .tc .vmem S1024x8 .f32 := Memref.whole cc0_scratch0
end Cert.Kernel.Spmm0
end
-- ==== Proof.Math.Spmm.lean ====
import Idealize.ShloMosaic.PureOps.Ideal
import Idealize.ShloMosaic.Lib.ValueIdx
import Idealize.ShloMosaic.Lib.Pipeline.Value
noncomputable section
namespace Cert.Spec
open Idealize.ShloMosaic Idealize.ShloMosaic.ValueIdx
abbrev Mat (r k : Nat) : Type := (⟨2, ![r, k]⟩ : Shape).Idx → EReal
def spmmAt8 (a0 a1 : Mat 8192 8192) (y0 y1 : Mat 8192 8) (i : Fin 8192) (f : Fin 8) : EReal :=
  (∑ j : Fin 8192, a0 (ix2 i j) * y0 (ix2 j f)) + ∑ j : Fin 8192, a1 (ix2 i j) * y1 (ix2 j f)
def spmm8 (a0 a1 : Mat 8192 8192) (y0 y1 : Mat 8192 8) : Mat 8192 8 := fun o => spmmAt8 a0 a1 y0 y1 (o 0) (o 1)
theorem spmm8_apply (a0 a1 : Mat 8192 8192) (y0 y1 : Mat 8192 8) (i : Fin 8192) (f : Fin 8) :
    spmm8 a0 a1 y0 y1 (ix2 i f) = spmmAt8 a0 a1 y0 y1 i f := rfl
def spmmAt128 (a0 a1 : Mat 8192 8192) (y0 y1 : Mat 8192 128) (i : Fin 8192) (f : Fin 128) : EReal :=
  (∑ j : Fin 8192, a0 (ix2 i j) * y0 (ix2 j f)) + ∑ j : Fin 8192, a1 (ix2 i j) * y1 (ix2 j f)
def spmm128 (a0 a1 : Mat 8192 8192) (y0 y1 : Mat 8192 128) : Mat 8192 128 := fun o => spmmAt128 a0 a1 y0 y1 (o 0) (o 1)
theorem spmm128_apply (a0 a1 : Mat 8192 8192) (y0 y1 : Mat 8192 128) (i : Fin 8192) (f : Fin 128) :
    spmm128 a0 a1 y0 y1 (ix2 i f) = spmmAt128 a0 a1 y0 y1 i f := rfl
def spmmAt16 (a0 a1 : Mat 8192 8192) (y0 y1 : Mat 8192 16) (i : Fin 8192) (f : Fin 16) : EReal :=
  (∑ j : Fin 8192, a0 (ix2 i j) * y0 (ix2 j f)) + ∑ j : Fin 8192, a1 (ix2 i j) * y1 (ix2 j f)
def spmm16 (a0 a1 : Mat 8192 8192) (y0 y1 : Mat 8192 16) : Mat 8192 16 := fun o => spmmAt16 a0 a1 y0 y1 (o 0) (o 1)
theorem spmm16_apply (a0 a1 : Mat 8192 8192) (y0 y1 : Mat 8192 16) (i : Fin 8192) (f : Fin 16) :
    spmm16 a0 a1 y0 y1 (ix2 i f) = spmmAt16 a0 a1 y0 y1 i f := rfl
theorem offZero : (![0, 0] : Fin 2 → Nat) = fun _ => 0 := funext fun a => by fin_cases a <;> rfl
def gidx (b : ℕ) (k : Fin 1024) : Fin 8192 := ⟨(1024 * b + k.val) % 8192, Nat.mod_lt _ (by decide)⟩
theorem sum_gidx {M : Type*} [AddCommMonoid M] (g : Fin 8192 → M) :
    ∑ s ∈ Finset.range 8, ∑ k : Fin 1024, g (gidx s k) = ∑ j : Fin 8192, g j := by
  rw [Finset.sum_range (fun s => ∑ k : Fin 1024, g (gidx s k))]
  refine (Fintype.sum_prod_type' (fun (s : Fin 8) (k : Fin 1024) => g (gidx s.val k))).symm.trans ?_
  refine Fintype.sum_equiv (finProdFinEquiv (m := 8) (n := 1024)) _ g fun x => congrArg g (Fin.ext ?_)
  have h1 := x.1.isLt
  have h2 := x.2.isLt
  show (1024 * x.1.val + x.2.val) % 8192 = x.2.val + 1024 * x.1.val
  omega
end Cert.Spec
end
-- ==== Proof.KB.R0.Step.lean ====
import proofs.«165102_j58428735095548_1_alg».proof.Proof.KB.R0.Conds
import proofs.«165102_j58428735095548_1_alg».proof.Proof.Math.Spmm
import Idealize.ShloMosaic.Lib.Pipeline.Value

set_option maxRecDepth 16384

noncomputable section

namespace Cert.Kernel.Spmm0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One grid point's update of the accumulator: both block products added. -/
def upd0 (x0 x1 : Vec F S1024x1024 .f32) (x2 x3 xa : Vec F S1024x8 .f32) : Vec F S1024x8 .f32 :=
  k0_pay3 x1 x3 (k0_pay2 x0 x2 xa)

set_option maxHeartbeats 3000000 in
/-- The body at any point, run symbolically in its three cases: the accumulator restarts from zero at the first column
    block of a row, and the output block receives its copy at the last. -/
theorem step0 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x8 .f32) (h4 : a4.IsWhole) (a5 : Memref sig .tc .vmem S1024x8 .f32) (h5 : a5.IsWhole) (a6 : Memref sig .tc .vmem S1024x8 .f32) (h6 : a6.IsWhole) (a7 : Memref sig .tc .vmem S1024x8 .f32) (h7 : a7.IsWhole)
    (hfl : ¬(first0 i ∧ last0 i)) (x0 x1 : Vec F S1024x1024 .f32) (x2 x3 xa xo : Vec F S1024x8 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare xo ∗ owns (c : Thread nD τ) a7 fullShare xa
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (if last0 i then upd0 x0 x1 x2 x3 (if first0 i then k0_pay1 else xa) else xo)
            ∗ owns (c : Thread nD τ) a7 fullShare (upd0 x0 x1 x2 x3 (if first0 i then k0_pay1 else xa))) -∗ K ⟨⟩))
      ⊢ wp frame (wpE (defs₀ (F := F)) Variants.none c none) E (cc0__spmm_kernel i a2 h2 a3 h3 a4 h4 a5 h5 a6 h6 a7 h7) K := by
  by_cases hf : first0 i <;> by_cases hl : last0 i
  · exact absurd ⟨hf, hl⟩ hfl
  all_goals
    (first | rw [if_pos hf] | rw [if_neg hf]
     first | rw [if_pos hl] | rw [if_neg hl]
     simp only [cc0__spmm_kernel_eq_skeleton]; unfold cc0__spmm_kernel_skel
     unfold owns
     iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
     obtain rfl := h2.eq_unread hf0; obtain rfl := h3.eq_unread hf1; obtain rfl := h4.eq_unread hf2; obtain rfl := h5.eq_unread hf3; obtain rfl := h6.eq_unread hf4; obtain rfl := h7.eq_unread hfs
     sl_exec (disch := first | exact hf | exact hl)
     sl_step
     iapply Hk
     isplitl [H0]
     · iexists _; isplitr; · ipureintro; exact h2.read_unread _
       iexact H0
     isplitl [H1]
     · iexists _; isplitr; · ipureintro; exact h3.read_unread _
       iexact H1
     isplitl [H2]
     · iexists _; isplitr; · ipureintro; exact h4.read_unread _
       iexact H2
     isplitl [H3]
     · iexists _; isplitr; · ipureintro; exact h5.read_unread _
       iexact H3
     isplitl [H4] <;>
      (iexists _; isplitr; swap; · iassumption
       ipureintro
       first
       | (rw [View.read_writes_eq_canon _ _ _ (View.cover_of_tiledL _ S1024x8.size (by sl_kernel_rfl))]
          sl_unfold_words
          rw [View.canon_cons_unit_zero (S := S1024x8) Cert.Spec.offZero]
          simp only [upd0, View.readCov_cons_toLoadRect, View.readAt_eq_ld, h2.read_unread, h3.read_unread, h4.read_unread, h5.read_unread, h7.read_unread,
            View.ld_unit_zero (S := S1024x1024) Cert.Spec.offZero, View.ld_unit_zero (S := S1024x8) Cert.Spec.offZero])
       | exact h6.read_unread _))

end Cert.Kernel.Spmm0

end
-- ==== Proof.KB.R0.Data.lean ====
import proofs.«165102_j58428735095548_1_alg».proof.Proof.KB.R0.Step

set_option maxRecDepth 16384

noncomputable section

namespace Cert.Kernel.Spmm0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev updAt0 (c : Dev nD) (t : Fin cfg0.N) (xa : Vec F S1024x8 .f32) : Vec F S1024x8 .f32 :=
  upd0 (blk0 V c 0 t) (blk0 V c 1 t) (blk0 V c 2 t) (blk0 V c 3 t) xa

/-- The accumulator after point n: restarted at the first column block of a row, else updated from the point before. -/
def accAt0 (c : Dev nD) : (n : ℕ) → n < cfg0.N → Vec F S1024x8 .f32
  | 0, hn => updAt0 V c ⟨0, hn⟩ k0_pay1
  | n + 1, hn => updAt0 V c ⟨n + 1, hn⟩ (if (n + 1) % 8 = 0 then k0_pay1 else accAt0 c n (Nat.lt_of_succ_lt hn))

theorem accAt0_step (c : Dev nD) (t : Fin cfg0.N) (xa : Vec F S1024x8 .f32)
    (hxa : ∀ k hk, t.val = k + 1 → t.val % 8 ≠ 0 → xa = accAt0 V c k hk) :
    updAt0 V c t (if first0 (grid0.coords t) then k0_pay1 else xa) = accAt0 V c t.val t.isLt := by
  obtain ⟨n, hn⟩ := t
  by_cases h0 : n % 8 = 0
  · rw [if_pos ((first0_iff ⟨n, hn⟩).mpr h0)]
    cases n with
    | zero => rfl
    | succ n => exact (congrArg (updAt0 V c ⟨n + 1, hn⟩) (if_pos h0)).symm
  · rw [if_neg (mt (first0_iff ⟨n, hn⟩).mp h0)]
    cases n with
    | zero => exact absurd (Nat.zero_mod 8) h0
    | succ n => rw [hxa n (Nat.lt_of_succ_lt hn) rfl h0]; exact (congrArg (updAt0 V c ⟨n + 1, hn⟩) (if_neg h0)).symm

abbrev others0 (c : Dev nD) : sProp 𝕄 :=
  Pipeline.scopedRestBut (Ix := Unit) (Name := ℕ) (U := UU) (Lvl := ℕ) (Val := Elt F) spec0 c [cc0_scratch0]

/-- Before position n the accumulator holds what the point before left (nothing is said at the start of a row). -/
def inv0 (c : Dev nD) (n : ℕ) : sProp 𝕄 :=
  iprop(∃ xa, ⌜∀ k hk, n = k + 1 → n % 8 ≠ 0 → xa = accAt0 V c k hk⌝ ∗ owns (c : Thread nD τ) acc0 fullShare xa ∗ others0 c)

def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => if t.val % 8 = 7 then accAt0 V c t.val t.isLt else k0_pay1
  Φ t := inv0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) :
    (dat0 V c).after 4 t = if t.val % 8 = 7 then accAt0 V c t.val t.isLt else k0_pay1 := by dsimp only [dat0]

end Cert.Kernel.Spmm0

end
-- ==== Proof.KB.R1.Conds.lean ====
import proofs.«165102_j58428735095548_1_alg».proof.Proof.Gen.Kernel.Launch
import proofs.«165102_j58428735095548_1_alg».proof.Proof.Gen.Kernel.Skeleton
import proofs.«165102_j58428735095548_1_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Spmm1
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
abbrev UU : Type := UR sig nD τ
abbrev first1 (i : grid1.Coords) : Prop :=
  (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)
theorem nfl1 : ∀ t : Fin cfg1.N, ¬(first1 (grid1.coords t) ∧ last1 (grid1.coords t)) := by decide +kernel
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬last1 (grid1.coords t) → cfg1.idle 4 (grid1.coords t) = true := by decide +kernel
theorem noflush1_4 : ∀ t : Fin cfg1.N, ¬last1 (grid1.coords t) → (cfg1.win 4).flush t = false := by decide +kernel
theorem live1_4 : ∀ t : Fin cfg1.N, last1 (grid1.coords t) → cfg1.idle 4 (grid1.coords t) = false := by decide +kernel
abbrev mr1_0 (t : Fin cfg1.N) : Memref sig .tc .vmem S1024x1024 .f32 := win1_0.stage (cfg1.slots t 0)
abbrev mr1_1 (t : Fin cfg1.N) : Memref sig .tc .vmem S1024x1024 .f32 := win1_1.stage (cfg1.slots t 1)
abbrev mr1_2 (t : Fin cfg1.N) : Memref sig .tc .vmem S1024x128 .f32 := win1_2.stage (cfg1.slots t 2)
abbrev mr1_3 (t : Fin cfg1.N) : Memref sig .tc .vmem S1024x128 .f32 := win1_3.stage (cfg1.slots t 3)
abbrev mr1_4 (t : Fin cfg1.N) : Memref sig .tc .vmem S1024x128 .f32 := win1_4.stage (cfg1.slots t 4)
abbrev acc1 : Memref sig .tc .vmem S1024x128 .f32 := Memref.whole cc1_scratch0
end Cert.Kernel.Spmm1
end
-- ==== Proof.KB.R1.Step.lean ====
import proofs.«165102_j58428735095548_1_alg».proof.Proof.KB.R1.Conds
import proofs.«165102_j58428735095548_1_alg».proof.Proof.Math.Spmm
import Idealize.ShloMosaic.Lib.Pipeline.Value

set_option maxRecDepth 16384

noncomputable section

namespace Cert.Kernel.Spmm1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One grid point's update of the accumulator: both block products added. -/
def upd1 (x0 x1 : Vec F S1024x1024 .f32) (x2 x3 xa : Vec F S1024x128 .f32) : Vec F S1024x128 .f32 :=
  k1_pay3 x1 x3 (k1_pay2 x0 x2 xa)

set_option maxHeartbeats 3000000 in
/-- The body at any point, run symbolically in its three cases: the accumulator restarts from zero at the first column
    block of a row, and the output block receives its copy at the last. -/
theorem step1 (c : Dev nD) (i : grid1.Coords) (a2 : Memref sig .tc .vmem S1024x1024 .f32) (h2 : a2.IsWhole) (a3 : Memref sig .tc .vmem S1024x1024 .f32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole)
    (hfl : ¬(first1 i ∧ last1 i)) (x0 x1 : Vec F S1024x1024 .f32) (x2 x3 xa xo : Vec F S1024x128 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare xo ∗ owns (c : Thread nD τ) a7 fullShare xa
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (if last1 i then upd1 x0 x1 x2 x3 (if first1 i then k1_pay1 else xa) else xo)
            ∗ owns (c : Thread nD τ) a7 fullShare (upd1 x0 x1 x2 x3 (if first1 i then k1_pay1 else xa))) -∗ K ⟨⟩))
      ⊢ wp frame (wpE (defs₀ (F := F)) Variants.none c none) E (cc1__spmm_kernel i a2 h2 a3 h3 a4 h4 a5 h5 a6 h6 a7 h7) K := by
  by_cases hf : first1 i <;> by_cases hl : last1 i
  · exact absurd ⟨hf, hl⟩ hfl
  all_goals
    (first | rw [if_pos hf] | rw [if_neg hf]
     first | rw [if_pos hl] | rw [if_neg hl]
     simp only [cc1__spmm_kernel_eq_skeleton]; unfold cc1__spmm_kernel_skel
     unfold owns
     iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
     obtain rfl := h2.eq_unread hf0; obtain rfl := h3.eq_unread hf1; obtain rfl := h4.eq_unread hf2; obtain rfl := h5.eq_unread hf3; obtain rfl := h6.eq_unread hf4; obtain rfl := h7.eq_unread hfs
     sl_exec (disch := first | exact hf | exact hl)
     sl_step
     iapply Hk
     isplitl [H0]
     · iexists _; isplitr; · ipureintro; exact h2.read_unread _
       iexact H0
     isplitl [H1]
     · iexists _; isplitr; · ipureintro; exact h3.read_unread _
       iexact H1
     isplitl [H2]
     · iexists _; isplitr; · ipureintro; exact h4.read_unread _
       iexact H2
     isplitl [H3]
     · iexists _; isplitr; · ipureintro; exact h5.read_unread _
       iexact H3
     isplitl [H4] <;>
      (iexists _; isplitr; swap; · iassumption
       ipureintro
       first
       | (rw [View.read_writes_eq_canon _ _ _ (View.cover_of_tiledL _ S1024x128.size (by sl_kernel_rfl))]
          sl_unfold_words
          rw [View.canon_cons_unit_zero (S := S1024x128) Cert.Spec.offZero]
          simp only [upd1, View.readCov_cons_toLoadRect, View.readAt_eq_ld, h2.read_unread, h3.read_unread, h4.read_unread, h5.read_unread, h7.read_unread,
            View.ld_unit_zero (S := S1024x1024) Cert.Spec.offZero, View.ld_unit_zero (S := S1024x128) Cert.Spec.offZero])
       | exact h6.read_unread _))

end Cert.Kernel.Spmm1

end
-- ==== Proof.KB.R1.Data.lean ====
import proofs.«165102_j58428735095548_1_alg».proof.Proof.KB.R1.Step

set_option maxRecDepth 16384

noncomputable section

namespace Cert.Kernel.Spmm1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev updAt1 (c : Dev nD) (t : Fin cfg1.N) (xa : Vec F S1024x128 .f32) : Vec F S1024x128 .f32 :=
  upd1 (blk1 V c 0 t) (blk1 V c 1 t) (blk1 V c 2 t) (blk1 V c 3 t) xa

/-- The accumulator after point n: restarted at the first column block of a row, else updated from the point before. -/
def accAt1 (c : Dev nD) : (n : ℕ) → n < cfg1.N → Vec F S1024x128 .f32
  | 0, hn => updAt1 V c ⟨0, hn⟩ k1_pay1
  | n + 1, hn => updAt1 V c ⟨n + 1, hn⟩ (if (n + 1) % 8 = 0 then k1_pay1 else accAt1 c n (Nat.lt_of_succ_lt hn))

theorem accAt1_step (c : Dev nD) (t : Fin cfg1.N) (xa : Vec F S1024x128 .f32)
    (hxa : ∀ k hk, t.val = k + 1 → t.val % 8 ≠ 0 → xa = accAt1 V c k hk) :
    updAt1 V c t (if first1 (grid1.coords t) then k1_pay1 else xa) = accAt1 V c t.val t.isLt := by
  obtain ⟨n, hn⟩ := t
  by_cases h0 : n % 8 = 0
  · rw [if_pos ((first1_iff ⟨n, hn⟩).mpr h0)]
    cases n with
    | zero => rfl
    | succ n => exact (congrArg (updAt1 V c ⟨n + 1, hn⟩) (if_pos h0)).symm
  · rw [if_neg (mt (first1_iff ⟨n, hn⟩).mp h0)]
    cases n with
    | zero => exact absurd (Nat.zero_mod 8) h0
    | succ n => rw [hxa n (Nat.lt_of_succ_lt hn) rfl h0]; exact (congrArg (updAt1 V c ⟨n + 1, hn⟩) (if_neg h0)).symm

abbrev others1 (c : Dev nD) : sProp 𝕄 :=
  Pipeline.scopedRestBut (Ix := Unit) (Name := ℕ) (U := UU) (Lvl := ℕ) (Val := Elt F) spec1 c [cc1_scratch0]

/-- Before position n the accumulator holds what the point before left (nothing is said at the start of a row). -/
def inv1 (c : Dev nD) (n : ℕ) : sProp 𝕄 :=
  iprop(∃ xa, ⌜∀ k hk, n = k + 1 → n % 8 ≠ 0 → xa = accAt1 V c k hk⌝ ∗ owns (c : Thread nD τ) acc1 fullShare xa ∗ others1 c)

def dat1 (c : Dev nD) : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => if t.val % 8 = 7 then accAt1 V c t.val t.isLt else k1_pay1
  Φ t := inv1 V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) :
    (dat1 V c).after 4 t = if t.val % 8 = 7 then accAt1 V c t.val t.isLt else k1_pay1 := by dsimp only [dat1]

end Cert.Kernel.Spmm1

end
-- ==== Proof.KB.R2.Conds.lean ====
import proofs.«165102_j58428735095548_1_alg».proof.Proof.Gen.Kernel.Launch
import proofs.«165102_j58428735095548_1_alg».proof.Proof.Gen.Kernel.Skeleton
import proofs.«165102_j58428735095548_1_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Spmm2
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
abbrev UU : Type := UR sig nD τ
abbrev first2 (i : grid2.Coords) : Prop :=
  (Scalar.cmpi .ne (Scalar.extui (Scalar.cmpi .eq (BitVec.ofNat 32 (i 1).val) 0#32)) 0#32) = 1#1
theorem first2_iff : ∀ t : Fin cfg2.N, first2 (grid2.coords t) ↔ t.val % 8 = 0 :=
  (by decide +kernel : ∀ t : Fin grid2.N, first2 (grid2.coords t) ↔ t.val % 8 = 0)
abbrev last2 (i : grid2.Coords) : Prop := k2_cond2 i = 1#1
theorem last2_iff : ∀ t : Fin cfg2.N, last2 (grid2.coords t) ↔ t.val % 8 = 7 :=
  (by decide +kernel : ∀ t : Fin grid2.N, last2 (grid2.coords t) ↔ t.val % 8 = 7)
theorem nfl2 : ∀ t : Fin cfg2.N, ¬(first2 (grid2.coords t) ∧ last2 (grid2.coords t)) := by decide +kernel
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem idle2_4 : ∀ t : Fin cfg2.N, ¬last2 (grid2.coords t) → cfg2.idle 4 (grid2.coords t) = true := by decide +kernel
theorem noflush2_4 : ∀ t : Fin cfg2.N, ¬last2 (grid2.coords t) → (cfg2.win 4).flush t = false := by decide +kernel
theorem live2_4 : ∀ t : Fin cfg2.N, last2 (grid2.coords t) → cfg2.idle 4 (grid2.coords t) = false := by decide +kernel
abbrev mr2_0 (t : Fin cfg2.N) : Memref sig .tc .vmem S1024x1024 .f32 := win2_0.stage (cfg2.slots t 0)
abbrev mr2_1 (t : Fin cfg2.N) : Memref sig .tc .vmem S1024x1024 .f32 := win2_1.stage (cfg2.slots t 1)
abbrev mr2_2 (t : Fin cfg2.N) : Memref sig .tc .vmem S1024x128 .f32 := win2_2.stage (cfg2.slots t 2)
abbrev mr2_3 (t : Fin cfg2.N) : Memref sig .tc .vmem S1024x128 .f32 := win2_3.stage (cfg2.slots t 3)
abbrev mr2_4 (t : Fin cfg2.N) : Memref sig .tc .vmem S1024x128 .f32 := win2_4.stage (cfg2.slots t 4)
abbrev acc2 : Memref sig .tc .vmem S1024x128 .f32 := Memref.whole cc2_scratch0
end Cert.Kernel.Spmm2
end
-- ==== Proof.KB.R2.Step.lean ====
import proofs.«165102_j58428735095548_1_alg».proof.Proof.KB.R2.Conds
import proofs.«165102_j58428735095548_1_alg».proof.Proof.Math.Spmm
import Idealize.ShloMosaic.Lib.Pipeline.Value

set_option maxRecDepth 16384

noncomputable section

namespace Cert.Kernel.Spmm2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One grid point's update of the accumulator: both block products added. -/
def upd2 (x0 x1 : Vec F S1024x1024 .f32) (x2 x3 xa : Vec F S1024x128 .f32) : Vec F S1024x128 .f32 :=
  k2_pay3 x1 x3 (k2_pay2 x0 x2 xa)

set_option maxHeartbeats 3000000 in
/-- The body at any point, run symbolically in its three cases: the accumulator restarts from zero at the first column
    block of a row, and the output block receives its copy at the last. -/
theorem step2 (c : Dev nD) (i : grid2.Coords) (a2 : Memref sig .tc .vmem S1024x1024 .f32) (h2 : a2.IsWhole) (a3 : Memref sig .tc .vmem S1024x1024 .f32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole)
    (hfl : ¬(first2 i ∧ last2 i)) (x0 x1 : Vec F S1024x1024 .f32) (x2 x3 xa xo : Vec F S1024x128 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare xo ∗ owns (c : Thread nD τ) a7 fullShare xa
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (if last2 i then upd2 x0 x1 x2 x3 (if first2 i then k2_pay1 else xa) else xo)
            ∗ owns (c : Thread nD τ) a7 fullShare (upd2 x0 x1 x2 x3 (if first2 i then k2_pay1 else xa))) -∗ K ⟨⟩))
      ⊢ wp frame (wpE (defs₀ (F := F)) Variants.none c none) E (cc2__spmm_kernel i a2 h2 a3 h3 a4 h4 a5 h5 a6 h6 a7 h7) K := by
  by_cases hf : first2 i <;> by_cases hl : last2 i
  · exact absurd ⟨hf, hl⟩ hfl
  all_goals
    (first | rw [if_pos hf] | rw [if_neg hf]
     first | rw [if_pos hl] | rw [if_neg hl]
     simp only [cc2__spmm_kernel_eq_skeleton]; unfold cc2__spmm_kernel_skel
     unfold owns
     iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
     obtain rfl := h2.eq_unread hf0; obtain rfl := h3.eq_unread hf1; obtain rfl := h4.eq_unread hf2; obtain rfl := h5.eq_unread hf3; obtain rfl := h6.eq_unread hf4; obtain rfl := h7.eq_unread hfs
     sl_exec (disch := first | exact hf | exact hl)
     sl_step
     iapply Hk
     isplitl [H0]
     · iexists _; isplitr; · ipureintro; exact h2.read_unread _
       iexact H0
     isplitl [H1]
     · iexists _; isplitr; · ipureintro; exact h3.read_unread _
       iexact H1
     isplitl [H2]
     · iexists _; isplitr; · ipureintro; exact h4.read_unread _
       iexact H2
     isplitl [H3]
     · iexists _; isplitr; · ipureintro; exact h5.read_unread _
       iexact H3
     isplitl [H4] <;>
      (iexists _; isplitr; swap; · iassumption
       ipureintro
       first
       | (rw [View.read_writes_eq_canon _ _ _ (View.cover_of_tiledL _ S1024x128.size (by sl_kernel_rfl))]
          sl_unfold_words
          rw [View.canon_cons_unit_zero (S := S1024x128) Cert.Spec.offZero]
          simp only [upd2, View.readCov_cons_toLoadRect, View.readAt_eq_ld, h2.read_unread, h3.read_unread, h4.read_unread, h5.read_unread, h7.read_unread,
            View.ld_unit_zero (S := S1024x1024) Cert.Spec.offZero, View.ld_unit_zero (S := S1024x128) Cert.Spec.offZero])
       | exact h6.read_unread _))

end Cert.Kernel.Spmm2

end
-- ==== Proof.KB.R2.Data.lean ====
import proofs.«165102_j58428735095548_1_alg».proof.Proof.KB.R2.Step

set_option maxRecDepth 16384

noncomputable section

namespace Cert.Kernel.Spmm2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev updAt2 (c : Dev nD) (t : Fin cfg2.N) (xa : Vec F S1024x128 .f32) : Vec F S1024x128 .f32 :=
  upd2 (blk2 V c 0 t) (blk2 V c 1 t) (blk2 V c 2 t) (blk2 V c 3 t) xa

/-- The accumulator after point n: restarted at the first column block of a row, else updated from the point before. -/
def accAt2 (c : Dev nD) : (n : ℕ) → n < cfg2.N → Vec F S1024x128 .f32
  | 0, hn => updAt2 V c ⟨0, hn⟩ k2_pay1
  | n + 1, hn => updAt2 V c ⟨n + 1, hn⟩ (if (n + 1) % 8 = 0 then k2_pay1 else accAt2 c n (Nat.lt_of_succ_lt hn))

theorem accAt2_step (c : Dev nD) (t : Fin cfg2.N) (xa : Vec F S1024x128 .f32)
    (hxa : ∀ k hk, t.val = k + 1 → t.val % 8 ≠ 0 → xa = accAt2 V c k hk) :
    updAt2 V c t (if first2 (grid2.coords t) then k2_pay1 else xa) = accAt2 V c t.val t.isLt := by
  obtain ⟨n, hn⟩ := t
  by_cases h0 : n % 8 = 0
  · rw [if_pos ((first2_iff ⟨n, hn⟩).mpr h0)]
    cases n with
    | zero => rfl
    | succ n => exact (congrArg (updAt2 V c ⟨n + 1, hn⟩) (if_pos h0)).symm
  · rw [if_neg (mt (first2_iff ⟨n, hn⟩).mp h0)]
    cases n with
    | zero => exact absurd (Nat.zero_mod 8) h0
    | succ n => rw [hxa n (Nat.lt_of_succ_lt hn) rfl h0]; exact (congrArg (updAt2 V c ⟨n + 1, hn⟩) (if_neg h0)).symm

abbrev others2 (c : Dev nD) : sProp 𝕄 :=
  Pipeline.scopedRestBut (Ix := Unit) (Name := ℕ) (U := UU) (Lvl := ℕ) (Val := Elt F) spec2 c [cc2_scratch0]

/-- Before position n the accumulator holds what the point before left (nothing is said at the start of a row). -/
def inv2 (c : Dev nD) (n : ℕ) : sProp 𝕄 :=
  iprop(∃ xa, ⌜∀ k hk, n = k + 1 → n % 8 ≠ 0 → xa = accAt2 V c k hk⌝ ∗ owns (c : Thread nD τ) acc2 fullShare xa ∗ others2 c)

def dat2 (c : Dev nD) : Dat τ (Elt F) Unit ℕ UU ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => if t.val % 8 = 7 then accAt2 V c t.val t.isLt else k2_pay1
  Φ t := inv2 V c t.val
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) :
    (dat2 V c).after 4 t = if t.val % 8 = 7 then accAt2 V c t.val t.isLt else k2_pay1 := by dsimp only [dat2]

end Cert.Kernel.Spmm2

end
-- ==== Proof.KB.R3.Conds.lean ====
import proofs.«165102_j58428735095548_1_alg».proof.Proof.Gen.Kernel.Launch
import proofs.«165102_j58428735095548_1_alg».proof.Proof.Gen.Kernel.Skeleton
import proofs.«165102_j58428735095548_1_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Spmm3
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
abbrev UU : Type := UR sig nD τ
abbrev first3 (i : grid3.Coords) : Prop :=
  (Scalar.cmpi .ne (Scalar.extui (Scalar.cmpi .eq (BitVec.ofNat 32 (i 1).val) 0#32)) 0#32) = 1#1
theorem first3_iff : ∀ t : Fin cfg3.N, first3 (grid3.coords t) ↔ t.val % 8 = 0 :=
  (by decide +kernel : ∀ t : Fin grid3.N, first3 (grid3.coords t) ↔ t.val % 8 = 0)
abbrev last3 (i : grid3.Coords) : Prop := k3_cond2 i = 1#1
theorem last3_iff : ∀ t : Fin cfg3.N, last3 (grid3.coords t) ↔ t.val % 8 = 7 :=
  (by decide +kernel : ∀ t : Fin grid3.N, last3 (grid3.coords t) ↔ t.val % 8 = 7)
theorem nfl3 : ∀ t : Fin cfg3.N, ¬(first3 (grid3.coords t) ∧ last3 (grid3.coords t)) := by decide +kernel
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem idle3_4 : ∀ t : Fin cfg3.N, ¬last3 (grid3.coords t) → cfg3.idle 4 (grid3.coords t) = true := by decide +kernel
theorem noflush3_4 : ∀ t : Fin cfg3.N, ¬last3 (grid3.coords t) → (cfg3.win 4).flush t = false := by decide +kernel
theorem live3_4 : ∀ t : Fin cfg3.N, last3 (grid3.coords t) → cfg3.idle 4 (grid3.coords t) = false := by decide +kernel
abbrev mr3_0 (t : Fin cfg3.N) : Memref sig .tc .vmem S1024x1024 .f32 := win3_0.stage (cfg3.slots t 0)
abbrev mr3_1 (t : Fin cfg3.N) : Memref sig .tc .vmem S1024x1024 .f32 := win3_1.stage (cfg3.slots t 1)
abbrev mr3_2 (t : Fin cfg3.N) : Memref sig .tc .vmem S1024x16 .f32 := win3_2.stage (cfg3.slots t 2)
abbrev mr3_3 (t : Fin cfg3.N) : Memref sig .tc .vmem S1024x16 .f32 := win3_3.stage (cfg3.slots t 3)
abbrev mr3_4 (t : Fin cfg3.N) : Memref sig .tc .vmem S1024x16 .f32 := win3_4.stage (cfg3.slots t 4)
abbrev acc3 : Memref sig .tc .vmem S1024x16 .f32 := Memref.whole cc3_scratch0
end Cert.Kernel.Spmm3
end
-- ==== Proof.KB.R3.Step.lean ====
import proofs.«165102_j58428735095548_1_alg».proof.Proof.KB.R3.Conds
import proofs.«165102_j58428735095548_1_alg».proof.Proof.Math.Spmm
import Idealize.ShloMosaic.Lib.Pipeline.Value

set_option maxRecDepth 16384

noncomputable section

namespace Cert.Kernel.Spmm3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One grid point's update of the accumulator: both block products added. -/
def upd3 (x0 x1 : Vec F S1024x1024 .f32) (x2 x3 xa : Vec F S1024x16 .f32) : Vec F S1024x16 .f32 :=
  k3_pay3 x1 x3 (k3_pay2 x0 x2 xa)

set_option maxHeartbeats 3000000 in
/-- The body at any point, run symbolically in its three cases: the accumulator restarts from zero at the first column
    block of a row, and the output block receives its copy at the last. -/
theorem step3 (c : Dev nD) (i : grid3.Coords) (a2 : Memref sig .tc .vmem S1024x1024 .f32) (h2 : a2.IsWhole) (a3 : Memref sig .tc .vmem S1024x1024 .f32) (h3 : a3.IsWhole) (a4 : Memref sig .tc .vmem S1024x16 .f32) (h4 : a4.IsWhole) (a5 : Memref sig .tc .vmem S1024x16 .f32) (h5 : a5.IsWhole) (a6 : Memref sig .tc .vmem S1024x16 .f32) (h6 : a6.IsWhole) (a7 : Memref sig .tc .vmem S1024x16 .f32) (h7 : a7.IsWhole)
    (hfl : ¬(first3 i ∧ last3 i)) (x0 x1 : Vec F S1024x1024 .f32) (x2 x3 xa xo : Vec F S1024x16 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare xo ∗ owns (c : Thread nD τ) a7 fullShare xa
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (if last3 i then upd3 x0 x1 x2 x3 (if first3 i then k3_pay1 else xa) else xo)
            ∗ owns (c : Thread nD τ) a7 fullShare (upd3 x0 x1 x2 x3 (if first3 i then k3_pay1 else xa))) -∗ K ⟨⟩))
      ⊢ wp frame (wpE (defs₀ (F := F)) Variants.none c none) E (cc3__spmm_kernel i a2 h2 a3 h3 a4 h4 a5 h5 a6 h6 a7 h7) K := by
  by_cases hf : first3 i <;> by_cases hl : last3 i
  · exact absurd ⟨hf, hl⟩ hfl
  all_goals
    (first | rw [if_pos hf] | rw [if_neg hf]
     first | rw [if_pos hl] | rw [if_neg hl]
     simp only [cc3__spmm_kernel_eq_skeleton]; unfold cc3__spmm_kernel_skel
     unfold owns
     iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
     obtain rfl := h2.eq_unread hf0; obtain rfl := h3.eq_unread hf1; obtain rfl := h4.eq_unread hf2; obtain rfl := h5.eq_unread hf3; obtain rfl := h6.eq_unread hf4; obtain rfl := h7.eq_unread hfs
     sl_exec (disch := first | exact hf | exact hl)
     sl_step
     iapply Hk
     isplitl [H0]
     · iexists _; isplitr; · ipureintro; exact h2.read_unread _
       iexact H0
     isplitl [H1]
     · iexists _; isplitr; · ipureintro; exact h3.read_unread _
       iexact H1
     isplitl [H2]
     · iexists _; isplitr; · ipureintro; exact h4.read_unread _
       iexact H2
     isplitl [H3]
     · iexists _; isplitr; · ipureintro; exact h5.read_unread _
       iexact H3
     isplitl [H4] <;>
      (iexists _; isplitr; swap; · iassumption
       ipureintro
       first
       | (rw [View.read_writes_eq_canon _ _ _ (View.cover_of_tiledL _ S1024x16.size (by sl_kernel_rfl))]
          sl_unfold_words
          rw [View.canon_cons_unit_zero (S := S1024x16) Cert.Spec.offZero]
          simp only [upd3, View.readCov_cons_toLoadRect, View.readAt_eq_ld, h2.read_unread, h3.read_unread, h4.read_unread, h5.read_unread, h7.read_unread,
            View.ld_unit_zero (S := S1024x1024) Cert.Spec.offZero, View.ld_unit_zero (S := S1024x16) Cert.Spec.offZero])
       | exact h6.read_unread _))

end Cert.Kernel.Spmm3

end
-- ==== Proof.KB.R3.Data.lean ====
import proofs.«165102_j58428735095548_1_alg».proof.Proof.KB.R3.Step

set_option maxRecDepth 16384

noncomputable section

namespace Cert.Kernel.Spmm3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev updAt3 (c : Dev nD) (t : Fin cfg3.N) (xa : Vec F S1024x16 .f32) : Vec F S1024x16 .f32 :=
  upd3 (blk3 V c 0 t) (blk3 V c 1 t) (blk3 V c 2 t) (blk3 V c 3 t) xa

/-- The accumulator after point n: restarted at the first column block of a row, else updated from the point before. -/
def accAt3 (c : Dev nD) : (n : ℕ) → n < cfg3.N → Vec F S1024x16 .f32
  | 0, hn => updAt3 V c ⟨0, hn⟩ k3_pay1
  | n + 1, hn => updAt3 V c ⟨n + 1, hn⟩ (if (n + 1) % 8 = 0 then k3_pay1 else accAt3 c n (Nat.lt_of_succ_lt hn))

theorem accAt3_step (c : Dev nD) (t : Fin cfg3.N) (xa : Vec F S1024x16 .f32)
    (hxa : ∀ k hk, t.val = k + 1 → t.val % 8 ≠ 0 → xa = accAt3 V c k hk) :
    updAt3 V c t (if first3 (grid3.coords t) then k3_pay1 else xa) = accAt3 V c t.val t.isLt := by
  obtain ⟨n, hn⟩ := t
  by_cases h0 : n % 8 = 0
  · rw [if_pos ((first3_iff ⟨n, hn⟩).mpr h0)]
    cases n with
    | zero => rfl
    | succ n => exact (congrArg (updAt3 V c ⟨n + 1, hn⟩) (if_pos h0)).symm
  · rw [if_neg (mt (first3_iff ⟨n, hn⟩).mp h0)]
    cases n with
    | zero => exact absurd (Nat.zero_mod 8) h0
    | succ n => rw [hxa n (Nat.lt_of_succ_lt hn) rfl h0]; exact (congrArg (updAt3 V c ⟨n + 1, hn⟩) (if_neg h0)).symm

abbrev others3 (c : Dev nD) : sProp 𝕄 :=
  Pipeline.scopedRestBut (Ix := Unit) (Name := ℕ) (U := UU) (Lvl := ℕ) (Val := Elt F) spec3 c [cc3_scratch0]

/-- Before position n the accumulator holds what the point before left (nothing is said at the start of a row). -/
def inv3 (c : Dev nD) (n : ℕ) : sProp 𝕄 :=
  iprop(∃ xa, ⌜∀ k hk, n = k + 1 → n % 8 ≠ 0 → xa = accAt3 V c k hk⌝ ∗ owns (c : Thread nD τ) acc3 fullShare xa ∗ others3 c)

def dat3 (c : Dev nD) : Dat τ (Elt F) Unit ℕ UU ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => if t.val % 8 = 7 then accAt3 V c t.val t.isLt else k3_pay1
  Φ t := inv3 V c t.val
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) :
    (dat3 V c).after 4 t = if t.val % 8 = 7 then accAt3 V c t.val t.isLt else k3_pay1 := by dsimp only [dat3]

end Cert.Kernel.Spmm3

end
-- ==== Proof.KB.Family.lean ====
import proofs.«165102_j58428735095548_1_alg».proof.Proof.KB.R0.Data
import proofs.«165102_j58428735095548_1_alg».proof.Proof.KB.R1.Data
import proofs.«165102_j58428735095548_1_alg».proof.Proof.KB.R2.Data
import proofs.«165102_j58428735095548_1_alg».proof.Proof.KB.R3.Data
import proofs.«165102_j58428735095548_1_alg».proof.Proof.Gen.Kernel.Regions
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
abbrev UU : Type := UR sig nD τ
local notation "𝕄" => MT nD τ sig Unit (Elt F) ℕ UU ℕ
abbrev atTc (W : Dev nD → Valuation τ sig (Elt F)) : (c : Dev nD) → (b : Ref sig .tc) → Buf (Elt F) ((c : Thread nD τ).loc b) :=
  fun c b => W c b
def fam (Wen : Fin 4 → Dev nD → Valuation τ sig (Elt F)) : (p : Fin 4) → (c : Dev nD) → Dat τ (Elt F) Unit ℕ UU ℕ (cfgs p) c
  | ⟨0, _⟩ => fun c => Spmm0.dat0 (atTc (Wen (0 : Fin 4))) c
  | ⟨1, _⟩ => fun c => Spmm1.dat1 (atTc (Wen (1 : Fin 4))) c
  | ⟨2, _⟩ => fun c => Spmm2.dat2 (atTc (Wen (2 : Fin 4))) c
  | ⟨3, _⟩ => fun c => Spmm3.dat3 (atTc (Wen (3 : Fin 4))) c
abbrev L : GSem nD τ sig → Finset Unit := fun _ => ∅
abbrev lv : GSem nD τ sig → Unit → ℕ := fun _ _ => 0
abbrev ride (c : Dev nD) : sProp 𝕄 :=
  iprop((∃ r, prngReg c r) ∗ ∃ Wt, owes (c : Thread nD τ) (0 : CellTallies nD τ sig Unit) Wt)
end Cert.Kernel.Hand
end
-- ==== Proof.KB.Chain.lean ====
import proofs.«165102_j58428735095548_1_alg».proof.Proof.KB.Family
set_option maxRecDepth 16384
noncomputable section
namespace Cert.Kernel.Hand
open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (m : (ℓ : Loc nD τ sig) → Buf (Elt F) ℓ)
abbrev W0 (c : Dev nD) : Valuation τ sig (Elt F) := fun b => m (c, b)
abbrev W1 (c : Dev nD) : Valuation τ sig (Elt F) := StableHlo.after hostOps0 (W0 m c)
def res0 (c : Dev nD) : Buf (Elt F) ((c : Thread nD τ).loc main_v7) := (Spmm0.dat0 (atTc (W1 m)) c).arrAt 4 cfg0.N
def W2 (c : Dev nD) : Valuation τ sig (Elt F) := Function.update (W1 m c) main_v7 (res0 m c)
abbrev W3 (c : Dev nD) : Valuation τ sig (Elt F) := StableHlo.after hostOps1 (W2 m c)
def res1 (c : Dev nD) : Buf (Elt F) ((c : Thread nD τ).loc main_v35) := (Spmm1.dat1 (atTc (W3 m)) c).arrAt 4 cfg1.N
def W4 (c : Dev nD) : Valuation τ sig (Elt F) := Function.update (W3 m c) main_v35 (res1 m c)
abbrev W5 (c : Dev nD) : Valuation τ sig (Elt F) := StableHlo.after hostOps2 (W4 m c)
abbrev W6 (c : Dev nD) : Valuation τ sig (Elt F) := StableHlo.after hostOps2_1 (W5 m c)
abbrev W7 (c : Dev nD) : Valuation τ sig (Elt F) := StableHlo.after hostOps2_2 (W6 m c)
def res2 (c : Dev nD) : Buf (Elt F) ((c : Thread nD τ).loc main_v45) := (Spmm2.dat2 (atTc (W7 m)) c).arrAt 4 cfg2.N
def W8 (c : Dev nD) : Valuation τ sig (Elt F) := Function.update (W7 m c) main_v45 (res2 m c)
abbrev W9 (c : Dev nD) : Valuation τ sig (Elt F) := StableHlo.after hostOps3 (W8 m c)
abbrev W10 (c : Dev nD) : Valuation τ sig (Elt F) := StableHlo.after hostOps3_1 (W9 m c)
abbrev W11 (c : Dev nD) : Valuation τ sig (Elt F) := StableHlo.after hostOps3_2 (W10 m c)
def res3 (c : Dev nD) : Buf (Elt F) ((c : Thread nD τ).loc main_v55) := (Spmm3.dat3 (atTc (W11 m)) c).arrAt 4 cfg3.N
def W12 (c : Dev nD) : Valuation τ sig (Elt F) := Function.update (W11 m c) main_v55 (res3 m c)
abbrev W13 (c : Dev nD) : Valuation τ sig (Elt F) := StableHlo.after hostOps4 (W12 m c)
def outs : Gen.Outs (F := F) := fun n r c =>
  match n with
  | 2 => W2 m c r
  | 4 => W4 m c r
  | 8 => W8 m c r
  | 12 => W12 m c r
  | _ => W0 m c r
def entry : Fin 4 → Dev nD → Valuation τ sig (Elt F)
  | ⟨0, _⟩ => W1 m
  | ⟨1, _⟩ => W3 m
  | ⟨2, _⟩ => W7 m
  | ⟨3, _⟩ => W11 m
abbrev pdats : (p : Fin 4) → (c : Dev nD) → Dat τ (Elt F) Unit ℕ Hand.UU ℕ (cfgs p) c :=
  fam (entry m)
end Cert.Kernel.Hand
end
-- ==== Proof.KB.R0.Body.lean ====
import proofs.«165102_j58428735095548_1_alg».proof.Proof.KB.R0.Data

set_option maxRecDepth 16384

noncomputable section

namespace Cert.Kernel.Spmm0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

theorem before0_0 (c : Dev nD) (t : Fin cfg0.N) (d) : (dat0 V c).before 0 t d = blk0 V c 0 t :=
  ((dat0 V c).before_fetched 0 t (fetch0_0 t) d).trans (by unfold Dat.fetched Dat.blockOf blk0; rw [A_eq0]; try rfl)
theorem before0_1 (c : Dev nD) (t : Fin cfg0.N) (d) : (dat0 V c).before 1 t d = blk0 V c 1 t :=
  ((dat0 V c).before_fetched 1 t (fetch0_1 t) d).trans (by unfold Dat.fetched Dat.blockOf blk0; rw [A_eq0]; try rfl)
theorem before0_2 (c : Dev nD) (t : Fin cfg0.N) (d) : (dat0 V c).before 2 t d = blk0 V c 2 t :=
  ((dat0 V c).before_fetched 2 t (fetch0_2 t) d).trans (by unfold Dat.fetched Dat.blockOf blk0; rw [A_eq0]; try rfl)
theorem before0_3 (c : Dev nD) (t : Fin cfg0.N) (d) : (dat0 V c).before 3 t d = blk0 V c 3 t :=
  ((dat0 V c).before_fetched 3 t (fetch0_3 t) d).trans (by unfold Dat.fetched Dat.blockOf blk0; rw [A_eq0]; try rfl)

theorem rest0_eq (c : Dev nD) :
    (Pipeline.scopedRest (Ix := Unit) (Name := ℕ) (U := UU) (Lvl := ℕ) (Val := Elt F) spec0 c : sProp 𝕄)
      = iprop(iprop((∃ d, owns (c : Thread nD τ) acc0 fullShare d)) ∗ others0 c) := by
  rw [scopedRest0_split]; simp only [acc0, owns_whole]; rfl

def bodyPre0 (c : Dev nD) (t : Fin cfg0.N) : sProp 𝕄 :=
  iprop((dat0 V c).Φ t.castSucc ∗ (dat0 V c).owesAt () t.castSucc
    ∗ (∃ d, owns (c : Thread nD τ) (mr0_0 t) fullShare ((dat0 V c).before 0 t d))
    ∗ (∃ d, owns (c : Thread nD τ) (mr0_1 t) fullShare ((dat0 V c).before 1 t d))
    ∗ (∃ d, owns (c : Thread nD τ) (mr0_2 t) fullShare ((dat0 V c).before 2 t d))
    ∗ (∃ d, owns (c : Thread nD τ) (mr0_3 t) fullShare ((dat0 V c).before 3 t d))
    ∗ (∃ d, owns (c : Thread nD τ) (mr0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- The output block after the body: the accumulator's copy at the last column block of a row, else as found. -/
theorem leaves0_4 (c : Dev nD) (t : Fin cfg0.N) (d) (xa : Vec F S1024x8 .f32)
    (hxa : ∀ k hk, t.val = k + 1 → t.val % 8 ≠ 0 → xa = accAt0 V c k hk) :
    owns (c : Thread nD τ) (mr0_4 t) fullShare
        (if last0 (grid0.coords t) then updAt0 V c t (if first0 (grid0.coords t) then k0_pay1 else xa) else (dat0 V c).before 4 t d)
      ⊢ (dat0 V c).leavesExact 4 t := by
  by_cases hl : last0 (grid0.coords t)
  · rw [if_pos hl, accAt0_step V c t xa hxa,
      show (dat0 V c).leavesExact 4 t = owns (c : Thread nD τ) (mr0_4 t) fullShare ((dat0 V c).after 4 t) from by
        unfold Dat.leavesExact; rw [live0_4 t hl], after0_4, if_pos ((last0_iff t).mp hl)]
  · rw [if_neg hl, Dat.leavesExact_idle (dat0 V c) 4 t (idle0_4 t hl) (noflush0_4 t hl)]
    iintro H; iexists d; iexact H

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = inv0 V c (t.val + 1) from rfl, show (dat0 V c).Φ t.castSucc = inv0 V c t.val from rfl]
  rw [show (dat0 V c).leavesExact 0 t = owns (c : Thread nD τ) (mr0_0 t) fullShare ((dat0 V c).after 0 t) from by
    unfold Dat.leavesExact; rw [live0_0 t], after0_0]
  rw [show (dat0 V c).leavesExact 1 t = owns (c : Thread nD τ) (mr0_1 t) fullShare ((dat0 V c).after 1 t) from by
    unfold Dat.leavesExact; rw [live0_1 t], after0_1]
  rw [show (dat0 V c).leavesExact 2 t = owns (c : Thread nD τ) (mr0_2 t) fullShare ((dat0 V c).after 2 t) from by
    unfold Dat.leavesExact; rw [live0_2 t], after0_2]
  rw [show (dat0 V c).leavesExact 3 t = owns (c : Thread nD τ) (mr0_3 t) fullShare ((dat0 V c).after 3 t) from by
    unfold Dat.leavesExact; rw [live0_3 t], after0_3]
  unfold inv0
  iintro ⟨⟨%xa, %hxa, HS, Hr⟩, Ho, ⟨%d0, H0⟩, ⟨%d1, H1⟩, ⟨%d2, H2⟩, ⟨%d3, H3⟩, ⟨%d4, H4⟩⟩
  iapply (step0 c (grid0.coords t) _ _ _ _ _ _ _ _ _ _ _ _ (nfl0 t) (blk0 V c 0 t) (blk0 V c 1 t) (blk0 V c 2 t) (blk0 V c 3 t) xa _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hr]
  · iexists _; isplitr
    swap
    · isplitl [HS]; · iexact HS
      iexact Hr
    ipureintro
    exact fun k hk e _ => by obtain rfl := Nat.succ.inj e; exact accAt0_step V c t xa hxa
  isplitl [Ho]; · iexact Ho
  isplitl [H0]; · iexact H0
  isplitl [H1]; · iexact H1
  isplitl [H2]; · iexact H2
  isplitl [H3]; · iexact H3
  iapply (leaves0_4 V c t d4 xa hxa); iexact H4

theorem body_obligation0 (c : Dev nD) : BodyObligation (dat0 (F := F) V c) (defs₀ (F := F)) Variants.none () Set.univ := fun t => by
  rw [bigSep_W0, bigSep_W0]
  exact sound_body0 V c t

theorem enter0 (c : Dev nD) :
    (Pipeline.scopedRest (Ix := Unit) (Name := ℕ) (U := UU) (Lvl := ℕ) (Val := Elt F) spec0 c : sProp 𝕄) ⊢ (dat0 V c).Φ 0 := by
  rw [show (dat0 V c).Φ 0 = inv0 V c 0 from rfl, rest0_eq]
  unfold inv0
  iintro ⟨⟨%d, HS⟩, Hr⟩
  iexists d; isplitr; · ipureintro; exact fun k _ e _ => absurd e.symm (Nat.succ_ne_zero k)
  isplitl [HS]; · iexact HS
  iexact Hr

theorem leave0 (c : Dev nD) :
    (dat0 V c).Φ (Fin.last cfg0.N) ⊢ (Pipeline.scopedRest (Ix := Unit) (Name := ℕ) (U := UU) (Lvl := ℕ) (Val := Elt F) spec0 c : sProp 𝕄) := by
  rw [show (dat0 V c).Φ (Fin.last cfg0.N) = inv0 V c (Fin.last cfg0.N).val from rfl, rest0_eq]
  unfold inv0
  iintro ⟨%xa, -, HS, Hr⟩
  isplitl [HS]; · iexists _; iexact HS
  iexact Hr

end Cert.Kernel.Spmm0

end
-- ==== Proof.KB.R0.Region.lean ====
import proofs.«165102_j58428735095548_1_alg».proof.Proof.KB.Family
import proofs.«165102_j58428735095548_1_alg».proof.Proof.KB.R0.Body
import Idealize.ShloMosaic.Lib.Pipeline.RegionsLoop
set_option maxRecDepth 16384
noncomputable section
namespace Cert.Kernel.Spmm0
open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (Wen : Fin 4 → Dev nD → Valuation τ sig (Elt F))
set_option backward.isDefEq.respectTransparency.types false in
def reg0 (Wp : Dev nD → Valuation τ sig (Elt F))
    (hout : ∀ c, Wp c main_v7 = (dat0 (atTc (Wen (0 : Fin 4))) c).arrAt 4 cfg0.N)
    (hne : ∀ c (b : Ref sig .tc), b ≠ main_v7 → Wp c b = Wen (0 : Fin 4) c b) :
    Pipeline.RegionSeg (pcfgs (F := F)) Gen.adm (fam Wen) () defs₀ Variants.none L lv (0 : Fin 4) where
  win := launch0.win.to₀
  block_pos := launch0.block_pos
  stage_whole := launch0.stage_whole
  K := PEmpty
  osem k := k.elim
  ho := Pipeline.OwnSemFacts.none _
  hbody c := (body_obligation0 (atTc (Wen (0 : Fin 4))) c).loose
  hwaits := Pipeline.hwaits_of_owed_zero _ _ _ _ L lv (0 : Fin 4) fun _ _ => rfl
  pre c := iprop(StableHlo.held (c : Thread nD τ) (Pipeline.ucRefs τ sig) (Wen (0 : Fin 4) c) ∗ ride c)
  post c := iprop(StableHlo.held (c : Thread nD τ) (Pipeline.ucRefs τ sig) (Wp c) ∗ ride c)
  X _ := BI.emp
  Y _ := BI.emp
  Z c := iprop(Pipeline.unscopedRest (Ix := Unit) (Name := ℕ) (U := Hand.UU) (Lvl := ℕ) spec0 c (atTc (Wen (0 : Fin 4)) c) ∗ ∃ r, prngReg c r)
  hentry c := by
    have hsplit := Pipeline.arrays_of_unscopedBufs (p := (0 : Fin 4)) (pcfgs (F := F)) Gen.adm (fam Wen) launch0.win launch0.arr_whole c
      ((fam Wen (0 : Fin 4) c).share_full fun _ => rfl) (atTc (Wen (0 : Fin 4)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    isplitl [Hrest]; · iexact Hrest
    iexact Hp
  hin c := by
    refine BIBase.Entails.trans ?_ (enter0 (atTc (Wen (0 : Fin 4))) c)
    iintro ⟨-, -, Hr⟩
    iexact Hr
  hout c := by
    rw [Pipeline.ownSems0_none]
    refine BIBase.Entails.trans (leave0 (atTc (Wen (0 : Fin 4))) c) ?_
    iintro H
    isplitr; · iempintro
    isplitr; · iempintro
    iexact H
  hexit c := by
    have hF : ∀ w : Fin cfg0.W, (fam Wen (0 : Fin 4) c).arrAt w cfg0.N = atTc Wp c (Pipeline.arrRef spec0 w) := fun
      | ⟨0, _⟩ => ((fam Wen (0 : Fin 4) c).arrAt_in 0 rfl _).trans (hne c _ (by decide)).symm
      | ⟨1, _⟩ => ((fam Wen (0 : Fin 4) c).arrAt_in 1 rfl _).trans (hne c _ (by decide)).symm
      | ⟨2, _⟩ => ((fam Wen (0 : Fin 4) c).arrAt_in 2 rfl _).trans (hne c _ (by decide)).symm
      | ⟨3, _⟩ => ((fam Wen (0 : Fin 4) c).arrAt_in 3 rfl _).trans (hne c _ (by decide)).symm
      | ⟨4, _⟩ => (hout c).symm
    have hrest : ∀ b, b ∉ Finset.univ.image (Pipeline.arrRef spec0) → atTc Wp c b = atTc (Wen (0 : Fin 4)) c b :=
      fun b hb => hne c b fun e => hb (Finset.mem_image.mpr ⟨4, Finset.mem_univ _, e.symm⟩)
    have hjoin := Pipeline.unscopedBufs_of_arrays (p := (0 : Fin 4)) (pcfgs (F := F)) Gen.adm (Ix := Unit) (Name := ℕ) (U := Hand.UU) (Lvl := ℕ)
      launch0.win launch0.arr_whole c (fam Wen) ((fam Wen (0 : Fin 4) c).share_full fun _ => rfl)
      (atTc (Wen (0 : Fin 4)) c) (atTc Wp c) ((fam Wen (0 : Fin 4) c).arrAt · cfg0.N) hF hrest
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%Wt, -, HO⟩; iexists Wt; iexact HO
end Cert.Kernel.Spmm0
end
-- ==== Proof.KB.R1.Body.lean ====
import proofs.«165102_j58428735095548_1_alg».proof.Proof.KB.R1.Data

set_option maxRecDepth 16384

noncomputable section

namespace Cert.Kernel.Spmm1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

theorem before1_0 (c : Dev nD) (t : Fin cfg1.N) (d) : (dat1 V c).before 0 t d = blk1 V c 0 t :=
  ((dat1 V c).before_fetched 0 t (fetch1_0 t) d).trans (by unfold Dat.fetched Dat.blockOf blk1; rw [A_eq1]; try rfl)
theorem before1_1 (c : Dev nD) (t : Fin cfg1.N) (d) : (dat1 V c).before 1 t d = blk1 V c 1 t :=
  ((dat1 V c).before_fetched 1 t (fetch1_1 t) d).trans (by unfold Dat.fetched Dat.blockOf blk1; rw [A_eq1]; try rfl)
theorem before1_2 (c : Dev nD) (t : Fin cfg1.N) (d) : (dat1 V c).before 2 t d = blk1 V c 2 t :=
  ((dat1 V c).before_fetched 2 t (fetch1_2 t) d).trans (by unfold Dat.fetched Dat.blockOf blk1; rw [A_eq1]; try rfl)
theorem before1_3 (c : Dev nD) (t : Fin cfg1.N) (d) : (dat1 V c).before 3 t d = blk1 V c 3 t :=
  ((dat1 V c).before_fetched 3 t (fetch1_3 t) d).trans (by unfold Dat.fetched Dat.blockOf blk1; rw [A_eq1]; try rfl)

theorem rest1_eq (c : Dev nD) :
    (Pipeline.scopedRest (Ix := Unit) (Name := ℕ) (U := UU) (Lvl := ℕ) (Val := Elt F) spec1 c : sProp 𝕄)
      = iprop(iprop((∃ d, owns (c : Thread nD τ) acc1 fullShare d)) ∗ others1 c) := by
  rw [scopedRest1_split]; simp only [acc1, owns_whole]; rfl

def bodyPre1 (c : Dev nD) (t : Fin cfg1.N) : sProp 𝕄 :=
  iprop((dat1 V c).Φ t.castSucc ∗ (dat1 V c).owesAt () t.castSucc
    ∗ (∃ d, owns (c : Thread nD τ) (mr1_0 t) fullShare ((dat1 V c).before 0 t d))
    ∗ (∃ d, owns (c : Thread nD τ) (mr1_1 t) fullShare ((dat1 V c).before 1 t d))
    ∗ (∃ d, owns (c : Thread nD τ) (mr1_2 t) fullShare ((dat1 V c).before 2 t d))
    ∗ (∃ d, owns (c : Thread nD τ) (mr1_3 t) fullShare ((dat1 V c).before 3 t d))
    ∗ (∃ d, owns (c : Thread nD τ) (mr1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The output block after the body: the accumulator's copy at the last column block of a row, else as found. -/
theorem leaves1_4 (c : Dev nD) (t : Fin cfg1.N) (d) (xa : Vec F S1024x128 .f32)
    (hxa : ∀ k hk, t.val = k + 1 → t.val % 8 ≠ 0 → xa = accAt1 V c k hk) :
    owns (c : Thread nD τ) (mr1_4 t) fullShare
        (if last1 (grid1.coords t) then updAt1 V c t (if first1 (grid1.coords t) then k1_pay1 else xa) else (dat1 V c).before 4 t d)
      ⊢ (dat1 V c).leavesExact 4 t := by
  by_cases hl : last1 (grid1.coords t)
  · rw [if_pos hl, accAt1_step V c t xa hxa,
      show (dat1 V c).leavesExact 4 t = owns (c : Thread nD τ) (mr1_4 t) fullShare ((dat1 V c).after 4 t) from by
        unfold Dat.leavesExact; rw [live1_4 t hl], after1_4, if_pos ((last1_iff t).mp hl)]
  · rw [if_neg hl, Dat.leavesExact_idle (dat1 V c) 4 t (idle1_4 t hl) (noflush1_4 t hl)]
    iintro H; iexists d; iexact H

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = inv1 V c (t.val + 1) from rfl, show (dat1 V c).Φ t.castSucc = inv1 V c t.val from rfl]
  rw [show (dat1 V c).leavesExact 0 t = owns (c : Thread nD τ) (mr1_0 t) fullShare ((dat1 V c).after 0 t) from by
    unfold Dat.leavesExact; rw [live1_0 t], after1_0]
  rw [show (dat1 V c).leavesExact 1 t = owns (c : Thread nD τ) (mr1_1 t) fullShare ((dat1 V c).after 1 t) from by
    unfold Dat.leavesExact; rw [live1_1 t], after1_1]
  rw [show (dat1 V c).leavesExact 2 t = owns (c : Thread nD τ) (mr1_2 t) fullShare ((dat1 V c).after 2 t) from by
    unfold Dat.leavesExact; rw [live1_2 t], after1_2]
  rw [show (dat1 V c).leavesExact 3 t = owns (c : Thread nD τ) (mr1_3 t) fullShare ((dat1 V c).after 3 t) from by
    unfold Dat.leavesExact; rw [live1_3 t], after1_3]
  unfold inv1
  iintro ⟨⟨%xa, %hxa, HS, Hr⟩, Ho, ⟨%d0, H0⟩, ⟨%d1, H1⟩, ⟨%d2, H2⟩, ⟨%d3, H3⟩, ⟨%d4, H4⟩⟩
  iapply (step1 c (grid1.coords t) _ _ _ _ _ _ _ _ _ _ _ _ (nfl1 t) (blk1 V c 0 t) (blk1 V c 1 t) (blk1 V c 2 t) (blk1 V c 3 t) xa _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hr]
  · iexists _; isplitr
    swap
    · isplitl [HS]; · iexact HS
      iexact Hr
    ipureintro
    exact fun k hk e _ => by obtain rfl := Nat.succ.inj e; exact accAt1_step V c t xa hxa
  isplitl [Ho]; · iexact Ho
  isplitl [H0]; · iexact H0
  isplitl [H1]; · iexact H1
  isplitl [H2]; · iexact H2
  isplitl [H3]; · iexact H3
  iapply (leaves1_4 V c t d4 xa hxa); iexact H4

theorem body_obligation1 (c : Dev nD) : BodyObligation (dat1 (F := F) V c) (defs₀ (F := F)) Variants.none () Set.univ := fun t => by
  rw [bigSep_W1, bigSep_W1]
  exact sound_body1 V c t

theorem enter1 (c : Dev nD) :
    (Pipeline.scopedRest (Ix := Unit) (Name := ℕ) (U := UU) (Lvl := ℕ) (Val := Elt F) spec1 c : sProp 𝕄) ⊢ (dat1 V c).Φ 0 := by
  rw [show (dat1 V c).Φ 0 = inv1 V c 0 from rfl, rest1_eq]
  unfold inv1
  iintro ⟨⟨%d, HS⟩, Hr⟩
  iexists d; isplitr; · ipureintro; exact fun k _ e _ => absurd e.symm (Nat.succ_ne_zero k)
  isplitl [HS]; · iexact HS
  iexact Hr

theorem leave1 (c : Dev nD) :
    (dat1 V c).Φ (Fin.last cfg1.N) ⊢ (Pipeline.scopedRest (Ix := Unit) (Name := ℕ) (U := UU) (Lvl := ℕ) (Val := Elt F) spec1 c : sProp 𝕄) := by
  rw [show (dat1 V c).Φ (Fin.last cfg1.N) = inv1 V c (Fin.last cfg1.N).val from rfl, rest1_eq]
  unfold inv1
  iintro ⟨%xa, -, HS, Hr⟩
  isplitl [HS]; · iexists _; iexact HS
  iexact Hr

end Cert.Kernel.Spmm1

end
-- ==== Proof.KB.R1.Region.lean ====
import proofs.«165102_j58428735095548_1_alg».proof.Proof.KB.Family
import proofs.«165102_j58428735095548_1_alg».proof.Proof.KB.R1.Body
import Idealize.ShloMosaic.Lib.Pipeline.RegionsLoop
set_option maxRecDepth 16384
noncomputable section
namespace Cert.Kernel.Spmm1
open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (Wen : Fin 4 → Dev nD → Valuation τ sig (Elt F))
set_option backward.isDefEq.respectTransparency.types false in
def reg1 (Wp : Dev nD → Valuation τ sig (Elt F))
    (hout : ∀ c, Wp c main_v35 = (dat1 (atTc (Wen (1 : Fin 4))) c).arrAt 4 cfg1.N)
    (hne : ∀ c (b : Ref sig .tc), b ≠ main_v35 → Wp c b = Wen (1 : Fin 4) c b) :
    Pipeline.RegionSeg (pcfgs (F := F)) Gen.adm (fam Wen) () defs₀ Variants.none L lv (1 : Fin 4) where
  win := launch1.win.to₀
  block_pos := launch1.block_pos
  stage_whole := launch1.stage_whole
  K := PEmpty
  osem k := k.elim
  ho := Pipeline.OwnSemFacts.none _
  hbody c := (body_obligation1 (atTc (Wen (1 : Fin 4))) c).loose
  hwaits := Pipeline.hwaits_of_owed_zero _ _ _ _ L lv (1 : Fin 4) fun _ _ => rfl
  pre c := iprop(StableHlo.held (c : Thread nD τ) (Pipeline.ucRefs τ sig) (Wen (1 : Fin 4) c) ∗ ride c)
  post c := iprop(StableHlo.held (c : Thread nD τ) (Pipeline.ucRefs τ sig) (Wp c) ∗ ride c)
  X _ := BI.emp
  Y _ := BI.emp
  Z c := iprop(Pipeline.unscopedRest (Ix := Unit) (Name := ℕ) (U := Hand.UU) (Lvl := ℕ) spec1 c (atTc (Wen (1 : Fin 4)) c) ∗ ∃ r, prngReg c r)
  hentry c := by
    have hsplit := Pipeline.arrays_of_unscopedBufs (p := (1 : Fin 4)) (pcfgs (F := F)) Gen.adm (fam Wen) launch1.win launch1.arr_whole c
      ((fam Wen (1 : Fin 4) c).share_full fun _ => rfl) (atTc (Wen (1 : Fin 4)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    isplitl [Hrest]; · iexact Hrest
    iexact Hp
  hin c := by
    refine BIBase.Entails.trans ?_ (enter1 (atTc (Wen (1 : Fin 4))) c)
    iintro ⟨-, -, Hr⟩
    iexact Hr
  hout c := by
    rw [Pipeline.ownSems0_none]
    refine BIBase.Entails.trans (leave1 (atTc (Wen (1 : Fin 4))) c) ?_
    iintro H
    isplitr; · iempintro
    isplitr; · iempintro
    iexact H
  hexit c := by
    have hF : ∀ w : Fin cfg1.W, (fam Wen (1 : Fin 4) c).arrAt w cfg1.N = atTc Wp c (Pipeline.arrRef spec1 w) := fun
      | ⟨0, _⟩ => ((fam Wen (1 : Fin 4) c).arrAt_in 0 rfl _).trans (hne c _ (by decide)).symm
      | ⟨1, _⟩ => ((fam Wen (1 : Fin 4) c).arrAt_in 1 rfl _).trans (hne c _ (by decide)).symm
      | ⟨2, _⟩ => ((fam Wen (1 : Fin 4) c).arrAt_in 2 rfl _).trans (hne c _ (by decide)).symm
      | ⟨3, _⟩ => ((fam Wen (1 : Fin 4) c).arrAt_in 3 rfl _).trans (hne c _ (by decide)).symm
      | ⟨4, _⟩ => (hout c).symm
    have hrest : ∀ b, b ∉ Finset.univ.image (Pipeline.arrRef spec1) → atTc Wp c b = atTc (Wen (1 : Fin 4)) c b :=
      fun b hb => hne c b fun e => hb (Finset.mem_image.mpr ⟨4, Finset.mem_univ _, e.symm⟩)
    have hjoin := Pipeline.unscopedBufs_of_arrays (p := (1 : Fin 4)) (pcfgs (F := F)) Gen.adm (Ix := Unit) (Name := ℕ) (U := Hand.UU) (Lvl := ℕ)
      launch1.win launch1.arr_whole c (fam Wen) ((fam Wen (1 : Fin 4) c).share_full fun _ => rfl)
      (atTc (Wen (1 : Fin 4)) c) (atTc Wp c) ((fam Wen (1 : Fin 4) c).arrAt · cfg1.N) hF hrest
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%Wt, -, HO⟩; iexists Wt; iexact HO
end Cert.Kernel.Spmm1
end
-- ==== Proof.KB.R2.Body.lean ====
import proofs.«165102_j58428735095548_1_alg».proof.Proof.KB.R2.Data

set_option maxRecDepth 16384

noncomputable section

namespace Cert.Kernel.Spmm2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

theorem before2_0 (c : Dev nD) (t : Fin cfg2.N) (d) : (dat2 V c).before 0 t d = blk2 V c 0 t :=
  ((dat2 V c).before_fetched 0 t (fetch2_0 t) d).trans (by unfold Dat.fetched Dat.blockOf blk2; rw [A_eq2]; try rfl)
theorem before2_1 (c : Dev nD) (t : Fin cfg2.N) (d) : (dat2 V c).before 1 t d = blk2 V c 1 t :=
  ((dat2 V c).before_fetched 1 t (fetch2_1 t) d).trans (by unfold Dat.fetched Dat.blockOf blk2; rw [A_eq2]; try rfl)
theorem before2_2 (c : Dev nD) (t : Fin cfg2.N) (d) : (dat2 V c).before 2 t d = blk2 V c 2 t :=
  ((dat2 V c).before_fetched 2 t (fetch2_2 t) d).trans (by unfold Dat.fetched Dat.blockOf blk2; rw [A_eq2]; try rfl)
theorem before2_3 (c : Dev nD) (t : Fin cfg2.N) (d) : (dat2 V c).before 3 t d = blk2 V c 3 t :=
  ((dat2 V c).before_fetched 3 t (fetch2_3 t) d).trans (by unfold Dat.fetched Dat.blockOf blk2; rw [A_eq2]; try rfl)

theorem rest2_eq (c : Dev nD) :
    (Pipeline.scopedRest (Ix := Unit) (Name := ℕ) (U := UU) (Lvl := ℕ) (Val := Elt F) spec2 c : sProp 𝕄)
      = iprop(iprop((∃ d, owns (c : Thread nD τ) acc2 fullShare d)) ∗ others2 c) := by
  rw [scopedRest2_split]; simp only [acc2, owns_whole]; rfl

def bodyPre2 (c : Dev nD) (t : Fin cfg2.N) : sProp 𝕄 :=
  iprop((dat2 V c).Φ t.castSucc ∗ (dat2 V c).owesAt () t.castSucc
    ∗ (∃ d, owns (c : Thread nD τ) (mr2_0 t) fullShare ((dat2 V c).before 0 t d))
    ∗ (∃ d, owns (c : Thread nD τ) (mr2_1 t) fullShare ((dat2 V c).before 1 t d))
    ∗ (∃ d, owns (c : Thread nD τ) (mr2_2 t) fullShare ((dat2 V c).before 2 t d))
    ∗ (∃ d, owns (c : Thread nD τ) (mr2_3 t) fullShare ((dat2 V c).before 3 t d))
    ∗ (∃ d, owns (c : Thread nD τ) (mr2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- The output block after the body: the accumulator's copy at the last column block of a row, else as found. -/
theorem leaves2_4 (c : Dev nD) (t : Fin cfg2.N) (d) (xa : Vec F S1024x128 .f32)
    (hxa : ∀ k hk, t.val = k + 1 → t.val % 8 ≠ 0 → xa = accAt2 V c k hk) :
    owns (c : Thread nD τ) (mr2_4 t) fullShare
        (if last2 (grid2.coords t) then updAt2 V c t (if first2 (grid2.coords t) then k2_pay1 else xa) else (dat2 V c).before 4 t d)
      ⊢ (dat2 V c).leavesExact 4 t := by
  by_cases hl : last2 (grid2.coords t)
  · rw [if_pos hl, accAt2_step V c t xa hxa,
      show (dat2 V c).leavesExact 4 t = owns (c : Thread nD τ) (mr2_4 t) fullShare ((dat2 V c).after 4 t) from by
        unfold Dat.leavesExact; rw [live2_4 t hl], after2_4, if_pos ((last2_iff t).mp hl)]
  · rw [if_neg hl, Dat.leavesExact_idle (dat2 V c) 4 t (idle2_4 t hl) (noflush2_4 t hl)]
    iintro H; iexists d; iexact H

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = inv2 V c (t.val + 1) from rfl, show (dat2 V c).Φ t.castSucc = inv2 V c t.val from rfl]
  rw [show (dat2 V c).leavesExact 0 t = owns (c : Thread nD τ) (mr2_0 t) fullShare ((dat2 V c).after 0 t) from by
    unfold Dat.leavesExact; rw [live2_0 t], after2_0]
  rw [show (dat2 V c).leavesExact 1 t = owns (c : Thread nD τ) (mr2_1 t) fullShare ((dat2 V c).after 1 t) from by
    unfold Dat.leavesExact; rw [live2_1 t], after2_1]
  rw [show (dat2 V c).leavesExact 2 t = owns (c : Thread nD τ) (mr2_2 t) fullShare ((dat2 V c).after 2 t) from by
    unfold Dat.leavesExact; rw [live2_2 t], after2_2]
  rw [show (dat2 V c).leavesExact 3 t = owns (c : Thread nD τ) (mr2_3 t) fullShare ((dat2 V c).after 3 t) from by
    unfold Dat.leavesExact; rw [live2_3 t], after2_3]
  unfold inv2
  iintro ⟨⟨%xa, %hxa, HS, Hr⟩, Ho, ⟨%d0, H0⟩, ⟨%d1, H1⟩, ⟨%d2, H2⟩, ⟨%d3, H3⟩, ⟨%d4, H4⟩⟩
  iapply (step2 c (grid2.coords t) _ _ _ _ _ _ _ _ _ _ _ _ (nfl2 t) (blk2 V c 0 t) (blk2 V c 1 t) (blk2 V c 2 t) (blk2 V c 3 t) xa _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hr]
  · iexists _; isplitr
    swap
    · isplitl [HS]; · iexact HS
      iexact Hr
    ipureintro
    exact fun k hk e _ => by obtain rfl := Nat.succ.inj e; exact accAt2_step V c t xa hxa
  isplitl [Ho]; · iexact Ho
  isplitl [H0]; · iexact H0
  isplitl [H1]; · iexact H1
  isplitl [H2]; · iexact H2
  isplitl [H3]; · iexact H3
  iapply (leaves2_4 V c t d4 xa hxa); iexact H4

theorem body_obligation2 (c : Dev nD) : BodyObligation (dat2 (F := F) V c) (defs₀ (F := F)) Variants.none () Set.univ := fun t => by
  rw [bigSep_W2, bigSep_W2]
  exact sound_body2 V c t

theorem enter2 (c : Dev nD) :
    (Pipeline.scopedRest (Ix := Unit) (Name := ℕ) (U := UU) (Lvl := ℕ) (Val := Elt F) spec2 c : sProp 𝕄) ⊢ (dat2 V c).Φ 0 := by
  rw [show (dat2 V c).Φ 0 = inv2 V c 0 from rfl, rest2_eq]
  unfold inv2
  iintro ⟨⟨%d, HS⟩, Hr⟩
  iexists d; isplitr; · ipureintro; exact fun k _ e _ => absurd e.symm (Nat.succ_ne_zero k)
  isplitl [HS]; · iexact HS
  iexact Hr

theorem leave2 (c : Dev nD) :
    (dat2 V c).Φ (Fin.last cfg2.N) ⊢ (Pipeline.scopedRest (Ix := Unit) (Name := ℕ) (U := UU) (Lvl := ℕ) (Val := Elt F) spec2 c : sProp 𝕄) := by
  rw [show (dat2 V c).Φ (Fin.last cfg2.N) = inv2 V c (Fin.last cfg2.N).val from rfl, rest2_eq]
  unfold inv2
  iintro ⟨%xa, -, HS, Hr⟩
  isplitl [HS]; · iexists _; iexact HS
  iexact Hr

end Cert.Kernel.Spmm2

end
-- ==== Proof.KB.R2.Region.lean ====
import proofs.«165102_j58428735095548_1_alg».proof.Proof.KB.Family
import proofs.«165102_j58428735095548_1_alg».proof.Proof.KB.R2.Body
import Idealize.ShloMosaic.Lib.Pipeline.RegionsLoop
set_option maxRecDepth 16384
noncomputable section
namespace Cert.Kernel.Spmm2
open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (Wen : Fin 4 → Dev nD → Valuation τ sig (Elt F))
set_option backward.isDefEq.respectTransparency.types false in
def reg2 (Wp : Dev nD → Valuation τ sig (Elt F))
    (hout : ∀ c, Wp c main_v45 = (dat2 (atTc (Wen (2 : Fin 4))) c).arrAt 4 cfg2.N)
    (hne : ∀ c (b : Ref sig .tc), b ≠ main_v45 → Wp c b = Wen (2 : Fin 4) c b) :
    Pipeline.RegionSeg (pcfgs (F := F)) Gen.adm (fam Wen) () defs₀ Variants.none L lv (2 : Fin 4) where
  win := launch2.win.to₀
  block_pos := launch2.block_pos
  stage_whole := launch2.stage_whole
  K := PEmpty
  osem k := k.elim
  ho := Pipeline.OwnSemFacts.none _
  hbody c := (body_obligation2 (atTc (Wen (2 : Fin 4))) c).loose
  hwaits := Pipeline.hwaits_of_owed_zero _ _ _ _ L lv (2 : Fin 4) fun _ _ => rfl
  pre c := iprop(StableHlo.held (c : Thread nD τ) (Pipeline.ucRefs τ sig) (Wen (2 : Fin 4) c) ∗ ride c)
  post c := iprop(StableHlo.held (c : Thread nD τ) (Pipeline.ucRefs τ sig) (Wp c) ∗ ride c)
  X _ := BI.emp
  Y _ := BI.emp
  Z c := iprop(Pipeline.unscopedRest (Ix := Unit) (Name := ℕ) (U := Hand.UU) (Lvl := ℕ) spec2 c (atTc (Wen (2 : Fin 4)) c) ∗ ∃ r, prngReg c r)
  hentry c := by
    have hsplit := Pipeline.arrays_of_unscopedBufs (p := (2 : Fin 4)) (pcfgs (F := F)) Gen.adm (fam Wen) launch2.win launch2.arr_whole c
      ((fam Wen (2 : Fin 4) c).share_full fun _ => rfl) (atTc (Wen (2 : Fin 4)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    isplitl [Hrest]; · iexact Hrest
    iexact Hp
  hin c := by
    refine BIBase.Entails.trans ?_ (enter2 (atTc (Wen (2 : Fin 4))) c)
    iintro ⟨-, -, Hr⟩
    iexact Hr
  hout c := by
    rw [Pipeline.ownSems0_none]
    refine BIBase.Entails.trans (leave2 (atTc (Wen (2 : Fin 4))) c) ?_
    iintro H
    isplitr; · iempintro
    isplitr; · iempintro
    iexact H
  hexit c := by
    have hF : ∀ w : Fin cfg2.W, (fam Wen (2 : Fin 4) c).arrAt w cfg2.N = atTc Wp c (Pipeline.arrRef spec2 w) := fun
      | ⟨0, _⟩ => ((fam Wen (2 : Fin 4) c).arrAt_in 0 rfl _).trans (hne c _ (by decide)).symm
      | ⟨1, _⟩ => ((fam Wen (2 : Fin 4) c).arrAt_in 1 rfl _).trans (hne c _ (by decide)).symm
      | ⟨2, _⟩ => ((fam Wen (2 : Fin 4) c).arrAt_in 2 rfl _).trans (hne c _ (by decide)).symm
      | ⟨3, _⟩ => ((fam Wen (2 : Fin 4) c).arrAt_in 3 rfl _).trans (hne c _ (by decide)).symm
      | ⟨4, _⟩ => (hout c).symm
    have hrest : ∀ b, b ∉ Finset.univ.image (Pipeline.arrRef spec2) → atTc Wp c b = atTc (Wen (2 : Fin 4)) c b :=
      fun b hb => hne c b fun e => hb (Finset.mem_image.mpr ⟨4, Finset.mem_univ _, e.symm⟩)
    have hjoin := Pipeline.unscopedBufs_of_arrays (p := (2 : Fin 4)) (pcfgs (F := F)) Gen.adm (Ix := Unit) (Name := ℕ) (U := Hand.UU) (Lvl := ℕ)
      launch2.win launch2.arr_whole c (fam Wen) ((fam Wen (2 : Fin 4) c).share_full fun _ => rfl)
      (atTc (Wen (2 : Fin 4)) c) (atTc Wp c) ((fam Wen (2 : Fin 4) c).arrAt · cfg2.N) hF hrest
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%Wt, -, HO⟩; iexists Wt; iexact HO
end Cert.Kernel.Spmm2
end
-- ==== Proof.KB.R3.Body.lean ====
import proofs.«165102_j58428735095548_1_alg».proof.Proof.KB.R3.Data

set_option maxRecDepth 16384

noncomputable section

namespace Cert.Kernel.Spmm3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

theorem before3_0 (c : Dev nD) (t : Fin cfg3.N) (d) : (dat3 V c).before 0 t d = blk3 V c 0 t :=
  ((dat3 V c).before_fetched 0 t (fetch3_0 t) d).trans (by unfold Dat.fetched Dat.blockOf blk3; rw [A_eq3]; try rfl)
theorem before3_1 (c : Dev nD) (t : Fin cfg3.N) (d) : (dat3 V c).before 1 t d = blk3 V c 1 t :=
  ((dat3 V c).before_fetched 1 t (fetch3_1 t) d).trans (by unfold Dat.fetched Dat.blockOf blk3; rw [A_eq3]; try rfl)
theorem before3_2 (c : Dev nD) (t : Fin cfg3.N) (d) : (dat3 V c).before 2 t d = blk3 V c 2 t :=
  ((dat3 V c).before_fetched 2 t (fetch3_2 t) d).trans (by unfold Dat.fetched Dat.blockOf blk3; rw [A_eq3]; try rfl)
theorem before3_3 (c : Dev nD) (t : Fin cfg3.N) (d) : (dat3 V c).before 3 t d = blk3 V c 3 t :=
  ((dat3 V c).before_fetched 3 t (fetch3_3 t) d).trans (by unfold Dat.fetched Dat.blockOf blk3; rw [A_eq3]; try rfl)

theorem rest3_eq (c : Dev nD) :
    (Pipeline.scopedRest (Ix := Unit) (Name := ℕ) (U := UU) (Lvl := ℕ) (Val := Elt F) spec3 c : sProp 𝕄)
      = iprop(iprop((∃ d, owns (c : Thread nD τ) acc3 fullShare d)) ∗ others3 c) := by
  rw [scopedRest3_split]; simp only [acc3, owns_whole]; rfl

def bodyPre3 (c : Dev nD) (t : Fin cfg3.N) : sProp 𝕄 :=
  iprop((dat3 V c).Φ t.castSucc ∗ (dat3 V c).owesAt () t.castSucc
    ∗ (∃ d, owns (c : Thread nD τ) (mr3_0 t) fullShare ((dat3 V c).before 0 t d))
    ∗ (∃ d, owns (c : Thread nD τ) (mr3_1 t) fullShare ((dat3 V c).before 1 t d))
    ∗ (∃ d, owns (c : Thread nD τ) (mr3_2 t) fullShare ((dat3 V c).before 2 t d))
    ∗ (∃ d, owns (c : Thread nD τ) (mr3_3 t) fullShare ((dat3 V c).before 3 t d))
    ∗ (∃ d, owns (c : Thread nD τ) (mr3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

/-- The output block after the body: the accumulator's copy at the last column block of a row, else as found. -/
theorem leaves3_4 (c : Dev nD) (t : Fin cfg3.N) (d) (xa : Vec F S1024x16 .f32)
    (hxa : ∀ k hk, t.val = k + 1 → t.val % 8 ≠ 0 → xa = accAt3 V c k hk) :
    owns (c : Thread nD τ) (mr3_4 t) fullShare
        (if last3 (grid3.coords t) then updAt3 V c t (if first3 (grid3.coords t) then k3_pay1 else xa) else (dat3 V c).before 4 t d)
      ⊢ (dat3 V c).leavesExact 4 t := by
  by_cases hl : last3 (grid3.coords t)
  · rw [if_pos hl, accAt3_step V c t xa hxa,
      show (dat3 V c).leavesExact 4 t = owns (c : Thread nD τ) (mr3_4 t) fullShare ((dat3 V c).after 4 t) from by
        unfold Dat.leavesExact; rw [live3_4 t hl], after3_4, if_pos ((last3_iff t).mp hl)]
  · rw [if_neg hl, Dat.leavesExact_idle (dat3 V c) 4 t (idle3_4 t hl) (noflush3_4 t hl)]
    iintro H; iexists d; iexact H

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    show (dat3 V c).Φ t.succ = inv3 V c (t.val + 1) from rfl, show (dat3 V c).Φ t.castSucc = inv3 V c t.val from rfl]
  rw [show (dat3 V c).leavesExact 0 t = owns (c : Thread nD τ) (mr3_0 t) fullShare ((dat3 V c).after 0 t) from by
    unfold Dat.leavesExact; rw [live3_0 t], after3_0]
  rw [show (dat3 V c).leavesExact 1 t = owns (c : Thread nD τ) (mr3_1 t) fullShare ((dat3 V c).after 1 t) from by
    unfold Dat.leavesExact; rw [live3_1 t], after3_1]
  rw [show (dat3 V c).leavesExact 2 t = owns (c : Thread nD τ) (mr3_2 t) fullShare ((dat3 V c).after 2 t) from by
    unfold Dat.leavesExact; rw [live3_2 t], after3_2]
  rw [show (dat3 V c).leavesExact 3 t = owns (c : Thread nD τ) (mr3_3 t) fullShare ((dat3 V c).after 3 t) from by
    unfold Dat.leavesExact; rw [live3_3 t], after3_3]
  unfold inv3
  iintro ⟨⟨%xa, %hxa, HS, Hr⟩, Ho, ⟨%d0, H0⟩, ⟨%d1, H1⟩, ⟨%d2, H2⟩, ⟨%d3, H3⟩, ⟨%d4, H4⟩⟩
  iapply (step3 c (grid3.coords t) _ _ _ _ _ _ _ _ _ _ _ _ (nfl3 t) (blk3 V c 0 t) (blk3 V c 1 t) (blk3 V c 2 t) (blk3 V c 3 t) xa _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hr]
  · iexists _; isplitr
    swap
    · isplitl [HS]; · iexact HS
      iexact Hr
    ipureintro
    exact fun k hk e _ => by obtain rfl := Nat.succ.inj e; exact accAt3_step V c t xa hxa
  isplitl [Ho]; · iexact Ho
  isplitl [H0]; · iexact H0
  isplitl [H1]; · iexact H1
  isplitl [H2]; · iexact H2
  isplitl [H3]; · iexact H3
  iapply (leaves3_4 V c t d4 xa hxa); iexact H4

theorem body_obligation3 (c : Dev nD) : BodyObligation (dat3 (F := F) V c) (defs₀ (F := F)) Variants.none () Set.univ := fun t => by
  rw [bigSep_W3, bigSep_W3]
  exact sound_body3 V c t

theorem enter3 (c : Dev nD) :
    (Pipeline.scopedRest (Ix := Unit) (Name := ℕ) (U := UU) (Lvl := ℕ) (Val := Elt F) spec3 c : sProp 𝕄) ⊢ (dat3 V c).Φ 0 := by
  rw [show (dat3 V c).Φ 0 = inv3 V c 0 from rfl, rest3_eq]
  unfold inv3
  iintro ⟨⟨%d, HS⟩, Hr⟩
  iexists d; isplitr; · ipureintro; exact fun k _ e _ => absurd e.symm (Nat.succ_ne_zero k)
  isplitl [HS]; · iexact HS
  iexact Hr

theorem leave3 (c : Dev nD) :
    (dat3 V c).Φ (Fin.last cfg3.N) ⊢ (Pipeline.scopedRest (Ix := Unit) (Name := ℕ) (U := UU) (Lvl := ℕ) (Val := Elt F) spec3 c : sProp 𝕄) := by
  rw [show (dat3 V c).Φ (Fin.last cfg3.N) = inv3 V c (Fin.last cfg3.N).val from rfl, rest3_eq]
  unfold inv3
  iintro ⟨%xa, -, HS, Hr⟩
  isplitl [HS]; · iexists _; iexact HS
  iexact Hr

end Cert.Kernel.Spmm3

end
-- ==== Proof.KB.R3.Region.lean ====
import proofs.«165102_j58428735095548_1_alg».proof.Proof.KB.Family
import proofs.«165102_j58428735095548_1_alg».proof.Proof.KB.R3.Body
import Idealize.ShloMosaic.Lib.Pipeline.RegionsLoop
set_option maxRecDepth 16384
noncomputable section
namespace Cert.Kernel.Spmm3
open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (Wen : Fin 4 → Dev nD → Valuation τ sig (Elt F))
set_option backward.isDefEq.respectTransparency.types false in
def reg3 (Wp : Dev nD → Valuation τ sig (Elt F))
    (hout : ∀ c, Wp c main_v55 = (dat3 (atTc (Wen (3 : Fin 4))) c).arrAt 4 cfg3.N)
    (hne : ∀ c (b : Ref sig .tc), b ≠ main_v55 → Wp c b = Wen (3 : Fin 4) c b) :
    Pipeline.RegionSeg (pcfgs (F := F)) Gen.adm (fam Wen) () defs₀ Variants.none L lv (3 : Fin 4) where
  win := launch3.win.to₀
  block_pos := launch3.block_pos
  stage_whole := launch3.stage_whole
  K := PEmpty
  osem k := k.elim
  ho := Pipeline.OwnSemFacts.none _
  hbody c := (body_obligation3 (atTc (Wen (3 : Fin 4))) c).loose
  hwaits := Pipeline.hwaits_of_owed_zero _ _ _ _ L lv (3 : Fin 4) fun _ _ => rfl
  pre c := iprop(StableHlo.held (c : Thread nD τ) (Pipeline.ucRefs τ sig) (Wen (3 : Fin 4) c) ∗ ride c)
  post c := iprop(StableHlo.held (c : Thread nD τ) (Pipeline.ucRefs τ sig) (Wp c) ∗ ride c)
  X _ := BI.emp
  Y _ := BI.emp
  Z c := iprop(Pipeline.unscopedRest (Ix := Unit) (Name := ℕ) (U := Hand.UU) (Lvl := ℕ) spec3 c (atTc (Wen (3 : Fin 4)) c) ∗ ∃ r, prngReg c r)
  hentry c := by
    have hsplit := Pipeline.arrays_of_unscopedBufs (p := (3 : Fin 4)) (pcfgs (F := F)) Gen.adm (fam Wen) launch3.win launch3.arr_whole c
      ((fam Wen (3 : Fin 4) c).share_full fun _ => rfl) (atTc (Wen (3 : Fin 4)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    isplitl [Hrest]; · iexact Hrest
    iexact Hp
  hin c := by
    refine BIBase.Entails.trans ?_ (enter3 (atTc (Wen (3 : Fin 4))) c)
    iintro ⟨-, -, Hr⟩
    iexact Hr
  hout c := by
    rw [Pipeline.ownSems0_none]
    refine BIBase.Entails.trans (leave3 (atTc (Wen (3 : Fin 4))) c) ?_
    iintro H
    isplitr; · iempintro
    isplitr; · iempintro
    iexact H
  hexit c := by
    have hF : ∀ w : Fin cfg3.W, (fam Wen (3 : Fin 4) c).arrAt w cfg3.N = atTc Wp c (Pipeline.arrRef spec3 w) := fun
      | ⟨0, _⟩ => ((fam Wen (3 : Fin 4) c).arrAt_in 0 rfl _).trans (hne c _ (by decide)).symm
      | ⟨1, _⟩ => ((fam Wen (3 : Fin 4) c).arrAt_in 1 rfl _).trans (hne c _ (by decide)).symm
      | ⟨2, _⟩ => ((fam Wen (3 : Fin 4) c).arrAt_in 2 rfl _).trans (hne c _ (by decide)).symm
      | ⟨3, _⟩ => ((fam Wen (3 : Fin 4) c).arrAt_in 3 rfl _).trans (hne c _ (by decide)).symm
      | ⟨4, _⟩ => (hout c).symm
    have hrest : ∀ b, b ∉ Finset.univ.image (Pipeline.arrRef spec3) → atTc Wp c b = atTc (Wen (3 : Fin 4)) c b :=
      fun b hb => hne c b fun e => hb (Finset.mem_image.mpr ⟨4, Finset.mem_univ _, e.symm⟩)
    have hjoin := Pipeline.unscopedBufs_of_arrays (p := (3 : Fin 4)) (pcfgs (F := F)) Gen.adm (Ix := Unit) (Name := ℕ) (U := Hand.UU) (Lvl := ℕ)
      launch3.win launch3.arr_whole c (fam Wen) ((fam Wen (3 : Fin 4) c).share_full fun _ => rfl)
      (atTc (Wen (3 : Fin 4)) c) (atTc Wp c) ((fam Wen (3 : Fin 4) c).arrAt · cfg3.N) hF hrest
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%Wt, -, HO⟩; iexists Wt; iexact HO
end Cert.Kernel.Spmm3
end
-- ==== Proof.KB.Frame.lean ====
import proofs.«165102_j58428735095548_1_alg».proof.Proof.KB.Chain
import proofs.«165102_j58428735095548_1_alg».proof.Proof.KB.R0.Region
import proofs.«165102_j58428735095548_1_alg».proof.Proof.KB.R1.Region
import proofs.«165102_j58428735095548_1_alg».proof.Proof.KB.R2.Region
import proofs.«165102_j58428735095548_1_alg».proof.Proof.KB.R3.Region
set_option maxRecDepth 16384
noncomputable section
namespace Cert.Kernel.Hand
open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (m : (ℓ : Loc nD τ sig) → Buf (Elt F) ℓ)
theorem outs_two (c : Dev nD) : outs m 2 main_v7 c = res0 m c := by
  show W2 m c main_v7 = res0 m c
  unfold W2; exact Function.update_self ..
theorem outs_four (c : Dev nD) : outs m 4 main_v35 c = res1 m c := by
  show W4 m c main_v35 = res1 m c
  unfold W4; exact Function.update_self ..
theorem outs_eight (c : Dev nD) : outs m 8 main_v45 c = res2 m c := by
  show W8 m c main_v45 = res2 m c
  unfold W8; exact Function.update_self ..
theorem outs_twelve (c : Dev nD) : outs m 12 main_v55 c = res3 m c := by
  show W12 m c main_v55 = res3 m c
  unfold W12; exact Function.update_self ..
theorem V1_eq (c : Dev nD) : Gen.V1 m c = W1 m c := rfl
theorem V2_eq (c : Dev nD) : Gen.V2 m (outs m) c = W2 m c := by
  show Function.update (Gen.V1 m c) main_v7 (outs m 2 main_v7 c) = W2 m c
  rw [outs_two, V1_eq]; rfl
theorem V3_eq (c : Dev nD) : Gen.V3 m (outs m) c = W3 m c := by
  show StableHlo.after hostOps1 (Gen.V2 m (outs m) c) = W3 m c
  rw [V2_eq]
theorem V4_eq (c : Dev nD) : Gen.V4 m (outs m) c = W4 m c := by
  show Function.update (Gen.V3 m (outs m) c) main_v35 (outs m 4 main_v35 c) = W4 m c
  rw [outs_four, V3_eq]; rfl
theorem V5_eq (c : Dev nD) : Gen.V5 m (outs m) c = W5 m c := by
  show StableHlo.after hostOps2 (Gen.V4 m (outs m) c) = W5 m c
  rw [V4_eq]
theorem V6_eq (c : Dev nD) : Gen.V6 m (outs m) c = W6 m c := by
  show StableHlo.after hostOps2_1 (Gen.V5 m (outs m) c) = W6 m c
  rw [V5_eq]
theorem V7_eq (c : Dev nD) : Gen.V7 m (outs m) c = W7 m c := by
  show StableHlo.after hostOps2_2 (Gen.V6 m (outs m) c) = W7 m c
  rw [V6_eq]
theorem V8_eq (c : Dev nD) : Gen.V8 m (outs m) c = W8 m c := by
  show Function.update (Gen.V7 m (outs m) c) main_v45 (outs m 8 main_v45 c) = W8 m c
  rw [outs_eight, V7_eq]; rfl
theorem V9_eq (c : Dev nD) : Gen.V9 m (outs m) c = W9 m c := by
  show StableHlo.after hostOps3 (Gen.V8 m (outs m) c) = W9 m c
  rw [V8_eq]
theorem V10_eq (c : Dev nD) : Gen.V10 m (outs m) c = W10 m c := by
  show StableHlo.after hostOps3_1 (Gen.V9 m (outs m) c) = W10 m c
  rw [V9_eq]
theorem V11_eq (c : Dev nD) : Gen.V11 m (outs m) c = W11 m c := by
  show StableHlo.after hostOps3_2 (Gen.V10 m (outs m) c) = W11 m c
  rw [V10_eq]
theorem V12_eq (c : Dev nD) : Gen.V12 m (outs m) c = W12 m c := by
  show Function.update (Gen.V11 m (outs m) c) main_v55 (outs m 12 main_v55 c) = W12 m c
  rw [outs_twelve, V11_eq]; rfl
theorem V13_eq (c : Dev nD) : Gen.V13 m (outs m) c = W13 m c := by
  show StableHlo.after hostOps4 (Gen.V12 m (outs m) c) = W13 m c
  rw [V12_eq]
def r0 : Pipeline.RegionSeg (pcfgs (F := F)) Gen.adm (pdats m) () defs₀ Variants.none L lv (0 : Fin 4) :=
  Spmm0.reg0 (entry m) (W2 m)
    (fun c => by unfold W2; exact Function.update_self ..)
    (fun c b hb => by unfold W2; exact Function.update_of_ne (StableHlo.devRef_ne_of_ne hb) _ _)
def r1 : Pipeline.RegionSeg (pcfgs (F := F)) Gen.adm (pdats m) () defs₀ Variants.none L lv (1 : Fin 4) :=
  Spmm1.reg1 (entry m) (W4 m)
    (fun c => by unfold W4; exact Function.update_self ..)
    (fun c b hb => by unfold W4; exact Function.update_of_ne (StableHlo.devRef_ne_of_ne hb) _ _)
def r2 : Pipeline.RegionSeg (pcfgs (F := F)) Gen.adm (pdats m) () defs₀ Variants.none L lv (2 : Fin 4) :=
  Spmm2.reg2 (entry m) (W8 m)
    (fun c => by unfold W8; exact Function.update_self ..)
    (fun c b hb => by unfold W8; exact Function.update_of_ne (StableHlo.devRef_ne_of_ne hb) _ _)
def r3 : Pipeline.RegionSeg (pcfgs (F := F)) Gen.adm (pdats m) () defs₀ Variants.none L lv (3 : Fin 4) :=
  Spmm3.reg3 (entry m) (W12 m)
    (fun c => by unfold W12; exact Function.update_self ..)
    (fun c b hb => by unfold W12; exact Function.update_of_ne (StableHlo.devRef_ne_of_ne hb) _ _)
theorem pre0 (c : Dev nD) :
    (iprop(StableHlo.held (c : Thread nD τ) (Pipeline.ucRefs τ sig) (Gen.V1 m c) ∗ ride c) : sProp 𝕄) ⊢ (r0 m).pre c := by
  rw [V1_eq]; exact .rfl
theorem post0 (c : Dev nD) :
    (r0 m).post c ⊢ (iprop(StableHlo.held (c : Thread nD τ) (Pipeline.ucRefs τ sig) (Gen.V2 m (outs m) c) ∗ ride c) : sProp 𝕄) := by
  rw [V2_eq]; exact .rfl
theorem pre1 (c : Dev nD) :
    (iprop(StableHlo.held (c : Thread nD τ) (Pipeline.ucRefs τ sig) (Gen.V3 m (outs m) c) ∗ ride c) : sProp 𝕄) ⊢ (r1 m).pre c := by
  rw [V3_eq]; exact .rfl
theorem post1 (c : Dev nD) :
    (r1 m).post c ⊢ (iprop(StableHlo.held (c : Thread nD τ) (Pipeline.ucRefs τ sig) (Gen.V4 m (outs m) c) ∗ ride c) : sProp 𝕄) := by
  rw [V4_eq]; exact .rfl
theorem pre2 (c : Dev nD) :
    (iprop(StableHlo.held (c : Thread nD τ) (Pipeline.ucRefs τ sig) (Gen.V7 m (outs m) c) ∗ ride c) : sProp 𝕄) ⊢ (r2 m).pre c := by
  rw [V7_eq]; exact .rfl
theorem post2 (c : Dev nD) :
    (r2 m).post c ⊢ (iprop(StableHlo.held (c : Thread nD τ) (Pipeline.ucRefs τ sig) (Gen.V8 m (outs m) c) ∗ ride c) : sProp 𝕄) := by
  rw [V8_eq]; exact .rfl
theorem pre3 (c : Dev nD) :
    (iprop(StableHlo.held (c : Thread nD τ) (Pipeline.ucRefs τ sig) (Gen.V11 m (outs m) c) ∗ ride c) : sProp 𝕄) ⊢ (r3 m).pre c := by
  rw [V11_eq]; exact .rfl
theorem post3 (c : Dev nD) :
    (r3 m).post c ⊢ (iprop(StableHlo.held (c : Thread nD τ) (Pipeline.ucRefs τ sig) (Gen.V12 m (outs m) c) ∗ ride c) : sProp 𝕄) := by
  rw [V12_eq]; exact .rfl
theorem launch_user :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro
theorem ride_owes (c : Dev nD) :
    (ride c : sProp 𝕄) ⊢ iprop(∃ W, owes (c : Thread nD τ) (0 : CellTallies nD τ sig Unit) W) := by
  iintro ⟨-, HO⟩
  iexact HO
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m (Ix := Unit) (U := Hand.UU) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := launch_user)
    (E := fun _ c => ride c)
    (hE0 := by
      refine Pipeline.initEach L lv fun c => ?_
      iintro ⟨⟨-, HO, -, Hp, -⟩, -⟩
      imodintro
      isplitl [Hp]
      · iexists _; iexact Hp
      iexists ∅; iexact HO)
    (hE4 := ride_owes)
    (r0 m) (hpre0 := pre0 m) (hpost0 := post0 m)
    (r1 m) (hpre1 := pre1 m) (hpost1 := post1 m)
    (r2 m) (hpre2 := pre2 m) (hpost2 := post2 m)
    (r3 m) (hpre3 := pre3 m) (hpost3 := post3 m)
end Cert.Kernel.Hand
end
-- ==== Proof.KI.R0.Conds.lean ====
import proofs.«165102_j58428735095548_1_alg».proof.Proof.Gen.KernelIdeal.Launch
import proofs.«165102_j58428735095548_1_alg».proof.Proof.Gen.KernelIdeal.Skeleton
import proofs.«165102_j58428735095548_1_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Spmm0
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
abbrev UU : Type := UR sig nD τ
abbrev first0 (i : grid0.Coords) : Prop :=
  (Scalar.cmpi .ne (Scalar.extui (Scalar.cmpi .eq (BitVec.ofNat 32 (i 1).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)
theorem nfl0 : ∀ t : Fin cfg0.N, ¬(first0 (grid0.coords t) ∧ last0 (grid0.coords t)) := by decide +kernel
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, ¬last0 (grid0.coords t) → cfg0.idle 4 (grid0.coords t) = true := by decide +kernel
theorem noflush0_4 : ∀ t : Fin cfg0.N, ¬last0 (grid0.coords t) → (cfg0.win 4).flush t = false := by decide +kernel
theorem live0_4 : ∀ t : Fin cfg0.N, last0 (grid0.coords t) → cfg0.idle 4 (grid0.coords t) = false := by decide +kernel
abbrev mr0_0 (t : Fin cfg0.N) : Memref sig .tc .vmem S1024x1024 .f32 := win0_0.stage (cfg0.slots t 0)
abbrev mr0_1 (t : Fin cfg0.N) : Memref sig .tc .vmem S1024x1024 .f32 := win0_1.stage (cfg0.slots t 1)
abbrev mr0_2 (t : Fin cfg0.N) : Memref sig .tc .vmem S1024x8 .f32 := win0_2.stage (cfg0.slots t 2)
abbrev mr0_3 (t : Fin cfg0.N) : Memref sig .tc .vmem S1024x8 .f32 := win0_3.stage (cfg0.slots t 3)
abbrev mr0_4 (t : Fin cfg0.N) : Memref sig .tc .vmem S1024x8 .f32 := win0_4.stage (cfg0.slots t 4)
abbrev acc0 : Memref sig .tc .vmem S1024x8 .f32 := Memref.whole cc0_scratch0
end Cert.KernelIdeal.Spmm0
end
-- ==== Proof.KI.R0.Step.lean ====
import proofs.«165102_j58428735095548_1_alg».proof.Proof.KI.R0.Conds
import proofs.«165102_j58428735095548_1_alg».proof.Proof.Math.Spmm
import Idealize.ShloMosaic.Lib.Pipeline.Value

set_option maxRecDepth 16384

noncomputable section

namespace Cert.KernelIdeal.Spmm0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One grid point's update of the accumulator: both block products added. -/
def upd0 (x0 x1 : Vec F S1024x1024 .f32) (x2 x3 xa : Vec F S1024x8 .f32) : Vec F S1024x8 .f32 :=
  k0_pay3 x1 x3 (k0_pay2 x0 x2 xa)

set_option maxHeartbeats 3000000 in
/-- The body at any point, run symbolically in its three cases: the accumulator restarts from zero at the first column
    block of a row, and the output block receives its copy at the last. -/
theorem step0 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x8 .f32) (h4 : a4.IsWhole) (a5 : Memref sig .tc .vmem S1024x8 .f32) (h5 : a5.IsWhole) (a6 : Memref sig .tc .vmem S1024x8 .f32) (h6 : a6.IsWhole) (a7 : Memref sig .tc .vmem S1024x8 .f32) (h7 : a7.IsWhole)
    (hfl : ¬(first0 i ∧ last0 i)) (x0 x1 : Vec F S1024x1024 .f32) (x2 x3 xa xo : Vec F S1024x8 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare xo ∗ owns (c : Thread nD τ) a7 fullShare xa
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (if last0 i then upd0 x0 x1 x2 x3 (if first0 i then k0_pay1 else xa) else xo)
            ∗ owns (c : Thread nD τ) a7 fullShare (upd0 x0 x1 x2 x3 (if first0 i then k0_pay1 else xa))) -∗ K ⟨⟩))
      ⊢ wp frame (wpE (defs₀ (F := F)) Variants.none c none) E (cc0__spmm_kernel i a2 h2 a3 h3 a4 h4 a5 h5 a6 h6 a7 h7) K := by
  by_cases hf : first0 i <;> by_cases hl : last0 i
  · exact absurd ⟨hf, hl⟩ hfl
  all_goals
    (first | rw [if_pos hf] | rw [if_neg hf]
     first | rw [if_pos hl] | rw [if_neg hl]
     simp only [cc0__spmm_kernel_eq_skeleton]; unfold cc0__spmm_kernel_skel
     unfold owns
     iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
     obtain rfl := h2.eq_unread hf0; obtain rfl := h3.eq_unread hf1; obtain rfl := h4.eq_unread hf2; obtain rfl := h5.eq_unread hf3; obtain rfl := h6.eq_unread hf4; obtain rfl := h7.eq_unread hfs
     sl_exec (disch := first | exact hf | exact hl)
     sl_step
     iapply Hk
     isplitl [H0]
     · iexists _; isplitr; · ipureintro; exact h2.read_unread _
       iexact H0
     isplitl [H1]
     · iexists _; isplitr; · ipureintro; exact h3.read_unread _
       iexact H1
     isplitl [H2]
     · iexists _; isplitr; · ipureintro; exact h4.read_unread _
       iexact H2
     isplitl [H3]
     · iexists _; isplitr; · ipureintro; exact h5.read_unread _
       iexact H3
     isplitl [H4] <;>
      (iexists _; isplitr; swap; · iassumption
       ipureintro
       first
       | (rw [View.read_writes_eq_canon _ _ _ (View.cover_of_tiledL _ S1024x8.size (by sl_kernel_rfl))]
          sl_unfold_words
          rw [View.canon_cons_unit_zero (S := S1024x8) Cert.Spec.offZero]
          simp only [upd0, View.readCov_cons_toLoadRect, View.readAt_eq_ld, h2.read_unread, h3.read_unread, h4.read_unread, h5.read_unread, h7.read_unread,
            View.ld_unit_zero (S := S1024x1024) Cert.Spec.offZero, View.ld_unit_zero (S := S1024x8) Cert.Spec.offZero])
       | exact h6.read_unread _))

end Cert.KernelIdeal.Spmm0

end
-- ==== Proof.KI.R0.Data.lean ====
import proofs.«165102_j58428735095548_1_alg».proof.Proof.KI.R0.Step

set_option maxRecDepth 16384

noncomputable section

namespace Cert.KernelIdeal.Spmm0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev updAt0 (c : Dev nD) (t : Fin cfg0.N) (xa : Vec F S1024x8 .f32) : Vec F S1024x8 .f32 :=
  upd0 (blk0 V c 0 t) (blk0 V c 1 t) (blk0 V c 2 t) (blk0 V c 3 t) xa

/-- The accumulator after point n: restarted at the first column block of a row, else updated from the point before. -/
def accAt0 (c : Dev nD) : (n : ℕ) → n < cfg0.N → Vec F S1024x8 .f32
  | 0, hn => updAt0 V c ⟨0, hn⟩ k0_pay1
  | n + 1, hn => updAt0 V c ⟨n + 1, hn⟩ (if (n + 1) % 8 = 0 then k0_pay1 else accAt0 c n (Nat.lt_of_succ_lt hn))

theorem accAt0_step (c : Dev nD) (t : Fin cfg0.N) (xa : Vec F S1024x8 .f32)
    (hxa : ∀ k hk, t.val = k + 1 → t.val % 8 ≠ 0 → xa = accAt0 V c k hk) :
    updAt0 V c t (if first0 (grid0.coords t) then k0_pay1 else xa) = accAt0 V c t.val t.isLt := by
  obtain ⟨n, hn⟩ := t
  by_cases h0 : n % 8 = 0
  · rw [if_pos ((first0_iff ⟨n, hn⟩).mpr h0)]
    cases n with
    | zero => rfl
    | succ n => exact (congrArg (updAt0 V c ⟨n + 1, hn⟩) (if_pos h0)).symm
  · rw [if_neg (mt (first0_iff ⟨n, hn⟩).mp h0)]
    cases n with
    | zero => exact absurd (Nat.zero_mod 8) h0
    | succ n => rw [hxa n (Nat.lt_of_succ_lt hn) rfl h0]; exact (congrArg (updAt0 V c ⟨n + 1, hn⟩) (if_neg h0)).symm

abbrev others0 (c : Dev nD) : sProp 𝕄 :=
  Pipeline.scopedRestBut (Ix := Unit) (Name := ℕ) (U := UU) (Lvl := ℕ) (Val := Elt F) spec0 c [cc0_scratch0]

/-- Before position n the accumulator holds what the point before left (nothing is said at the start of a row). -/
def inv0 (c : Dev nD) (n : ℕ) : sProp 𝕄 :=
  iprop(∃ xa, ⌜∀ k hk, n = k + 1 → n % 8 ≠ 0 → xa = accAt0 V c k hk⌝ ∗ owns (c : Thread nD τ) acc0 fullShare xa ∗ others0 c)

def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => if t.val % 8 = 7 then accAt0 V c t.val t.isLt else k0_pay1
  Φ t := inv0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) :
    (dat0 V c).after 4 t = if t.val % 8 = 7 then accAt0 V c t.val t.isLt else k0_pay1 := by dsimp only [dat0]

end Cert.KernelIdeal.Spmm0

end
-- ==== Proof.KI.R1.Conds.lean ====
import proofs.«165102_j58428735095548_1_alg».proof.Proof.Gen.KernelIdeal.Launch
import proofs.«165102_j58428735095548_1_alg».proof.Proof.Gen.KernelIdeal.Skeleton
import proofs.«165102_j58428735095548_1_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Spmm1
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
abbrev UU : Type := UR sig nD τ
abbrev first1 (i : grid1.Coords) : Prop :=
  (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)
theorem nfl1 : ∀ t : Fin cfg1.N, ¬(first1 (grid1.coords t) ∧ last1 (grid1.coords t)) := by decide +kernel
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬last1 (grid1.coords t) → cfg1.idle 4 (grid1.coords t) = true := by decide +kernel
theorem noflush1_4 : ∀ t : Fin cfg1.N, ¬last1 (grid1.coords t) → (cfg1.win 4).flush t = false := by decide +kernel
theorem live1_4 : ∀ t : Fin cfg1.N, last1 (grid1.coords t) → cfg1.idle 4 (grid1.coords t) = false := by decide +kernel
abbrev mr1_0 (t : Fin cfg1.N) : Memref sig .tc .vmem S1024x1024 .f32 := win1_0.stage (cfg1.slots t 0)
abbrev mr1_1 (t : Fin cfg1.N) : Memref sig .tc .vmem S1024x1024 .f32 := win1_1.stage (cfg1.slots t 1)
abbrev mr1_2 (t : Fin cfg1.N) : Memref sig .tc .vmem S1024x128 .f32 := win1_2.stage (cfg1.slots t 2)
abbrev mr1_3 (t : Fin cfg1.N) : Memref sig .tc .vmem S1024x128 .f32 := win1_3.stage (cfg1.slots t 3)
abbrev mr1_4 (t : Fin cfg1.N) : Memref sig .tc .vmem S1024x128 .f32 := win1_4.stage (cfg1.slots t 4)
abbrev acc1 : Memref sig .tc .vmem S1024x128 .f32 := Memref.whole cc1_scratch0
end Cert.KernelIdeal.Spmm1
end
-- ==== Proof.KI.R1.Step.lean ====
import proofs.«165102_j58428735095548_1_alg».proof.Proof.KI.R1.Conds
import proofs.«165102_j58428735095548_1_alg».proof.Proof.Math.Spmm
import Idealize.ShloMosaic.Lib.Pipeline.Value

set_option maxRecDepth 16384

noncomputable section

namespace Cert.KernelIdeal.Spmm1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One grid point's update of the accumulator: both block products added. -/
def upd1 (x0 x1 : Vec F S1024x1024 .f32) (x2 x3 xa : Vec F S1024x128 .f32) : Vec F S1024x128 .f32 :=
  k1_pay3 x1 x3 (k1_pay2 x0 x2 xa)

set_option maxHeartbeats 3000000 in
/-- The body at any point, run symbolically in its three cases: the accumulator restarts from zero at the first column
    block of a row, and the output block receives its copy at the last. -/
theorem step1 (c : Dev nD) (i : grid1.Coords) (a2 : Memref sig .tc .vmem S1024x1024 .f32) (h2 : a2.IsWhole) (a3 : Memref sig .tc .vmem S1024x1024 .f32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole)
    (hfl : ¬(first1 i ∧ last1 i)) (x0 x1 : Vec F S1024x1024 .f32) (x2 x3 xa xo : Vec F S1024x128 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare xo ∗ owns (c : Thread nD τ) a7 fullShare xa
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (if last1 i then upd1 x0 x1 x2 x3 (if first1 i then k1_pay1 else xa) else xo)
            ∗ owns (c : Thread nD τ) a7 fullShare (upd1 x0 x1 x2 x3 (if first1 i then k1_pay1 else xa))) -∗ K ⟨⟩))
      ⊢ wp frame (wpE (defs₀ (F := F)) Variants.none c none) E (cc1__spmm_kernel i a2 h2 a3 h3 a4 h4 a5 h5 a6 h6 a7 h7) K := by
  by_cases hf : first1 i <;> by_cases hl : last1 i
  · exact absurd ⟨hf, hl⟩ hfl
  all_goals
    (first | rw [if_pos hf] | rw [if_neg hf]
     first | rw [if_pos hl] | rw [if_neg hl]
     simp only [cc1__spmm_kernel_eq_skeleton]; unfold cc1__spmm_kernel_skel
     unfold owns
     iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
     obtain rfl := h2.eq_unread hf0; obtain rfl := h3.eq_unread hf1; obtain rfl := h4.eq_unread hf2; obtain rfl := h5.eq_unread hf3; obtain rfl := h6.eq_unread hf4; obtain rfl := h7.eq_unread hfs
     sl_exec (disch := first | exact hf | exact hl)
     sl_step
     iapply Hk
     isplitl [H0]
     · iexists _; isplitr; · ipureintro; exact h2.read_unread _
       iexact H0
     isplitl [H1]
     · iexists _; isplitr; · ipureintro; exact h3.read_unread _
       iexact H1
     isplitl [H2]
     · iexists _; isplitr; · ipureintro; exact h4.read_unread _
       iexact H2
     isplitl [H3]
     · iexists _; isplitr; · ipureintro; exact h5.read_unread _
       iexact H3
     isplitl [H4] <;>
      (iexists _; isplitr; swap; · iassumption
       ipureintro
       first
       | (rw [View.read_writes_eq_canon _ _ _ (View.cover_of_tiledL _ S1024x128.size (by sl_kernel_rfl))]
          sl_unfold_words
          rw [View.canon_cons_unit_zero (S := S1024x128) Cert.Spec.offZero]
          simp only [upd1, View.readCov_cons_toLoadRect, View.readAt_eq_ld, h2.read_unread, h3.read_unread, h4.read_unread, h5.read_unread, h7.read_unread,
            View.ld_unit_zero (S := S1024x1024) Cert.Spec.offZero, View.ld_unit_zero (S := S1024x128) Cert.Spec.offZero])
       | exact h6.read_unread _))

end Cert.KernelIdeal.Spmm1

end
-- ==== Proof.KI.R1.Data.lean ====
import proofs.«165102_j58428735095548_1_alg».proof.Proof.KI.R1.Step

set_option maxRecDepth 16384

noncomputable section

namespace Cert.KernelIdeal.Spmm1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev updAt1 (c : Dev nD) (t : Fin cfg1.N) (xa : Vec F S1024x128 .f32) : Vec F S1024x128 .f32 :=
  upd1 (blk1 V c 0 t) (blk1 V c 1 t) (blk1 V c 2 t) (blk1 V c 3 t) xa

/-- The accumulator after point n: restarted at the first column block of a row, else updated from the point before. -/
def accAt1 (c : Dev nD) : (n : ℕ) → n < cfg1.N → Vec F S1024x128 .f32
  | 0, hn => updAt1 V c ⟨0, hn⟩ k1_pay1
  | n + 1, hn => updAt1 V c ⟨n + 1, hn⟩ (if (n + 1) % 8 = 0 then k1_pay1 else accAt1 c n (Nat.lt_of_succ_lt hn))

theorem accAt1_step (c : Dev nD) (t : Fin cfg1.N) (xa : Vec F S1024x128 .f32)
    (hxa : ∀ k hk, t.val = k + 1 → t.val % 8 ≠ 0 → xa = accAt1 V c k hk) :
    updAt1 V c t (if first1 (grid1.coords t) then k1_pay1 else xa) = accAt1 V c t.val t.isLt := by
  obtain ⟨n, hn⟩ := t
  by_cases h0 : n % 8 = 0
  · rw [if_pos ((first1_iff ⟨n, hn⟩).mpr h0)]
    cases n with
    | zero => rfl
    | succ n => exact (congrArg (updAt1 V c ⟨n + 1, hn⟩) (if_pos h0)).symm
  · rw [if_neg (mt (first1_iff ⟨n, hn⟩).mp h0)]
    cases n with
    | zero => exact absurd (Nat.zero_mod 8) h0
    | succ n => rw [hxa n (Nat.lt_of_succ_lt hn) rfl h0]; exact (congrArg (updAt1 V c ⟨n + 1, hn⟩) (if_neg h0)).symm

abbrev others1 (c : Dev nD) : sProp 𝕄 :=
  Pipeline.scopedRestBut (Ix := Unit) (Name := ℕ) (U := UU) (Lvl := ℕ) (Val := Elt F) spec1 c [cc1_scratch0]

/-- Before position n the accumulator holds what the point before left (nothing is said at the start of a row). -/
def inv1 (c : Dev nD) (n : ℕ) : sProp 𝕄 :=
  iprop(∃ xa, ⌜∀ k hk, n = k + 1 → n % 8 ≠ 0 → xa = accAt1 V c k hk⌝ ∗ owns (c : Thread nD τ) acc1 fullShare xa ∗ others1 c)

def dat1 (c : Dev nD) : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => if t.val % 8 = 7 then accAt1 V c t.val t.isLt else k1_pay1
  Φ t := inv1 V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) :
    (dat1 V c).after 4 t = if t.val % 8 = 7 then accAt1 V c t.val t.isLt else k1_pay1 := by dsimp only [dat1]

end Cert.KernelIdeal.Spmm1

end
-- ==== Proof.KI.R2.Conds.lean ====
import proofs.«165102_j58428735095548_1_alg».proof.Proof.Gen.KernelIdeal.Launch
import proofs.«165102_j58428735095548_1_alg».proof.Proof.Gen.KernelIdeal.Skeleton
import proofs.«165102_j58428735095548_1_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Spmm2
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
abbrev UU : Type := UR sig nD τ
abbrev first2 (i : grid2.Coords) : Prop :=
  (Scalar.cmpi .ne (Scalar.extui (Scalar.cmpi .eq (BitVec.ofNat 32 (i 1).val) 0#32)) 0#32) = 1#1
theorem first2_iff : ∀ t : Fin cfg2.N, first2 (grid2.coords t) ↔ t.val % 8 = 0 :=
  (by decide +kernel : ∀ t : Fin grid2.N, first2 (grid2.coords t) ↔ t.val % 8 = 0)
abbrev last2 (i : grid2.Coords) : Prop := k2_cond2 i = 1#1
theorem last2_iff : ∀ t : Fin cfg2.N, last2 (grid2.coords t) ↔ t.val % 8 = 7 :=
  (by decide +kernel : ∀ t : Fin grid2.N, last2 (grid2.coords t) ↔ t.val % 8 = 7)
theorem nfl2 : ∀ t : Fin cfg2.N, ¬(first2 (grid2.coords t) ∧ last2 (grid2.coords t)) := by decide +kernel
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem idle2_4 : ∀ t : Fin cfg2.N, ¬last2 (grid2.coords t) → cfg2.idle 4 (grid2.coords t) = true := by decide +kernel
theorem noflush2_4 : ∀ t : Fin cfg2.N, ¬last2 (grid2.coords t) → (cfg2.win 4).flush t = false := by decide +kernel
theorem live2_4 : ∀ t : Fin cfg2.N, last2 (grid2.coords t) → cfg2.idle 4 (grid2.coords t) = false := by decide +kernel
abbrev mr2_0 (t : Fin cfg2.N) : Memref sig .tc .vmem S1024x1024 .f32 := win2_0.stage (cfg2.slots t 0)
abbrev mr2_1 (t : Fin cfg2.N) : Memref sig .tc .vmem S1024x1024 .f32 := win2_1.stage (cfg2.slots t 1)
abbrev mr2_2 (t : Fin cfg2.N) : Memref sig .tc .vmem S1024x128 .f32 := win2_2.stage (cfg2.slots t 2)
abbrev mr2_3 (t : Fin cfg2.N) : Memref sig .tc .vmem S1024x128 .f32 := win2_3.stage (cfg2.slots t 3)
abbrev mr2_4 (t : Fin cfg2.N) : Memref sig .tc .vmem S1024x128 .f32 := win2_4.stage (cfg2.slots t 4)
abbrev acc2 : Memref sig .tc .vmem S1024x128 .f32 := Memref.whole cc2_scratch0
end Cert.KernelIdeal.Spmm2
end
-- ==== Proof.KI.R2.Step.lean ====
import proofs.«165102_j58428735095548_1_alg».proof.Proof.KI.R2.Conds
import proofs.«165102_j58428735095548_1_alg».proof.Proof.Math.Spmm
import Idealize.ShloMosaic.Lib.Pipeline.Value

set_option maxRecDepth 16384

noncomputable section

namespace Cert.KernelIdeal.Spmm2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One grid point's update of the accumulator: both block products added. -/
def upd2 (x0 x1 : Vec F S1024x1024 .f32) (x2 x3 xa : Vec F S1024x128 .f32) : Vec F S1024x128 .f32 :=
  k2_pay3 x1 x3 (k2_pay2 x0 x2 xa)

set_option maxHeartbeats 3000000 in
/-- The body at any point, run symbolically in its three cases: the accumulator restarts from zero at the first column
    block of a row, and the output block receives its copy at the last. -/
theorem step2 (c : Dev nD) (i : grid2.Coords) (a2 : Memref sig .tc .vmem S1024x1024 .f32) (h2 : a2.IsWhole) (a3 : Memref sig .tc .vmem S1024x1024 .f32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole)
    (hfl : ¬(first2 i ∧ last2 i)) (x0 x1 : Vec F S1024x1024 .f32) (x2 x3 xa xo : Vec F S1024x128 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare xo ∗ owns (c : Thread nD τ) a7 fullShare xa
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (if last2 i then upd2 x0 x1 x2 x3 (if first2 i then k2_pay1 else xa) else xo)
            ∗ owns (c : Thread nD τ) a7 fullShare (upd2 x0 x1 x2 x3 (if first2 i then k2_pay1 else xa))) -∗ K ⟨⟩))
      ⊢ wp frame (wpE (defs₀ (F := F)) Variants.none c none) E (cc2__spmm_kernel i a2 h2 a3 h3 a4 h4 a5 h5 a6 h6 a7 h7) K := by
  by_cases hf : first2 i <;> by_cases hl : last2 i
  · exact absurd ⟨hf, hl⟩ hfl
  all_goals
    (first | rw [if_pos hf] | rw [if_neg hf]
     first | rw [if_pos hl] | rw [if_neg hl]
     simp only [cc2__spmm_kernel_eq_skeleton]; unfold cc2__spmm_kernel_skel
     unfold owns
     iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
     obtain rfl := h2.eq_unread hf0; obtain rfl := h3.eq_unread hf1; obtain rfl := h4.eq_unread hf2; obtain rfl := h5.eq_unread hf3; obtain rfl := h6.eq_unread hf4; obtain rfl := h7.eq_unread hfs
     sl_exec (disch := first | exact hf | exact hl)
     sl_step
     iapply Hk
     isplitl [H0]
     · iexists _; isplitr; · ipureintro; exact h2.read_unread _
       iexact H0
     isplitl [H1]
     · iexists _; isplitr; · ipureintro; exact h3.read_unread _
       iexact H1
     isplitl [H2]
     · iexists _; isplitr; · ipureintro; exact h4.read_unread _
       iexact H2
     isplitl [H3]
     · iexists _; isplitr; · ipureintro; exact h5.read_unread _
       iexact H3
     isplitl [H4] <;>
      (iexists _; isplitr; swap; · iassumption
       ipureintro
       first
       | (rw [View.read_writes_eq_canon _ _ _ (View.cover_of_tiledL _ S1024x128.size (by sl_kernel_rfl))]
          sl_unfold_words
          rw [View.canon_cons_unit_zero (S := S1024x128) Cert.Spec.offZero]
          simp only [upd2, View.readCov_cons_toLoadRect, View.readAt_eq_ld, h2.read_unread, h3.read_unread, h4.read_unread, h5.read_unread, h7.read_unread,
            View.ld_unit_zero (S := S1024x1024) Cert.Spec.offZero, View.ld_unit_zero (S := S1024x128) Cert.Spec.offZero])
       | exact h6.read_unread _))

end Cert.KernelIdeal.Spmm2

end
-- ==== Proof.KI.R2.Data.lean ====
import proofs.«165102_j58428735095548_1_alg».proof.Proof.KI.R2.Step

set_option maxRecDepth 16384

noncomputable section

namespace Cert.KernelIdeal.Spmm2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev updAt2 (c : Dev nD) (t : Fin cfg2.N) (xa : Vec F S1024x128 .f32) : Vec F S1024x128 .f32 :=
  upd2 (blk2 V c 0 t) (blk2 V c 1 t) (blk2 V c 2 t) (blk2 V c 3 t) xa

/-- The accumulator after point n: restarted at the first column block of a row, else updated from the point before. -/
def accAt2 (c : Dev nD) : (n : ℕ) → n < cfg2.N → Vec F S1024x128 .f32
  | 0, hn => updAt2 V c ⟨0, hn⟩ k2_pay1
  | n + 1, hn => updAt2 V c ⟨n + 1, hn⟩ (if (n + 1) % 8 = 0 then k2_pay1 else accAt2 c n (Nat.lt_of_succ_lt hn))

theorem accAt2_step (c : Dev nD) (t : Fin cfg2.N) (xa : Vec F S1024x128 .f32)
    (hxa : ∀ k hk, t.val = k + 1 → t.val % 8 ≠ 0 → xa = accAt2 V c k hk) :
    updAt2 V c t (if first2 (grid2.coords t) then k2_pay1 else xa) = accAt2 V c t.val t.isLt := by
  obtain ⟨n, hn⟩ := t
  by_cases h0 : n % 8 = 0
  · rw [if_pos ((first2_iff ⟨n, hn⟩).mpr h0)]
    cases n with
    | zero => rfl
    | succ n => exact (congrArg (updAt2 V c ⟨n + 1, hn⟩) (if_pos h0)).symm
  · rw [if_neg (mt (first2_iff ⟨n, hn⟩).mp h0)]
    cases n with
    | zero => exact absurd (Nat.zero_mod 8) h0
    | succ n => rw [hxa n (Nat.lt_of_succ_lt hn) rfl h0]; exact (congrArg (updAt2 V c ⟨n + 1, hn⟩) (if_neg h0)).symm

abbrev others2 (c : Dev nD) : sProp 𝕄 :=
  Pipeline.scopedRestBut (Ix := Unit) (Name := ℕ) (U := UU) (Lvl := ℕ) (Val := Elt F) spec2 c [cc2_scratch0]

/-- Before position n the accumulator holds what the point before left (nothing is said at the start of a row). -/
def inv2 (c : Dev nD) (n : ℕ) : sProp 𝕄 :=
  iprop(∃ xa, ⌜∀ k hk, n = k + 1 → n % 8 ≠ 0 → xa = accAt2 V c k hk⌝ ∗ owns (c : Thread nD τ) acc2 fullShare xa ∗ others2 c)

def dat2 (c : Dev nD) : Dat τ (Elt F) Unit ℕ UU ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => if t.val % 8 = 7 then accAt2 V c t.val t.isLt else k2_pay1
  Φ t := inv2 V c t.val
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) :
    (dat2 V c).after 4 t = if t.val % 8 = 7 then accAt2 V c t.val t.isLt else k2_pay1 := by dsimp only [dat2]

end Cert.KernelIdeal.Spmm2

end
-- ==== Proof.KI.R3.Conds.lean ====
import proofs.«165102_j58428735095548_1_alg».proof.Proof.Gen.KernelIdeal.Launch
import proofs.«165102_j58428735095548_1_alg».proof.Proof.Gen.KernelIdeal.Skeleton
import proofs.«165102_j58428735095548_1_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Spmm3
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
abbrev UU : Type := UR sig nD τ
abbrev first3 (i : grid3.Coords) : Prop :=
  (Scalar.cmpi .ne (Scalar.extui (Scalar.cmpi .eq (BitVec.ofNat 32 (i 1).val) 0#32)) 0#32) = 1#1
theorem first3_iff : ∀ t : Fin cfg3.N, first3 (grid3.coords t) ↔ t.val % 8 = 0 :=
  (by decide +kernel : ∀ t : Fin grid3.N, first3 (grid3.coords t) ↔ t.val % 8 = 0)
abbrev last3 (i : grid3.Coords) : Prop := k3_cond2 i = 1#1
theorem last3_iff : ∀ t : Fin cfg3.N, last3 (grid3.coords t) ↔ t.val % 8 = 7 :=
  (by decide +kernel : ∀ t : Fin grid3.N, last3 (grid3.coords t) ↔ t.val % 8 = 7)
theorem nfl3 : ∀ t : Fin cfg3.N, ¬(first3 (grid3.coords t) ∧ last3 (grid3.coords t)) := by decide +kernel
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem idle3_4 : ∀ t : Fin cfg3.N, ¬last3 (grid3.coords t) → cfg3.idle 4 (grid3.coords t) = true := by decide +kernel
theorem noflush3_4 : ∀ t : Fin cfg3.N, ¬last3 (grid3.coords t) → (cfg3.win 4).flush t = false := by decide +kernel
theorem live3_4 : ∀ t : Fin cfg3.N, last3 (grid3.coords t) → cfg3.idle 4 (grid3.coords t) = false := by decide +kernel
abbrev mr3_0 (t : Fin cfg3.N) : Memref sig .tc .vmem S1024x1024 .f32 := win3_0.stage (cfg3.slots t 0)
abbrev mr3_1 (t : Fin cfg3.N) : Memref sig .tc .vmem S1024x1024 .f32 := win3_1.stage (cfg3.slots t 1)
abbrev mr3_2 (t : Fin cfg3.N) : Memref sig .tc .vmem S1024x16 .f32 := win3_2.stage (cfg3.slots t 2)
abbrev mr3_3 (t : Fin cfg3.N) : Memref sig .tc .vmem S1024x16 .f32 := win3_3.stage (cfg3.slots t 3)
abbrev mr3_4 (t : Fin cfg3.N) : Memref sig .tc .vmem S1024x16 .f32 := win3_4.stage (cfg3.slots t 4)
abbrev acc3 : Memref sig .tc .vmem S1024x16 .f32 := Memref.whole cc3_scratch0
end Cert.KernelIdeal.Spmm3
end
-- ==== Proof.KI.R3.Step.lean ====
import proofs.«165102_j58428735095548_1_alg».proof.Proof.KI.R3.Conds
import proofs.«165102_j58428735095548_1_alg».proof.Proof.Math.Spmm
import Idealize.ShloMosaic.Lib.Pipeline.Value

set_option maxRecDepth 16384

noncomputable section

namespace Cert.KernelIdeal.Spmm3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One grid point's update of the accumulator: both block products added. -/
def upd3 (x0 x1 : Vec F S1024x1024 .f32) (x2 x3 xa : Vec F S1024x16 .f32) : Vec F S1024x16 .f32 :=
  k3_pay3 x1 x3 (k3_pay2 x0 x2 xa)

set_option maxHeartbeats 3000000 in
/-- The body at any point, run symbolically in its three cases: the accumulator restarts from zero at the first column
    block of a row, and the output block receives its copy at the last. -/
theorem step3 (c : Dev nD) (i : grid3.Coords) (a2 : Memref sig .tc .vmem S1024x1024 .f32) (h2 : a2.IsWhole) (a3 : Memref sig .tc .vmem S1024x1024 .f32) (h3 : a3.IsWhole) (a4 : Memref sig .tc .vmem S1024x16 .f32) (h4 : a4.IsWhole) (a5 : Memref sig .tc .vmem S1024x16 .f32) (h5 : a5.IsWhole) (a6 : Memref sig .tc .vmem S1024x16 .f32) (h6 : a6.IsWhole) (a7 : Memref sig .tc .vmem S1024x16 .f32) (h7 : a7.IsWhole)
    (hfl : ¬(first3 i ∧ last3 i)) (x0 x1 : Vec F S1024x1024 .f32) (x2 x3 xa xo : Vec F S1024x16 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare xo ∗ owns (c : Thread nD τ) a7 fullShare xa
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (if last3 i then upd3 x0 x1 x2 x3 (if first3 i then k3_pay1 else xa) else xo)
            ∗ owns (c : Thread nD τ) a7 fullShare (upd3 x0 x1 x2 x3 (if first3 i then k3_pay1 else xa))) -∗ K ⟨⟩))
      ⊢ wp frame (wpE (defs₀ (F := F)) Variants.none c none) E (cc3__spmm_kernel i a2 h2 a3 h3 a4 h4 a5 h5 a6 h6 a7 h7) K := by
  by_cases hf : first3 i <;> by_cases hl : last3 i
  · exact absurd ⟨hf, hl⟩ hfl
  all_goals
    (first | rw [if_pos hf] | rw [if_neg hf]
     first | rw [if_pos hl] | rw [if_neg hl]
     simp only [cc3__spmm_kernel_eq_skeleton]; unfold cc3__spmm_kernel_skel
     unfold owns
     iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
     obtain rfl := h2.eq_unread hf0; obtain rfl := h3.eq_unread hf1; obtain rfl := h4.eq_unread hf2; obtain rfl := h5.eq_unread hf3; obtain rfl := h6.eq_unread hf4; obtain rfl := h7.eq_unread hfs
     sl_exec (disch := first | exact hf | exact hl)
     sl_step
     iapply Hk
     isplitl [H0]
     · iexists _; isplitr; · ipureintro; exact h2.read_unread _
       iexact H0
     isplitl [H1]
     · iexists _; isplitr; · ipureintro; exact h3.read_unread _
       iexact H1
     isplitl [H2]
     · iexists _; isplitr; · ipureintro; exact h4.read_unread _
       iexact H2
     isplitl [H3]
     · iexists _; isplitr; · ipureintro; exact h5.read_unread _
       iexact H3
     isplitl [H4] <;>
      (iexists _; isplitr; swap; · iassumption
       ipureintro
       first
       | (rw [View.read_writes_eq_canon _ _ _ (View.cover_of_tiledL _ S1024x16.size (by sl_kernel_rfl))]
          sl_unfold_words
          rw [View.canon_cons_unit_zero (S := S1024x16) Cert.Spec.offZero]
          simp only [upd3, View.readCov_cons_toLoadRect, View.readAt_eq_ld, h2.read_unread, h3.read_unread, h4.read_unread, h5.read_unread, h7.read_unread,
            View.ld_unit_zero (S := S1024x1024) Cert.Spec.offZero, View.ld_unit_zero (S := S1024x16) Cert.Spec.offZero])
       | exact h6.read_unread _))

end Cert.KernelIdeal.Spmm3

end
-- ==== Proof.KI.R3.Data.lean ====
import proofs.«165102_j58428735095548_1_alg».proof.Proof.KI.R3.Step

set_option maxRecDepth 16384

noncomputable section

namespace Cert.KernelIdeal.Spmm3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev updAt3 (c : Dev nD) (t : Fin cfg3.N) (xa : Vec F S1024x16 .f32) : Vec F S1024x16 .f32 :=
  upd3 (blk3 V c 0 t) (blk3 V c 1 t) (blk3 V c 2 t) (blk3 V c 3 t) xa

/-- The accumulator after point n: restarted at the first column block of a row, else updated from the point before. -/
def accAt3 (c : Dev nD) : (n : ℕ) → n < cfg3.N → Vec F S1024x16 .f32
  | 0, hn => updAt3 V c ⟨0, hn⟩ k3_pay1
  | n + 1, hn => updAt3 V c ⟨n + 1, hn⟩ (if (n + 1) % 8 = 0 then k3_pay1 else accAt3 c n (Nat.lt_of_succ_lt hn))

theorem accAt3_step (c : Dev nD) (t : Fin cfg3.N) (xa : Vec F S1024x16 .f32)
    (hxa : ∀ k hk, t.val = k + 1 → t.val % 8 ≠ 0 → xa = accAt3 V c k hk) :
    updAt3 V c t (if first3 (grid3.coords t) then k3_pay1 else xa) = accAt3 V c t.val t.isLt := by
  obtain ⟨n, hn⟩ := t
  by_cases h0 : n % 8 = 0
  · rw [if_pos ((first3_iff ⟨n, hn⟩).mpr h0)]
    cases n with
    | zero => rfl
    | succ n => exact (congrArg (updAt3 V c ⟨n + 1, hn⟩) (if_pos h0)).symm
  · rw [if_neg (mt (first3_iff ⟨n, hn⟩).mp h0)]
    cases n with
    | zero => exact absurd (Nat.zero_mod 8) h0
    | succ n => rw [hxa n (Nat.lt_of_succ_lt hn) rfl h0]; exact (congrArg (updAt3 V c ⟨n + 1, hn⟩) (if_neg h0)).symm

abbrev others3 (c : Dev nD) : sProp 𝕄 :=
  Pipeline.scopedRestBut (Ix := Unit) (Name := ℕ) (U := UU) (Lvl := ℕ) (Val := Elt F) spec3 c [cc3_scratch0]

/-- Before position n the accumulator holds what the point before left (nothing is said at the start of a row). -/
def inv3 (c : Dev nD) (n : ℕ) : sProp 𝕄 :=
  iprop(∃ xa, ⌜∀ k hk, n = k + 1 → n % 8 ≠ 0 → xa = accAt3 V c k hk⌝ ∗ owns (c : Thread nD τ) acc3 fullShare xa ∗ others3 c)

def dat3 (c : Dev nD) : Dat τ (Elt F) Unit ℕ UU ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => if t.val % 8 = 7 then accAt3 V c t.val t.isLt else k3_pay1
  Φ t := inv3 V c t.val
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) :
    (dat3 V c).after 4 t = if t.val % 8 = 7 then accAt3 V c t.val t.isLt else k3_pay1 := by dsimp only [dat3]

end Cert.KernelIdeal.Spmm3

end
-- ==== Proof.KI.Family.lean ====
import proofs.«165102_j58428735095548_1_alg».proof.Proof.KI.R0.Data
import proofs.«165102_j58428735095548_1_alg».proof.Proof.KI.R1.Data
import proofs.«165102_j58428735095548_1_alg».proof.Proof.KI.R2.Data
import proofs.«165102_j58428735095548_1_alg».proof.Proof.KI.R3.Data
import proofs.«165102_j58428735095548_1_alg».proof.Proof.Gen.KernelIdeal.Regions
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
abbrev UU : Type := UR sig nD τ
local notation "𝕄" => MT nD τ sig Unit (Elt F) ℕ UU ℕ
abbrev atTc (W : Dev nD → Valuation τ sig (Elt F)) : (c : Dev nD) → (b : Ref sig .tc) → Buf (Elt F) ((c : Thread nD τ).loc b) :=
  fun c b => W c b
def fam (Wen : Fin 4 → Dev nD → Valuation τ sig (Elt F)) : (p : Fin 4) → (c : Dev nD) → Dat τ (Elt F) Unit ℕ UU ℕ (cfgs p) c
  | ⟨0, _⟩ => fun c => Spmm0.dat0 (atTc (Wen (0 : Fin 4))) c
  | ⟨1, _⟩ => fun c => Spmm1.dat1 (atTc (Wen (1 : Fin 4))) c
  | ⟨2, _⟩ => fun c => Spmm2.dat2 (atTc (Wen (2 : Fin 4))) c
  | ⟨3, _⟩ => fun c => Spmm3.dat3 (atTc (Wen (3 : Fin 4))) c
abbrev L : GSem nD τ sig → Finset Unit := fun _ => ∅
abbrev lv : GSem nD τ sig → Unit → ℕ := fun _ _ => 0
abbrev ride (c : Dev nD) : sProp 𝕄 :=
  iprop((∃ r, prngReg c r) ∗ ∃ Wt, owes (c : Thread nD τ) (0 : CellTallies nD τ sig Unit) Wt)
end Cert.KernelIdeal.Hand
end
-- ==== Proof.KI.Chain.lean ====
import proofs.«165102_j58428735095548_1_alg».proof.Proof.KI.Family
set_option maxRecDepth 16384
noncomputable section
namespace Cert.KernelIdeal.Hand
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (m : (ℓ : Loc nD τ sig) → Buf (Elt F) ℓ)
abbrev W0 (c : Dev nD) : Valuation τ sig (Elt F) := fun b => m (c, b)
abbrev W1 (c : Dev nD) : Valuation τ sig (Elt F) := StableHlo.after hostOps0 (W0 m c)
def res0 (c : Dev nD) : Buf (Elt F) ((c : Thread nD τ).loc main_v7) := (Spmm0.dat0 (atTc (W1 m)) c).arrAt 4 cfg0.N
def W2 (c : Dev nD) : Valuation τ sig (Elt F) := Function.update (W1 m c) main_v7 (res0 m c)
abbrev W3 (c : Dev nD) : Valuation τ sig (Elt F) := StableHlo.after hostOps1 (W2 m c)
def res1 (c : Dev nD) : Buf (Elt F) ((c : Thread nD τ).loc main_v35) := (Spmm1.dat1 (atTc (W3 m)) c).arrAt 4 cfg1.N
def W4 (c : Dev nD) : Valuation τ sig (Elt F) := Function.update (W3 m c) main_v35 (res1 m c)
abbrev W5 (c : Dev nD) : Valuation τ sig (Elt F) := StableHlo.after hostOps2 (W4 m c)
abbrev W6 (c : Dev nD) : Valuation τ sig (Elt F) := StableHlo.after hostOps2_1 (W5 m c)
abbrev W7 (c : Dev nD) : Valuation τ sig (Elt F) := StableHlo.after hostOps2_2 (W6 m c)
def res2 (c : Dev nD) : Buf (Elt F) ((c : Thread nD τ).loc main_v45) := (Spmm2.dat2 (atTc (W7 m)) c).arrAt 4 cfg2.N
def W8 (c : Dev nD) : Valuation τ sig (Elt F) := Function.update (W7 m c) main_v45 (res2 m c)
abbrev W9 (c : Dev nD) : Valuation τ sig (Elt F) := StableHlo.after hostOps3 (W8 m c)
abbrev W10 (c : Dev nD) : Valuation τ sig (Elt F) := StableHlo.after hostOps3_1 (W9 m c)
abbrev W11 (c : Dev nD) : Valuation τ sig (Elt F) := StableHlo.after hostOps3_2 (W10 m c)
def res3 (c : Dev nD) : Buf (Elt F) ((c : Thread nD τ).loc main_v55) := (Spmm3.dat3 (atTc (W11 m)) c).arrAt 4 cfg3.N
def W12 (c : Dev nD) : Valuation τ sig (Elt F) := Function.update (W11 m c) main_v55 (res3 m c)
abbrev W13 (c : Dev nD) : Valuation τ sig (Elt F) := StableHlo.after hostOps4 (W12 m c)
def outs : Gen.Outs (F := F) := fun n r c =>
  match n with
  | 2 => W2 m c r
  | 4 => W4 m c r
  | 8 => W8 m c r
  | 12 => W12 m c r
  | _ => W0 m c r
def entry : Fin 4 → Dev nD → Valuation τ sig (Elt F)
  | ⟨0, _⟩ => W1 m
  | ⟨1, _⟩ => W3 m
  | ⟨2, _⟩ => W7 m
  | ⟨3, _⟩ => W11 m
abbrev pdats : (p : Fin 4) → (c : Dev nD) → Dat τ (Elt F) Unit ℕ Hand.UU ℕ (cfgs p) c :=
  fam (entry m)
end Cert.KernelIdeal.Hand
end
-- ==== Proof.KI.R0.Body.lean ====
import proofs.«165102_j58428735095548_1_alg».proof.Proof.KI.R0.Data

set_option maxRecDepth 16384

noncomputable section

namespace Cert.KernelIdeal.Spmm0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

theorem before0_0 (c : Dev nD) (t : Fin cfg0.N) (d) : (dat0 V c).before 0 t d = blk0 V c 0 t :=
  ((dat0 V c).before_fetched 0 t (fetch0_0 t) d).trans (by unfold Dat.fetched Dat.blockOf blk0; rw [A_eq0]; try rfl)
theorem before0_1 (c : Dev nD) (t : Fin cfg0.N) (d) : (dat0 V c).before 1 t d = blk0 V c 1 t :=
  ((dat0 V c).before_fetched 1 t (fetch0_1 t) d).trans (by unfold Dat.fetched Dat.blockOf blk0; rw [A_eq0]; try rfl)
theorem before0_2 (c : Dev nD) (t : Fin cfg0.N) (d) : (dat0 V c).before 2 t d = blk0 V c 2 t :=
  ((dat0 V c).before_fetched 2 t (fetch0_2 t) d).trans (by unfold Dat.fetched Dat.blockOf blk0; rw [A_eq0]; try rfl)
theorem before0_3 (c : Dev nD) (t : Fin cfg0.N) (d) : (dat0 V c).before 3 t d = blk0 V c 3 t :=
  ((dat0 V c).before_fetched 3 t (fetch0_3 t) d).trans (by unfold Dat.fetched Dat.blockOf blk0; rw [A_eq0]; try rfl)

theorem rest0_eq (c : Dev nD) :
    (Pipeline.scopedRest (Ix := Unit) (Name := ℕ) (U := UU) (Lvl := ℕ) (Val := Elt F) spec0 c : sProp 𝕄)
      = iprop(iprop((∃ d, owns (c : Thread nD τ) acc0 fullShare d)) ∗ others0 c) := by
  rw [scopedRest0_split]; simp only [acc0, owns_whole]; rfl

def bodyPre0 (c : Dev nD) (t : Fin cfg0.N) : sProp 𝕄 :=
  iprop((dat0 V c).Φ t.castSucc ∗ (dat0 V c).owesAt () t.castSucc
    ∗ (∃ d, owns (c : Thread nD τ) (mr0_0 t) fullShare ((dat0 V c).before 0 t d))
    ∗ (∃ d, owns (c : Thread nD τ) (mr0_1 t) fullShare ((dat0 V c).before 1 t d))
    ∗ (∃ d, owns (c : Thread nD τ) (mr0_2 t) fullShare ((dat0 V c).before 2 t d))
    ∗ (∃ d, owns (c : Thread nD τ) (mr0_3 t) fullShare ((dat0 V c).before 3 t d))
    ∗ (∃ d, owns (c : Thread nD τ) (mr0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- The output block after the body: the accumulator's copy at the last column block of a row, else as found. -/
theorem leaves0_4 (c : Dev nD) (t : Fin cfg0.N) (d) (xa : Vec F S1024x8 .f32)
    (hxa : ∀ k hk, t.val = k + 1 → t.val % 8 ≠ 0 → xa = accAt0 V c k hk) :
    owns (c : Thread nD τ) (mr0_4 t) fullShare
        (if last0 (grid0.coords t) then updAt0 V c t (if first0 (grid0.coords t) then k0_pay1 else xa) else (dat0 V c).before 4 t d)
      ⊢ (dat0 V c).leavesExact 4 t := by
  by_cases hl : last0 (grid0.coords t)
  · rw [if_pos hl, accAt0_step V c t xa hxa,
      show (dat0 V c).leavesExact 4 t = owns (c : Thread nD τ) (mr0_4 t) fullShare ((dat0 V c).after 4 t) from by
        unfold Dat.leavesExact; rw [live0_4 t hl], after0_4, if_pos ((last0_iff t).mp hl)]
  · rw [if_neg hl, Dat.leavesExact_idle (dat0 V c) 4 t (idle0_4 t hl) (noflush0_4 t hl)]
    iintro H; iexists d; iexact H

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = inv0 V c (t.val + 1) from rfl, show (dat0 V c).Φ t.castSucc = inv0 V c t.val from rfl]
  rw [show (dat0 V c).leavesExact 0 t = owns (c : Thread nD τ) (mr0_0 t) fullShare ((dat0 V c).after 0 t) from by
    unfold Dat.leavesExact; rw [live0_0 t], after0_0]
  rw [show (dat0 V c).leavesExact 1 t = owns (c : Thread nD τ) (mr0_1 t) fullShare ((dat0 V c).after 1 t) from by
    unfold Dat.leavesExact; rw [live0_1 t], after0_1]
  rw [show (dat0 V c).leavesExact 2 t = owns (c : Thread nD τ) (mr0_2 t) fullShare ((dat0 V c).after 2 t) from by
    unfold Dat.leavesExact; rw [live0_2 t], after0_2]
  rw [show (dat0 V c).leavesExact 3 t = owns (c : Thread nD τ) (mr0_3 t) fullShare ((dat0 V c).after 3 t) from by
    unfold Dat.leavesExact; rw [live0_3 t], after0_3]
  unfold inv0
  iintro ⟨⟨%xa, %hxa, HS, Hr⟩, Ho, ⟨%d0, H0⟩, ⟨%d1, H1⟩, ⟨%d2, H2⟩, ⟨%d3, H3⟩, ⟨%d4, H4⟩⟩
  iapply (step0 c (grid0.coords t) _ _ _ _ _ _ _ _ _ _ _ _ (nfl0 t) (blk0 V c 0 t) (blk0 V c 1 t) (blk0 V c 2 t) (blk0 V c 3 t) xa _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hr]
  · iexists _; isplitr
    swap
    · isplitl [HS]; · iexact HS
      iexact Hr
    ipureintro
    exact fun k hk e _ => by obtain rfl := Nat.succ.inj e; exact accAt0_step V c t xa hxa
  isplitl [Ho]; · iexact Ho
  isplitl [H0]; · iexact H0
  isplitl [H1]; · iexact H1
  isplitl [H2]; · iexact H2
  isplitl [H3]; · iexact H3
  iapply (leaves0_4 V c t d4 xa hxa); iexact H4

theorem body_obligation0 (c : Dev nD) : BodyObligation (dat0 (F := F) V c) (defs₀ (F := F)) Variants.none () Set.univ := fun t => by
  rw [bigSep_W0, bigSep_W0]
  exact sound_body0 V c t

theorem enter0 (c : Dev nD) :
    (Pipeline.scopedRest (Ix := Unit) (Name := ℕ) (U := UU) (Lvl := ℕ) (Val := Elt F) spec0 c : sProp 𝕄) ⊢ (dat0 V c).Φ 0 := by
  rw [show (dat0 V c).Φ 0 = inv0 V c 0 from rfl, rest0_eq]
  unfold inv0
  iintro ⟨⟨%d, HS⟩, Hr⟩
  iexists d; isplitr; · ipureintro; exact fun k _ e _ => absurd e.symm (Nat.succ_ne_zero k)
  isplitl [HS]; · iexact HS
  iexact Hr

theorem leave0 (c : Dev nD) :
    (dat0 V c).Φ (Fin.last cfg0.N) ⊢ (Pipeline.scopedRest (Ix := Unit) (Name := ℕ) (U := UU) (Lvl := ℕ) (Val := Elt F) spec0 c : sProp 𝕄) := by
  rw [show (dat0 V c).Φ (Fin.last cfg0.N) = inv0 V c (Fin.last cfg0.N).val from rfl, rest0_eq]
  unfold inv0
  iintro ⟨%xa, -, HS, Hr⟩
  isplitl [HS]; · iexists _; iexact HS
  iexact Hr

end Cert.KernelIdeal.Spmm0

end
-- ==== Proof.KI.R0.Region.lean ====
import proofs.«165102_j58428735095548_1_alg».proof.Proof.KI.Family
import proofs.«165102_j58428735095548_1_alg».proof.Proof.KI.R0.Body
import Idealize.ShloMosaic.Lib.Pipeline.RegionsLoop
set_option maxRecDepth 16384
noncomputable section
namespace Cert.KernelIdeal.Spmm0
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (Wen : Fin 4 → Dev nD → Valuation τ sig (Elt F))
set_option backward.isDefEq.respectTransparency.types false in
def reg0 (Wp : Dev nD → Valuation τ sig (Elt F))
    (hout : ∀ c, Wp c main_v7 = (dat0 (atTc (Wen (0 : Fin 4))) c).arrAt 4 cfg0.N)
    (hne : ∀ c (b : Ref sig .tc), b ≠ main_v7 → Wp c b = Wen (0 : Fin 4) c b) :
    Pipeline.RegionSeg (pcfgs (F := F)) Gen.adm (fam Wen) () defs₀ Variants.none L lv (0 : Fin 4) where
  win := launch0.win.to₀
  block_pos := launch0.block_pos
  stage_whole := launch0.stage_whole
  K := PEmpty
  osem k := k.elim
  ho := Pipeline.OwnSemFacts.none _
  hbody c := (body_obligation0 (atTc (Wen (0 : Fin 4))) c).loose
  hwaits := Pipeline.hwaits_of_owed_zero _ _ _ _ L lv (0 : Fin 4) fun _ _ => rfl
  pre c := iprop(StableHlo.held (c : Thread nD τ) (Pipeline.ucRefs τ sig) (Wen (0 : Fin 4) c) ∗ ride c)
  post c := iprop(StableHlo.held (c : Thread nD τ) (Pipeline.ucRefs τ sig) (Wp c) ∗ ride c)
  X _ := BI.emp
  Y _ := BI.emp
  Z c := iprop(Pipeline.unscopedRest (Ix := Unit) (Name := ℕ) (U := Hand.UU) (Lvl := ℕ) spec0 c (atTc (Wen (0 : Fin 4)) c) ∗ ∃ r, prngReg c r)
  hentry c := by
    have hsplit := Pipeline.arrays_of_unscopedBufs (p := (0 : Fin 4)) (pcfgs (F := F)) Gen.adm (fam Wen) launch0.win launch0.arr_whole c
      ((fam Wen (0 : Fin 4) c).share_full fun _ => rfl) (atTc (Wen (0 : Fin 4)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    isplitl [Hrest]; · iexact Hrest
    iexact Hp
  hin c := by
    refine BIBase.Entails.trans ?_ (enter0 (atTc (Wen (0 : Fin 4))) c)
    iintro ⟨-, -, Hr⟩
    iexact Hr
  hout c := by
    rw [Pipeline.ownSems0_none]
    refine BIBase.Entails.trans (leave0 (atTc (Wen (0 : Fin 4))) c) ?_
    iintro H
    isplitr; · iempintro
    isplitr; · iempintro
    iexact H
  hexit c := by
    have hF : ∀ w : Fin cfg0.W, (fam Wen (0 : Fin 4) c).arrAt w cfg0.N = atTc Wp c (Pipeline.arrRef spec0 w) := fun
      | ⟨0, _⟩ => ((fam Wen (0 : Fin 4) c).arrAt_in 0 rfl _).trans (hne c _ (by decide)).symm
      | ⟨1, _⟩ => ((fam Wen (0 : Fin 4) c).arrAt_in 1 rfl _).trans (hne c _ (by decide)).symm
      | ⟨2, _⟩ => ((fam Wen (0 : Fin 4) c).arrAt_in 2 rfl _).trans (hne c _ (by decide)).symm
      | ⟨3, _⟩ => ((fam Wen (0 : Fin 4) c).arrAt_in 3 rfl _).trans (hne c _ (by decide)).symm
      | ⟨4, _⟩ => (hout c).symm
    have hrest : ∀ b, b ∉ Finset.univ.image (Pipeline.arrRef spec0) → atTc Wp c b = atTc (Wen (0 : Fin 4)) c b :=
      fun b hb => hne c b fun e => hb (Finset.mem_image.mpr ⟨4, Finset.mem_univ _, e.symm⟩)
    have hjoin := Pipeline.unscopedBufs_of_arrays (p := (0 : Fin 4)) (pcfgs (F := F)) Gen.adm (Ix := Unit) (Name := ℕ) (U := Hand.UU) (Lvl := ℕ)
      launch0.win launch0.arr_whole c (fam Wen) ((fam Wen (0 : Fin 4) c).share_full fun _ => rfl)
      (atTc (Wen (0 : Fin 4)) c) (atTc Wp c) ((fam Wen (0 : Fin 4) c).arrAt · cfg0.N) hF hrest
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%Wt, -, HO⟩; iexists Wt; iexact HO
end Cert.KernelIdeal.Spmm0
end
-- ==== Proof.KI.R1.Body.lean ====
import proofs.«165102_j58428735095548_1_alg».proof.Proof.KI.R1.Data

set_option maxRecDepth 16384

noncomputable section

namespace Cert.KernelIdeal.Spmm1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

theorem before1_0 (c : Dev nD) (t : Fin cfg1.N) (d) : (dat1 V c).before 0 t d = blk1 V c 0 t :=
  ((dat1 V c).before_fetched 0 t (fetch1_0 t) d).trans (by unfold Dat.fetched Dat.blockOf blk1; rw [A_eq1]; try rfl)
theorem before1_1 (c : Dev nD) (t : Fin cfg1.N) (d) : (dat1 V c).before 1 t d = blk1 V c 1 t :=
  ((dat1 V c).before_fetched 1 t (fetch1_1 t) d).trans (by unfold Dat.fetched Dat.blockOf blk1; rw [A_eq1]; try rfl)
theorem before1_2 (c : Dev nD) (t : Fin cfg1.N) (d) : (dat1 V c).before 2 t d = blk1 V c 2 t :=
  ((dat1 V c).before_fetched 2 t (fetch1_2 t) d).trans (by unfold Dat.fetched Dat.blockOf blk1; rw [A_eq1]; try rfl)
theorem before1_3 (c : Dev nD) (t : Fin cfg1.N) (d) : (dat1 V c).before 3 t d = blk1 V c 3 t :=
  ((dat1 V c).before_fetched 3 t (fetch1_3 t) d).trans (by unfold Dat.fetched Dat.blockOf blk1; rw [A_eq1]; try rfl)

theorem rest1_eq (c : Dev nD) :
    (Pipeline.scopedRest (Ix := Unit) (Name := ℕ) (U := UU) (Lvl := ℕ) (Val := Elt F) spec1 c : sProp 𝕄)
      = iprop(iprop((∃ d, owns (c : Thread nD τ) acc1 fullShare d)) ∗ others1 c) := by
  rw [scopedRest1_split]; simp only [acc1, owns_whole]; rfl

def bodyPre1 (c : Dev nD) (t : Fin cfg1.N) : sProp 𝕄 :=
  iprop((dat1 V c).Φ t.castSucc ∗ (dat1 V c).owesAt () t.castSucc
    ∗ (∃ d, owns (c : Thread nD τ) (mr1_0 t) fullShare ((dat1 V c).before 0 t d))
    ∗ (∃ d, owns (c : Thread nD τ) (mr1_1 t) fullShare ((dat1 V c).before 1 t d))
    ∗ (∃ d, owns (c : Thread nD τ) (mr1_2 t) fullShare ((dat1 V c).before 2 t d))
    ∗ (∃ d, owns (c : Thread nD τ) (mr1_3 t) fullShare ((dat1 V c).before 3 t d))
    ∗ (∃ d, owns (c : Thread nD τ) (mr1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The output block after the body: the accumulator's copy at the last column block of a row, else as found. -/
theorem leaves1_4 (c : Dev nD) (t : Fin cfg1.N) (d) (xa : Vec F S1024x128 .f32)
    (hxa : ∀ k hk, t.val = k + 1 → t.val % 8 ≠ 0 → xa = accAt1 V c k hk) :
    owns (c : Thread nD τ) (mr1_4 t) fullShare
        (if last1 (grid1.coords t) then updAt1 V c t (if first1 (grid1.coords t) then k1_pay1 else xa) else (dat1 V c).before 4 t d)
      ⊢ (dat1 V c).leavesExact 4 t := by
  by_cases hl : last1 (grid1.coords t)
  · rw [if_pos hl, accAt1_step V c t xa hxa,
      show (dat1 V c).leavesExact 4 t = owns (c : Thread nD τ) (mr1_4 t) fullShare ((dat1 V c).after 4 t) from by
        unfold Dat.leavesExact; rw [live1_4 t hl], after1_4, if_pos ((last1_iff t).mp hl)]
  · rw [if_neg hl, Dat.leavesExact_idle (dat1 V c) 4 t (idle1_4 t hl) (noflush1_4 t hl)]
    iintro H; iexists d; iexact H

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = inv1 V c (t.val + 1) from rfl, show (dat1 V c).Φ t.castSucc = inv1 V c t.val from rfl]
  rw [show (dat1 V c).leavesExact 0 t = owns (c : Thread nD τ) (mr1_0 t) fullShare ((dat1 V c).after 0 t) from by
    unfold Dat.leavesExact; rw [live1_0 t], after1_0]
  rw [show (dat1 V c).leavesExact 1 t = owns (c : Thread nD τ) (mr1_1 t) fullShare ((dat1 V c).after 1 t) from by
    unfold Dat.leavesExact; rw [live1_1 t], after1_1]
  rw [show (dat1 V c).leavesExact 2 t = owns (c : Thread nD τ) (mr1_2 t) fullShare ((dat1 V c).after 2 t) from by
    unfold Dat.leavesExact; rw [live1_2 t], after1_2]
  rw [show (dat1 V c).leavesExact 3 t = owns (c : Thread nD τ) (mr1_3 t) fullShare ((dat1 V c).after 3 t) from by
    unfold Dat.leavesExact; rw [live1_3 t], after1_3]
  unfold inv1
  iintro ⟨⟨%xa, %hxa, HS, Hr⟩, Ho, ⟨%d0, H0⟩, ⟨%d1, H1⟩, ⟨%d2, H2⟩, ⟨%d3, H3⟩, ⟨%d4, H4⟩⟩
  iapply (step1 c (grid1.coords t) _ _ _ _ _ _ _ _ _ _ _ _ (nfl1 t) (blk1 V c 0 t) (blk1 V c 1 t) (blk1 V c 2 t) (blk1 V c 3 t) xa _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hr]
  · iexists _; isplitr
    swap
    · isplitl [HS]; · iexact HS
      iexact Hr
    ipureintro
    exact fun k hk e _ => by obtain rfl := Nat.succ.inj e; exact accAt1_step V c t xa hxa
  isplitl [Ho]; · iexact Ho
  isplitl [H0]; · iexact H0
  isplitl [H1]; · iexact H1
  isplitl [H2]; · iexact H2
  isplitl [H3]; · iexact H3
  iapply (leaves1_4 V c t d4 xa hxa); iexact H4

theorem body_obligation1 (c : Dev nD) : BodyObligation (dat1 (F := F) V c) (defs₀ (F := F)) Variants.none () Set.univ := fun t => by
  rw [bigSep_W1, bigSep_W1]
  exact sound_body1 V c t

theorem enter1 (c : Dev nD) :
    (Pipeline.scopedRest (Ix := Unit) (Name := ℕ) (U := UU) (Lvl := ℕ) (Val := Elt F) spec1 c : sProp 𝕄) ⊢ (dat1 V c).Φ 0 := by
  rw [show (dat1 V c).Φ 0 = inv1 V c 0 from rfl, rest1_eq]
  unfold inv1
  iintro ⟨⟨%d, HS⟩, Hr⟩
  iexists d; isplitr; · ipureintro; exact fun k _ e _ => absurd e.symm (Nat.succ_ne_zero k)
  isplitl [HS]; · iexact HS
  iexact Hr

theorem leave1 (c : Dev nD) :
    (dat1 V c).Φ (Fin.last cfg1.N) ⊢ (Pipeline.scopedRest (Ix := Unit) (Name := ℕ) (U := UU) (Lvl := ℕ) (Val := Elt F) spec1 c : sProp 𝕄) := by
  rw [show (dat1 V c).Φ (Fin.last cfg1.N) = inv1 V c (Fin.last cfg1.N).val from rfl, rest1_eq]
  unfold inv1
  iintro ⟨%xa, -, HS, Hr⟩
  isplitl [HS]; · iexists _; iexact HS
  iexact Hr

end Cert.KernelIdeal.Spmm1

end
-- ==== Proof.KI.R1.Region.lean ====
import proofs.«165102_j58428735095548_1_alg».proof.Proof.KI.Family
import proofs.«165102_j58428735095548_1_alg».proof.Proof.KI.R1.Body
import Idealize.ShloMosaic.Lib.Pipeline.RegionsLoop
set_option maxRecDepth 16384
noncomputable section
namespace Cert.KernelIdeal.Spmm1
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (Wen : Fin 4 → Dev nD → Valuation τ sig (Elt F))
set_option backward.isDefEq.respectTransparency.types false in
def reg1 (Wp : Dev nD → Valuation τ sig (Elt F))
    (hout : ∀ c, Wp c main_v35 = (dat1 (atTc (Wen (1 : Fin 4))) c).arrAt 4 cfg1.N)
    (hne : ∀ c (b : Ref sig .tc), b ≠ main_v35 → Wp c b = Wen (1 : Fin 4) c b) :
    Pipeline.RegionSeg (pcfgs (F := F)) Gen.adm (fam Wen) () defs₀ Variants.none L lv (1 : Fin 4) where
  win := launch1.win.to₀
  block_pos := launch1.block_pos
  stage_whole := launch1.stage_whole
  K := PEmpty
  osem k := k.elim
  ho := Pipeline.OwnSemFacts.none _
  hbody c := (body_obligation1 (atTc (Wen (1 : Fin 4))) c).loose
  hwaits := Pipeline.hwaits_of_owed_zero _ _ _ _ L lv (1 : Fin 4) fun _ _ => rfl
  pre c := iprop(StableHlo.held (c : Thread nD τ) (Pipeline.ucRefs τ sig) (Wen (1 : Fin 4) c) ∗ ride c)
  post c := iprop(StableHlo.held (c : Thread nD τ) (Pipeline.ucRefs τ sig) (Wp c) ∗ ride c)
  X _ := BI.emp
  Y _ := BI.emp
  Z c := iprop(Pipeline.unscopedRest (Ix := Unit) (Name := ℕ) (U := Hand.UU) (Lvl := ℕ) spec1 c (atTc (Wen (1 : Fin 4)) c) ∗ ∃ r, prngReg c r)
  hentry c := by
    have hsplit := Pipeline.arrays_of_unscopedBufs (p := (1 : Fin 4)) (pcfgs (F := F)) Gen.adm (fam Wen) launch1.win launch1.arr_whole c
      ((fam Wen (1 : Fin 4) c).share_full fun _ => rfl) (atTc (Wen (1 : Fin 4)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    isplitl [Hrest]; · iexact Hrest
    iexact Hp
  hin c := by
    refine BIBase.Entails.trans ?_ (enter1 (atTc (Wen (1 : Fin 4))) c)
    iintro ⟨-, -, Hr⟩
    iexact Hr
  hout c := by
    rw [Pipeline.ownSems0_none]
    refine BIBase.Entails.trans (leave1 (atTc (Wen (1 : Fin 4))) c) ?_
    iintro H
    isplitr; · iempintro
    isplitr; · iempintro
    iexact H
  hexit c := by
    have hF : ∀ w : Fin cfg1.W, (fam Wen (1 : Fin 4) c).arrAt w cfg1.N = atTc Wp c (Pipeline.arrRef spec1 w) := fun
      | ⟨0, _⟩ => ((fam Wen (1 : Fin 4) c).arrAt_in 0 rfl _).trans (hne c _ (by decide)).symm
      | ⟨1, _⟩ => ((fam Wen (1 : Fin 4) c).arrAt_in 1 rfl _).trans (hne c _ (by decide)).symm
      | ⟨2, _⟩ => ((fam Wen (1 : Fin 4) c).arrAt_in 2 rfl _).trans (hne c _ (by decide)).symm
      | ⟨3, _⟩ => ((fam Wen (1 : Fin 4) c).arrAt_in 3 rfl _).trans (hne c _ (by decide)).symm
      | ⟨4, _⟩ => (hout c).symm
    have hrest : ∀ b, b ∉ Finset.univ.image (Pipeline.arrRef spec1) → atTc Wp c b = atTc (Wen (1 : Fin 4)) c b :=
      fun b hb => hne c b fun e => hb (Finset.mem_image.mpr ⟨4, Finset.mem_univ _, e.symm⟩)
    have hjoin := Pipeline.unscopedBufs_of_arrays (p := (1 : Fin 4)) (pcfgs (F := F)) Gen.adm (Ix := Unit) (Name := ℕ) (U := Hand.UU) (Lvl := ℕ)
      launch1.win launch1.arr_whole c (fam Wen) ((fam Wen (1 : Fin 4) c).share_full fun _ => rfl)
      (atTc (Wen (1 : Fin 4)) c) (atTc Wp c) ((fam Wen (1 : Fin 4) c).arrAt · cfg1.N) hF hrest
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%Wt, -, HO⟩; iexists Wt; iexact HO
end Cert.KernelIdeal.Spmm1
end
-- ==== Proof.KI.R2.Body.lean ====
import proofs.«165102_j58428735095548_1_alg».proof.Proof.KI.R2.Data

set_option maxRecDepth 16384

noncomputable section

namespace Cert.KernelIdeal.Spmm2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

theorem before2_0 (c : Dev nD) (t : Fin cfg2.N) (d) : (dat2 V c).before 0 t d = blk2 V c 0 t :=
  ((dat2 V c).before_fetched 0 t (fetch2_0 t) d).trans (by unfold Dat.fetched Dat.blockOf blk2; rw [A_eq2]; try rfl)
theorem before2_1 (c : Dev nD) (t : Fin cfg2.N) (d) : (dat2 V c).before 1 t d = blk2 V c 1 t :=
  ((dat2 V c).before_fetched 1 t (fetch2_1 t) d).trans (by unfold Dat.fetched Dat.blockOf blk2; rw [A_eq2]; try rfl)
theorem before2_2 (c : Dev nD) (t : Fin cfg2.N) (d) : (dat2 V c).before 2 t d = blk2 V c 2 t :=
  ((dat2 V c).before_fetched 2 t (fetch2_2 t) d).trans (by unfold Dat.fetched Dat.blockOf blk2; rw [A_eq2]; try rfl)
theorem before2_3 (c : Dev nD) (t : Fin cfg2.N) (d) : (dat2 V c).before 3 t d = blk2 V c 3 t :=
  ((dat2 V c).before_fetched 3 t (fetch2_3 t) d).trans (by unfold Dat.fetched Dat.blockOf blk2; rw [A_eq2]; try rfl)

theorem rest2_eq (c : Dev nD) :
    (Pipeline.scopedRest (Ix := Unit) (Name := ℕ) (U := UU) (Lvl := ℕ) (Val := Elt F) spec2 c : sProp 𝕄)
      = iprop(iprop((∃ d, owns (c : Thread nD τ) acc2 fullShare d)) ∗ others2 c) := by
  rw [scopedRest2_split]; simp only [acc2, owns_whole]; rfl

def bodyPre2 (c : Dev nD) (t : Fin cfg2.N) : sProp 𝕄 :=
  iprop((dat2 V c).Φ t.castSucc ∗ (dat2 V c).owesAt () t.castSucc
    ∗ (∃ d, owns (c : Thread nD τ) (mr2_0 t) fullShare ((dat2 V c).before 0 t d))
    ∗ (∃ d, owns (c : Thread nD τ) (mr2_1 t) fullShare ((dat2 V c).before 1 t d))
    ∗ (∃ d, owns (c : Thread nD τ) (mr2_2 t) fullShare ((dat2 V c).before 2 t d))
    ∗ (∃ d, owns (c : Thread nD τ) (mr2_3 t) fullShare ((dat2 V c).before 3 t d))
    ∗ (∃ d, owns (c : Thread nD τ) (mr2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- The output block after the body: the accumulator's copy at the last column block of a row, else as found. -/
theorem leaves2_4 (c : Dev nD) (t : Fin cfg2.N) (d) (xa : Vec F S1024x128 .f32)
    (hxa : ∀ k hk, t.val = k + 1 → t.val % 8 ≠ 0 → xa = accAt2 V c k hk) :
    owns (c : Thread nD τ) (mr2_4 t) fullShare
        (if last2 (grid2.coords t) then updAt2 V c t (if first2 (grid2.coords t) then k2_pay1 else xa) else (dat2 V c).before 4 t d)
      ⊢ (dat2 V c).leavesExact 4 t := by
  by_cases hl : last2 (grid2.coords t)
  · rw [if_pos hl, accAt2_step V c t xa hxa,
      show (dat2 V c).leavesExact 4 t = owns (c : Thread nD τ) (mr2_4 t) fullShare ((dat2 V c).after 4 t) from by
        unfold Dat.leavesExact; rw [live2_4 t hl], after2_4, if_pos ((last2_iff t).mp hl)]
  · rw [if_neg hl, Dat.leavesExact_idle (dat2 V c) 4 t (idle2_4 t hl) (noflush2_4 t hl)]
    iintro H; iexists d; iexact H

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = inv2 V c (t.val + 1) from rfl, show (dat2 V c).Φ t.castSucc = inv2 V c t.val from rfl]
  rw [show (dat2 V c).leavesExact 0 t = owns (c : Thread nD τ) (mr2_0 t) fullShare ((dat2 V c).after 0 t) from by
    unfold Dat.leavesExact; rw [live2_0 t], after2_0]
  rw [show (dat2 V c).leavesExact 1 t = owns (c : Thread nD τ) (mr2_1 t) fullShare ((dat2 V c).after 1 t) from by
    unfold Dat.leavesExact; rw [live2_1 t], after2_1]
  rw [show (dat2 V c).leavesExact 2 t = owns (c : Thread nD τ) (mr2_2 t) fullShare ((dat2 V c).after 2 t) from by
    unfold Dat.leavesExact; rw [live2_2 t], after2_2]
  rw [show (dat2 V c).leavesExact 3 t = owns (c : Thread nD τ) (mr2_3 t) fullShare ((dat2 V c).after 3 t) from by
    unfold Dat.leavesExact; rw [live2_3 t], after2_3]
  unfold inv2
  iintro ⟨⟨%xa, %hxa, HS, Hr⟩, Ho, ⟨%d0, H0⟩, ⟨%d1, H1⟩, ⟨%d2, H2⟩, ⟨%d3, H3⟩, ⟨%d4, H4⟩⟩
  iapply (step2 c (grid2.coords t) _ _ _ _ _ _ _ _ _ _ _ _ (nfl2 t) (blk2 V c 0 t) (blk2 V c 1 t) (blk2 V c 2 t) (blk2 V c 3 t) xa _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hr]
  · iexists _; isplitr
    swap
    · isplitl [HS]; · iexact HS
      iexact Hr
    ipureintro
    exact fun k hk e _ => by obtain rfl := Nat.succ.inj e; exact accAt2_step V c t xa hxa
  isplitl [Ho]; · iexact Ho
  isplitl [H0]; · iexact H0
  isplitl [H1]; · iexact H1
  isplitl [H2]; · iexact H2
  isplitl [H3]; · iexact H3
  iapply (leaves2_4 V c t d4 xa hxa); iexact H4

theorem body_obligation2 (c : Dev nD) : BodyObligation (dat2 (F := F) V c) (defs₀ (F := F)) Variants.none () Set.univ := fun t => by
  rw [bigSep_W2, bigSep_W2]
  exact sound_body2 V c t

theorem enter2 (c : Dev nD) :
    (Pipeline.scopedRest (Ix := Unit) (Name := ℕ) (U := UU) (Lvl := ℕ) (Val := Elt F) spec2 c : sProp 𝕄) ⊢ (dat2 V c).Φ 0 := by
  rw [show (dat2 V c).Φ 0 = inv2 V c 0 from rfl, rest2_eq]
  unfold inv2
  iintro ⟨⟨%d, HS⟩, Hr⟩
  iexists d; isplitr; · ipureintro; exact fun k _ e _ => absurd e.symm (Nat.succ_ne_zero k)
  isplitl [HS]; · iexact HS
  iexact Hr

theorem leave2 (c : Dev nD) :
    (dat2 V c).Φ (Fin.last cfg2.N) ⊢ (Pipeline.scopedRest (Ix := Unit) (Name := ℕ) (U := UU) (Lvl := ℕ) (Val := Elt F) spec2 c : sProp 𝕄) := by
  rw [show (dat2 V c).Φ (Fin.last cfg2.N) = inv2 V c (Fin.last cfg2.N).val from rfl, rest2_eq]
  unfold inv2
  iintro ⟨%xa, -, HS, Hr⟩
  isplitl [HS]; · iexists _; iexact HS
  iexact Hr

end Cert.KernelIdeal.Spmm2

end
-- ==== Proof.KI.R2.Region.lean ====
import proofs.«165102_j58428735095548_1_alg».proof.Proof.KI.Family
import proofs.«165102_j58428735095548_1_alg».proof.Proof.KI.R2.Body
import Idealize.ShloMosaic.Lib.Pipeline.RegionsLoop
set_option maxRecDepth 16384
noncomputable section
namespace Cert.KernelIdeal.Spmm2
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (Wen : Fin 4 → Dev nD → Valuation τ sig (Elt F))
set_option backward.isDefEq.respectTransparency.types false in
def reg2 (Wp : Dev nD → Valuation τ sig (Elt F))
    (hout : ∀ c, Wp c main_v45 = (dat2 (atTc (Wen (2 : Fin 4))) c).arrAt 4 cfg2.N)
    (hne : ∀ c (b : Ref sig .tc), b ≠ main_v45 → Wp c b = Wen (2 : Fin 4) c b) :
    Pipeline.RegionSeg (pcfgs (F := F)) Gen.adm (fam Wen) () defs₀ Variants.none L lv (2 : Fin 4) where
  win := launch2.win.to₀
  block_pos := launch2.block_pos
  stage_whole := launch2.stage_whole
  K := PEmpty
  osem k := k.elim
  ho := Pipeline.OwnSemFacts.none _
  hbody c := (body_obligation2 (atTc (Wen (2 : Fin 4))) c).loose
  hwaits := Pipeline.hwaits_of_owed_zero _ _ _ _ L lv (2 : Fin 4) fun _ _ => rfl
  pre c := iprop(StableHlo.held (c : Thread nD τ) (Pipeline.ucRefs τ sig) (Wen (2 : Fin 4) c) ∗ ride c)
  post c := iprop(StableHlo.held (c : Thread nD τ) (Pipeline.ucRefs τ sig) (Wp c) ∗ ride c)
  X _ := BI.emp
  Y _ := BI.emp
  Z c := iprop(Pipeline.unscopedRest (Ix := Unit) (Name := ℕ) (U := Hand.UU) (Lvl := ℕ) spec2 c (atTc (Wen (2 : Fin 4)) c) ∗ ∃ r, prngReg c r)
  hentry c := by
    have hsplit := Pipeline.arrays_of_unscopedBufs (p := (2 : Fin 4)) (pcfgs (F := F)) Gen.adm (fam Wen) launch2.win launch2.arr_whole c
      ((fam Wen (2 : Fin 4) c).share_full fun _ => rfl) (atTc (Wen (2 : Fin 4)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    isplitl [Hrest]; · iexact Hrest
    iexact Hp
  hin c := by
    refine BIBase.Entails.trans ?_ (enter2 (atTc (Wen (2 : Fin 4))) c)
    iintro ⟨-, -, Hr⟩
    iexact Hr
  hout c := by
    rw [Pipeline.ownSems0_none]
    refine BIBase.Entails.trans (leave2 (atTc (Wen (2 : Fin 4))) c) ?_
    iintro H
    isplitr; · iempintro
    isplitr; · iempintro
    iexact H
  hexit c := by
    have hF : ∀ w : Fin cfg2.W, (fam Wen (2 : Fin 4) c).arrAt w cfg2.N = atTc Wp c (Pipeline.arrRef spec2 w) := fun
      | ⟨0, _⟩ => ((fam Wen (2 : Fin 4) c).arrAt_in 0 rfl _).trans (hne c _ (by decide)).symm
      | ⟨1, _⟩ => ((fam Wen (2 : Fin 4) c).arrAt_in 1 rfl _).trans (hne c _ (by decide)).symm
      | ⟨2, _⟩ => ((fam Wen (2 : Fin 4) c).arrAt_in 2 rfl _).trans (hne c _ (by decide)).symm
      | ⟨3, _⟩ => ((fam Wen (2 : Fin 4) c).arrAt_in 3 rfl _).trans (hne c _ (by decide)).symm
      | ⟨4, _⟩ => (hout c).symm
    have hrest : ∀ b, b ∉ Finset.univ.image (Pipeline.arrRef spec2) → atTc Wp c b = atTc (Wen (2 : Fin 4)) c b :=
      fun b hb => hne c b fun e => hb (Finset.mem_image.mpr ⟨4, Finset.mem_univ _, e.symm⟩)
    have hjoin := Pipeline.unscopedBufs_of_arrays (p := (2 : Fin 4)) (pcfgs (F := F)) Gen.adm (Ix := Unit) (Name := ℕ) (U := Hand.UU) (Lvl := ℕ)
      launch2.win launch2.arr_whole c (fam Wen) ((fam Wen (2 : Fin 4) c).share_full fun _ => rfl)
      (atTc (Wen (2 : Fin 4)) c) (atTc Wp c) ((fam Wen (2 : Fin 4) c).arrAt · cfg2.N) hF hrest
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%Wt, -, HO⟩; iexists Wt; iexact HO
end Cert.KernelIdeal.Spmm2
end
-- ==== Proof.KI.R3.Body.lean ====
import proofs.«165102_j58428735095548_1_alg».proof.Proof.KI.R3.Data

set_option maxRecDepth 16384

noncomputable section

namespace Cert.KernelIdeal.Spmm3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

theorem before3_0 (c : Dev nD) (t : Fin cfg3.N) (d) : (dat3 V c).before 0 t d = blk3 V c 0 t :=
  ((dat3 V c).before_fetched 0 t (fetch3_0 t) d).trans (by unfold Dat.fetched Dat.blockOf blk3; rw [A_eq3]; try rfl)
theorem before3_1 (c : Dev nD) (t : Fin cfg3.N) (d) : (dat3 V c).before 1 t d = blk3 V c 1 t :=
  ((dat3 V c).before_fetched 1 t (fetch3_1 t) d).trans (by unfold Dat.fetched Dat.blockOf blk3; rw [A_eq3]; try rfl)
theorem before3_2 (c : Dev nD) (t : Fin cfg3.N) (d) : (dat3 V c).before 2 t d = blk3 V c 2 t :=
  ((dat3 V c).before_fetched 2 t (fetch3_2 t) d).trans (by unfold Dat.fetched Dat.blockOf blk3; rw [A_eq3]; try rfl)
theorem before3_3 (c : Dev nD) (t : Fin cfg3.N) (d) : (dat3 V c).before 3 t d = blk3 V c 3 t :=
  ((dat3 V c).before_fetched 3 t (fetch3_3 t) d).trans (by unfold Dat.fetched Dat.blockOf blk3; rw [A_eq3]; try rfl)

theorem rest3_eq (c : Dev nD) :
    (Pipeline.scopedRest (Ix := Unit) (Name := ℕ) (U := UU) (Lvl := ℕ) (Val := Elt F) spec3 c : sProp 𝕄)
      = iprop(iprop((∃ d, owns (c : Thread nD τ) acc3 fullShare d)) ∗ others3 c) := by
  rw [scopedRest3_split]; simp only [acc3, owns_whole]; rfl

def bodyPre3 (c : Dev nD) (t : Fin cfg3.N) : sProp 𝕄 :=
  iprop((dat3 V c).Φ t.castSucc ∗ (dat3 V c).owesAt () t.castSucc
    ∗ (∃ d, owns (c : Thread nD τ) (mr3_0 t) fullShare ((dat3 V c).before 0 t d))
    ∗ (∃ d, owns (c : Thread nD τ) (mr3_1 t) fullShare ((dat3 V c).before 1 t d))
    ∗ (∃ d, owns (c : Thread nD τ) (mr3_2 t) fullShare ((dat3 V c).before 2 t d))
    ∗ (∃ d, owns (c : Thread nD τ) (mr3_3 t) fullShare ((dat3 V c).before 3 t d))
    ∗ (∃ d, owns (c : Thread nD τ) (mr3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

/-- The output block after the body: the accumulator's copy at the last column block of a row, else as found. -/
theorem leaves3_4 (c : Dev nD) (t : Fin cfg3.N) (d) (xa : Vec F S1024x16 .f32)
    (hxa : ∀ k hk, t.val = k + 1 → t.val % 8 ≠ 0 → xa = accAt3 V c k hk) :
    owns (c : Thread nD τ) (mr3_4 t) fullShare
        (if last3 (grid3.coords t) then updAt3 V c t (if first3 (grid3.coords t) then k3_pay1 else xa) else (dat3 V c).before 4 t d)
      ⊢ (dat3 V c).leavesExact 4 t := by
  by_cases hl : last3 (grid3.coords t)
  · rw [if_pos hl, accAt3_step V c t xa hxa,
      show (dat3 V c).leavesExact 4 t = owns (c : Thread nD τ) (mr3_4 t) fullShare ((dat3 V c).after 4 t) from by
        unfold Dat.leavesExact; rw [live3_4 t hl], after3_4, if_pos ((last3_iff t).mp hl)]
  · rw [if_neg hl, Dat.leavesExact_idle (dat3 V c) 4 t (idle3_4 t hl) (noflush3_4 t hl)]
    iintro H; iexists d; iexact H

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    show (dat3 V c).Φ t.succ = inv3 V c (t.val + 1) from rfl, show (dat3 V c).Φ t.castSucc = inv3 V c t.val from rfl]
  rw [show (dat3 V c).leavesExact 0 t = owns (c : Thread nD τ) (mr3_0 t) fullShare ((dat3 V c).after 0 t) from by
    unfold Dat.leavesExact; rw [live3_0 t], after3_0]
  rw [show (dat3 V c).leavesExact 1 t = owns (c : Thread nD τ) (mr3_1 t) fullShare ((dat3 V c).after 1 t) from by
    unfold Dat.leavesExact; rw [live3_1 t], after3_1]
  rw [show (dat3 V c).leavesExact 2 t = owns (c : Thread nD τ) (mr3_2 t) fullShare ((dat3 V c).after 2 t) from by
    unfold Dat.leavesExact; rw [live3_2 t], after3_2]
  rw [show (dat3 V c).leavesExact 3 t = owns (c : Thread nD τ) (mr3_3 t) fullShare ((dat3 V c).after 3 t) from by
    unfold Dat.leavesExact; rw [live3_3 t], after3_3]
  unfold inv3
  iintro ⟨⟨%xa, %hxa, HS, Hr⟩, Ho, ⟨%d0, H0⟩, ⟨%d1, H1⟩, ⟨%d2, H2⟩, ⟨%d3, H3⟩, ⟨%d4, H4⟩⟩
  iapply (step3 c (grid3.coords t) _ _ _ _ _ _ _ _ _ _ _ _ (nfl3 t) (blk3 V c 0 t) (blk3 V c 1 t) (blk3 V c 2 t) (blk3 V c 3 t) xa _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hr]
  · iexists _; isplitr
    swap
    · isplitl [HS]; · iexact HS
      iexact Hr
    ipureintro
    exact fun k hk e _ => by obtain rfl := Nat.succ.inj e; exact accAt3_step V c t xa hxa
  isplitl [Ho]; · iexact Ho
  isplitl [H0]; · iexact H0
  isplitl [H1]; · iexact H1
  isplitl [H2]; · iexact H2
  isplitl [H3]; · iexact H3
  iapply (leaves3_4 V c t d4 xa hxa); iexact H4

theorem body_obligation3 (c : Dev nD) : BodyObligation (dat3 (F := F) V c) (defs₀ (F := F)) Variants.none () Set.univ := fun t => by
  rw [bigSep_W3, bigSep_W3]
  exact sound_body3 V c t

theorem enter3 (c : Dev nD) :
    (Pipeline.scopedRest (Ix := Unit) (Name := ℕ) (U := UU) (Lvl := ℕ) (Val := Elt F) spec3 c : sProp 𝕄) ⊢ (dat3 V c).Φ 0 := by
  rw [show (dat3 V c).Φ 0 = inv3 V c 0 from rfl, rest3_eq]
  unfold inv3
  iintro ⟨⟨%d, HS⟩, Hr⟩
  iexists d; isplitr; · ipureintro; exact fun k _ e _ => absurd e.symm (Nat.succ_ne_zero k)
  isplitl [HS]; · iexact HS
  iexact Hr

theorem leave3 (c : Dev nD) :
    (dat3 V c).Φ (Fin.last cfg3.N) ⊢ (Pipeline.scopedRest (Ix := Unit) (Name := ℕ) (U := UU) (Lvl := ℕ) (Val := Elt F) spec3 c : sProp 𝕄) := by
  rw [show (dat3 V c).Φ (Fin.last cfg3.N) = inv3 V c (Fin.last cfg3.N).val from rfl, rest3_eq]
  unfold inv3
  iintro ⟨%xa, -, HS, Hr⟩
  isplitl [HS]; · iexists _; iexact HS
  iexact Hr

end Cert.KernelIdeal.Spmm3

end
-- ==== Proof.KI.R3.Region.lean ====
import proofs.«165102_j58428735095548_1_alg».proof.Proof.KI.Family
import proofs.«165102_j58428735095548_1_alg».proof.Proof.KI.R3.Body
import Idealize.ShloMosaic.Lib.Pipeline.RegionsLoop
set_option maxRecDepth 16384
noncomputable section
namespace Cert.KernelIdeal.Spmm3
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (Wen : Fin 4 → Dev nD → Valuation τ sig (Elt F))
set_option backward.isDefEq.respectTransparency.types false in
def reg3 (Wp : Dev nD → Valuation τ sig (Elt F))
    (hout : ∀ c, Wp c main_v55 = (dat3 (atTc (Wen (3 : Fin 4))) c).arrAt 4 cfg3.N)
    (hne : ∀ c (b : Ref sig .tc), b ≠ main_v55 → Wp c b = Wen (3 : Fin 4) c b) :
    Pipeline.RegionSeg (pcfgs (F := F)) Gen.adm (fam Wen) () defs₀ Variants.none L lv (3 : Fin 4) where
  win := launch3.win.to₀
  block_pos := launch3.block_pos
  stage_whole := launch3.stage_whole
  K := PEmpty
  osem k := k.elim
  ho := Pipeline.OwnSemFacts.none _
  hbody c := (body_obligation3 (atTc (Wen (3 : Fin 4))) c).loose
  hwaits := Pipeline.hwaits_of_owed_zero _ _ _ _ L lv (3 : Fin 4) fun _ _ => rfl
  pre c := iprop(StableHlo.held (c : Thread nD τ) (Pipeline.ucRefs τ sig) (Wen (3 : Fin 4) c) ∗ ride c)
  post c := iprop(StableHlo.held (c : Thread nD τ) (Pipeline.ucRefs τ sig) (Wp c) ∗ ride c)
  X _ := BI.emp
  Y _ := BI.emp
  Z c := iprop(Pipeline.unscopedRest (Ix := Unit) (Name := ℕ) (U := Hand.UU) (Lvl := ℕ) spec3 c (atTc (Wen (3 : Fin 4)) c) ∗ ∃ r, prngReg c r)
  hentry c := by
    have hsplit := Pipeline.arrays_of_unscopedBufs (p := (3 : Fin 4)) (pcfgs (F := F)) Gen.adm (fam Wen) launch3.win launch3.arr_whole c
      ((fam Wen (3 : Fin 4) c).share_full fun _ => rfl) (atTc (Wen (3 : Fin 4)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    isplitl [Hrest]; · iexact Hrest
    iexact Hp
  hin c := by
    refine BIBase.Entails.trans ?_ (enter3 (atTc (Wen (3 : Fin 4))) c)
    iintro ⟨-, -, Hr⟩
    iexact Hr
  hout c := by
    rw [Pipeline.ownSems0_none]
    refine BIBase.Entails.trans (leave3 (atTc (Wen (3 : Fin 4))) c) ?_
    iintro H
    isplitr; · iempintro
    isplitr; · iempintro
    iexact H
  hexit c := by
    have hF : ∀ w : Fin cfg3.W, (fam Wen (3 : Fin 4) c).arrAt w cfg3.N = atTc Wp c (Pipeline.arrRef spec3 w) := fun
      | ⟨0, _⟩ => ((fam Wen (3 : Fin 4) c).arrAt_in 0 rfl _).trans (hne c _ (by decide)).symm
      | ⟨1, _⟩ => ((fam Wen (3 : Fin 4) c).arrAt_in 1 rfl _).trans (hne c _ (by decide)).symm
      | ⟨2, _⟩ => ((fam Wen (3 : Fin 4) c).arrAt_in 2 rfl _).trans (hne c _ (by decide)).symm
      | ⟨3, _⟩ => ((fam Wen (3 : Fin 4) c).arrAt_in 3 rfl _).trans (hne c _ (by decide)).symm
      | ⟨4, _⟩ => (hout c).symm
    have hrest : ∀ b, b ∉ Finset.univ.image (Pipeline.arrRef spec3) → atTc Wp c b = atTc (Wen (3 : Fin 4)) c b :=
      fun b hb => hne c b fun e => hb (Finset.mem_image.mpr ⟨4, Finset.mem_univ _, e.symm⟩)
    have hjoin := Pipeline.unscopedBufs_of_arrays (p := (3 : Fin 4)) (pcfgs (F := F)) Gen.adm (Ix := Unit) (Name := ℕ) (U := Hand.UU) (Lvl := ℕ)
      launch3.win launch3.arr_whole c (fam Wen) ((fam Wen (3 : Fin 4) c).share_full fun _ => rfl)
      (atTc (Wen (3 : Fin 4)) c) (atTc Wp c) ((fam Wen (3 : Fin 4) c).arrAt · cfg3.N) hF hrest
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%Wt, -, HO⟩; iexists Wt; iexact HO
end Cert.KernelIdeal.Spmm3
end
-- ==== Proof.KI.Frame.lean ====
import proofs.«165102_j58428735095548_1_alg».proof.Proof.KI.Chain
import proofs.«165102_j58428735095548_1_alg».proof.Proof.KI.R0.Region
import proofs.«165102_j58428735095548_1_alg».proof.Proof.KI.R1.Region
import proofs.«165102_j58428735095548_1_alg».proof.Proof.KI.R2.Region
import proofs.«165102_j58428735095548_1_alg».proof.Proof.KI.R3.Region
set_option maxRecDepth 16384
noncomputable section
namespace Cert.KernelIdeal.Hand
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ Hand.UU ℕ
variable (m : (ℓ : Loc nD τ sig) → Buf (Elt F) ℓ)
theorem outs_two (c : Dev nD) : outs m 2 main_v7 c = res0 m c := by
  show W2 m c main_v7 = res0 m c
  unfold W2; exact Function.update_self ..
theorem outs_four (c : Dev nD) : outs m 4 main_v35 c = res1 m c := by
  show W4 m c main_v35 = res1 m c
  unfold W4; exact Function.update_self ..
theorem outs_eight (c : Dev nD) : outs m 8 main_v45 c = res2 m c := by
  show W8 m c main_v45 = res2 m c
  unfold W8; exact Function.update_self ..
theorem outs_twelve (c : Dev nD) : outs m 12 main_v55 c = res3 m c := by
  show W12 m c main_v55 = res3 m c
  unfold W12; exact Function.update_self ..
theorem V1_eq (c : Dev nD) : Gen.V1 m c = W1 m c := rfl
theorem V2_eq (c : Dev nD) : Gen.V2 m (outs m) c = W2 m c := by
  show Function.update (Gen.V1 m c) main_v7 (outs m 2 main_v7 c) = W2 m c
  rw [outs_two, V1_eq]; rfl
theorem V3_eq (c : Dev nD) : Gen.V3 m (outs m) c = W3 m c := by
  show StableHlo.after hostOps1 (Gen.V2 m (outs m) c) = W3 m c
  rw [V2_eq]
theorem V4_eq (c : Dev nD) : Gen.V4 m (outs m) c = W4 m c := by
  show Function.update (Gen.V3 m (outs m) c) main_v35 (outs m 4 main_v35 c) = W4 m c
  rw [outs_four, V3_eq]; rfl
theorem V5_eq (c : Dev nD) : Gen.V5 m (outs m) c = W5 m c := by
  show StableHlo.after hostOps2 (Gen.V4 m (outs m) c) = W5 m c
  rw [V4_eq]
theorem V6_eq (c : Dev nD) : Gen.V6 m (outs m) c = W6 m c := by
  show StableHlo.after hostOps2_1 (Gen.V5 m (outs m) c) = W6 m c
  rw [V5_eq]
theorem V7_eq (c : Dev nD) : Gen.V7 m (outs m) c = W7 m c := by
  show StableHlo.after hostOps2_2 (Gen.V6 m (outs m) c) = W7 m c
  rw [V6_eq]
theorem V8_eq (c : Dev nD) : Gen.V8 m (outs m) c = W8 m c := by
  show Function.update (Gen.V7 m (outs m) c) main_v45 (outs m 8 main_v45 c) = W8 m c
  rw [outs_eight, V7_eq]; rfl
theorem V9_eq (c : Dev nD) : Gen.V9 m (outs m) c = W9 m c := by
  show StableHlo.after hostOps3 (Gen.V8 m (outs m) c) = W9 m c
  rw [V8_eq]
theorem V10_eq (c : Dev nD) : Gen.V10 m (outs m) c = W10 m c := by
  show StableHlo.after hostOps3_1 (Gen.V9 m (outs m) c) = W10 m c
  rw [V9_eq]
theorem V11_eq (c : Dev nD) : Gen.V11 m (outs m) c = W11 m c := by
  show StableHlo.after hostOps3_2 (Gen.V10 m (outs m) c) = W11 m c
  rw [V10_eq]
theorem V12_eq (c : Dev nD) : Gen.V12 m (outs m) c = W12 m c := by
  show Function.update (Gen.V11 m (outs m) c) main_v55 (outs m 12 main_v55 c) = W12 m c
  rw [outs_twelve, V11_eq]; rfl
theorem V13_eq (c : Dev nD) : Gen.V13 m (outs m) c = W13 m c := by
  show StableHlo.after hostOps4 (Gen.V12 m (outs m) c) = W13 m c
  rw [V12_eq]
def r0 : Pipeline.RegionSeg (pcfgs (F := F)) Gen.adm (pdats m) () defs₀ Variants.none L lv (0 : Fin 4) :=
  Spmm0.reg0 (entry m) (W2 m)
    (fun c => by unfold W2; exact Function.update_self ..)
    (fun c b hb => by unfold W2; exact Function.update_of_ne (StableHlo.devRef_ne_of_ne hb) _ _)
def r1 : Pipeline.RegionSeg (pcfgs (F := F)) Gen.adm (pdats m) () defs₀ Variants.none L lv (1 : Fin 4) :=
  Spmm1.reg1 (entry m) (W4 m)
    (fun c => by unfold W4; exact Function.update_self ..)
    (fun c b hb => by unfold W4; exact Function.update_of_ne (StableHlo.devRef_ne_of_ne hb) _ _)
def r2 : Pipeline.RegionSeg (pcfgs (F := F)) Gen.adm (pdats m) () defs₀ Variants.none L lv (2 : Fin 4) :=
  Spmm2.reg2 (entry m) (W8 m)
    (fun c => by unfold W8; exact Function.update_self ..)
    (fun c b hb => by unfold W8; exact Function.update_of_ne (StableHlo.devRef_ne_of_ne hb) _ _)
def r3 : Pipeline.RegionSeg (pcfgs (F := F)) Gen.adm (pdats m) () defs₀ Variants.none L lv (3 : Fin 4) :=
  Spmm3.reg3 (entry m) (W12 m)
    (fun c => by unfold W12; exact Function.update_self ..)
    (fun c b hb => by unfold W12; exact Function.update_of_ne (StableHlo.devRef_ne_of_ne hb) _ _)
theorem pre0 (c : Dev nD) :
    (iprop(StableHlo.held (c : Thread nD τ) (Pipeline.ucRefs τ sig) (Gen.V1 m c) ∗ ride c) : sProp 𝕄) ⊢ (r0 m).pre c := by
  rw [V1_eq]; exact .rfl
theorem post0 (c : Dev nD) :
    (r0 m).post c ⊢ (iprop(StableHlo.held (c : Thread nD τ) (Pipeline.ucRefs τ sig) (Gen.V2 m (outs m) c) ∗ ride c) : sProp 𝕄) := by
  rw [V2_eq]; exact .rfl
theorem pre1 (c : Dev nD) :
    (iprop(StableHlo.held (c : Thread nD τ) (Pipeline.ucRefs τ sig) (Gen.V3 m (outs m) c) ∗ ride c) : sProp 𝕄) ⊢ (r1 m).pre c := by
  rw [V3_eq]; exact .rfl
theorem post1 (c : Dev nD) :
    (r1 m).post c ⊢ (iprop(StableHlo.held (c : Thread nD τ) (Pipeline.ucRefs τ sig) (Gen.V4 m (outs m) c) ∗ ride c) : sProp 𝕄) := by
  rw [V4_eq]; exact .rfl
theorem pre2 (c : Dev nD) :
    (iprop(StableHlo.held (c : Thread nD τ) (Pipeline.ucRefs τ sig) (Gen.V7 m (outs m) c) ∗ ride c) : sProp 𝕄) ⊢ (r2 m).pre c := by
  rw [V7_eq]; exact .rfl
theorem post2 (c : Dev nD) :
    (r2 m).post c ⊢ (iprop(StableHlo.held (c : Thread nD τ) (Pipeline.ucRefs τ sig) (Gen.V8 m (outs m) c) ∗ ride c) : sProp 𝕄) := by
  rw [V8_eq]; exact .rfl
theorem pre3 (c : Dev nD) :
    (iprop(StableHlo.held (c : Thread nD τ) (Pipeline.ucRefs τ sig) (Gen.V11 m (outs m) c) ∗ ride c) : sProp 𝕄) ⊢ (r3 m).pre c := by
  rw [V11_eq]; exact .rfl
theorem post3 (c : Dev nD) :
    (r3 m).post c ⊢ (iprop(StableHlo.held (c : Thread nD τ) (Pipeline.ucRefs τ sig) (Gen.V12 m (outs m) c) ∗ ride c) : sProp 𝕄) := by
  rw [V12_eq]; exact .rfl
theorem launch_user :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro
theorem ride_owes (c : Dev nD) :
    (ride c : sProp 𝕄) ⊢ iprop(∃ W, owes (c : Thread nD τ) (0 : CellTallies nD τ sig Unit) W) := by
  iintro ⟨-, HO⟩
  iexact HO
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m (Ix := Unit) (U := Hand.UU) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := launch_user)
    (E := fun _ c => ride c)
    (hE0 := by
      refine Pipeline.initEach L lv fun c => ?_
      iintro ⟨⟨-, HO, -, Hp, -⟩, -⟩
      imodintro
      isplitl [Hp]
      · iexists _; iexact Hp
      iexists ∅; iexact HO)
    (hE4 := ride_owes)
    (r0 m) (hpre0 := pre0 m) (hpost0 := post0 m)
    (r1 m) (hpre1 := pre1 m) (hpost1 := post1 m)
    (r2 m) (hpre2 := pre2 m) (hpost2 := post2 m)
    (r3 m) (hpre3 := pre3 m) (hpost3 := post3 m)
end Cert.KernelIdeal.Hand
end
-- ==== Proof.KI.RunValue.lean ====
import proofs.«165102_j58428735095548_1_alg».proof.Proof.KI.Frame
set_option maxRecDepth 16384
noncomputable section
namespace Cert.KernelIdeal.Hand
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
variable {F : FTy → Type} [FloatOps F]
local notation "𝕄" => MT nD τ sig Unit (Elt F) ℕ Hand.UU ℕ
variable (m : (ℓ : Loc nD τ sig) → Buf (Elt F) ℓ)
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩
abbrev items (c : Dev nD) : List (Seg (pcfgs (F := F)) Gen.adm (pdats m) () defs₀ Variants.none L lv) :=
  Gen.segs m (outs m) Variants.none L lv (fun _ c => ride c) () (pdats m) (r0 m) (r1 m) (r2 m) (r3 m) c
theorem last_step (c : Dev nD) :
    (iprop(StableHlo.held (c : Thread nD τ) (Pipeline.ucRefs τ sig) (Gen.V13 m (outs m) c) ∗ ride c) : sProp 𝕄)
      ⊢ iprop(StableHlo.held (c : Thread nD τ) (Pipeline.ucRefs τ sig) (W13 m c)
          ∗ ∃ W, owes (c : Thread nD τ) (0 : CellTallies nD τ sig Unit) W) := by
  rw [V13_eq]; exact sep_mono .rfl (ride_owes c)
set_option backward.isDefEq.respectTransparency.types false in
theorem run_value (ρ : Dev nD → PrngReg) :
    θ_run defs (onTc (τ := τ) (main (F := F))) ⟨m, fun _ => 0, ρ⟩ (fun r => ∀ c : Dev nD,
      r.2.mem ((c.tc : Thread nD τ).loc main_v69) = W13 m c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) Gen.adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4 ] from rfl]
      exact .rfl)
    (fun c => by simp only [items, Gen.segs, Seg.pipes_host, Seg.pipes_region, Seg.pipes_nil]; decide)
    (0 : Dev nD → CellTallies nD τ sig Unit) (fun _ _ => rfl) (fun _ => iprop(emp))
    (initOf (Pipeline.cells cfgs cellOf_inj) (Pipeline.launchToks cfgs cellOf_inj)) launch_user
    (T₀ := fun c => iprop(StableHlo.held (c : Thread nD τ) (Pipeline.ucRefs τ sig) (Gen.V0 m c) ∗ ride c))
    (Tₙ := fun c => StableHlo.held (c : Thread nD τ) (Pipeline.ucRefs τ sig) (W13 m c))
    (hch := fun c => ⟨.rfl, pre0 m c, post0 m c, pre1 m c, post1 m c, .rfl, .rfl, pre2 m c, post2 m c, .rfl, .rfl,
      pre3 m c, post3 m c, last_step m c⟩)
    (hinit := ?_)
    (QY := fun c s => ∀ b ∈ Pipeline.ucRefs τ sig, s.mem ((c : Thread nD τ).1, b) = W13 m c b)
    (hfin := fun c s' => ?_)
    (hQ := fun s h c => ?_)
  ·
    refine Pipeline.initEach L lv fun c => ?_
    rw [show unscopedBufs c (fun b => m ((c : Thread nD τ).loc b))
          = (StableHlo.held (c : Thread nD τ) (Pipeline.ucRefs τ sig) (Gen.V0 m c) : sProp 𝕄)
        from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    imodintro
    iapply (pointsTo_read_all (Pipeline.ucRefs τ sig) (fun b => ((c : Thread nD τ).1, b)) (W13 m c) s')
    isplitl [Hh] <;> iassumption
  ·
    have harg : ∀ b : Ref sig .tc, Gen.V13 m (outs m) c b = W13 m c b := fun b => congrFun (V13_eq m c) _
    exact ⟨h c _ (unscoped_mem main_v69 (by decide)),
        (h c _ (unscoped_mem main_arg0 (by decide))).trans ((harg main_arg0).symm.trans (Gen.V13_main_arg0 m (outs m) c)),
        (h c _ (unscoped_mem main_arg1 (by decide))).trans ((harg main_arg1).symm.trans (Gen.V13_main_arg1 m (outs m) c)),
        (h c _ (unscoped_mem main_arg2 (by decide))).trans ((harg main_arg2).symm.trans (Gen.V13_main_arg2 m (outs m) c)),
        (h c _ (unscoped_mem main_arg3 (by decide))).trans ((harg main_arg3).symm.trans (Gen.V13_main_arg3 m (outs m) c)),
        (h c _ (unscoped_mem main_arg4 (by decide))).trans ((harg main_arg4).symm.trans (Gen.V13_main_arg4 m (outs m) c)),
        (h c _ (unscoped_mem main_arg5 (by decide))).trans ((harg main_arg5).symm.trans (Gen.V13_main_arg5 m (outs m) c)),
        (h c _ (unscoped_mem main_arg6 (by decide))).trans ((harg main_arg6).symm.trans (Gen.V13_main_arg6 m (outs m) c)),
        (h c _ (unscoped_mem main_arg7 (by decide))).trans ((harg main_arg7).symm.trans (Gen.V13_main_arg7 m (outs m) c)),
        (h c _ (unscoped_mem main_arg8 (by decide))).trans ((harg main_arg8).symm.trans (Gen.V13_main_arg8 m (outs m) c)),
        (h c _ (unscoped_mem main_arg9 (by decide))).trans ((harg main_arg9).symm.trans (Gen.V13_main_arg9 m (outs m) c)),
        (h c _ (unscoped_mem main_arg10 (by decide))).trans ((harg main_arg10).symm.trans (Gen.V13_main_arg10 m (outs m) c))⟩
end Cert.KernelIdeal.Hand
end
-- ==== Proof.KI.HostFns.lean ====
import proofs.«165102_j58428735095548_1_alg».proof.KernelIdeal
noncomputable section
namespace Cert.KernelIdeal.Hand
open Cert.KernelIdeal
open Idealize.ShloMosaic
variable {F : FTy → Type} [FloatOps F]
variable [Facts₀]
open Facts₀
def kpad0 (w : Vec F S1x8192 .f32) : Vec F S8192x8 .f32 :=
  Host.scatter scatter_S8192x8_S1_S8192_0_1_1_0 (fun _ b => b)
    (broadcastInDim S8192x8 ![] bcast_S_S8192x8 (constant S_ .f32 0x00000000#32 : Vec F S_ .f32))
    (broadcastInDim S1 ![] bcast_S_S1 (constantI S_ 32 0#32))
    (fun i => shapeCast S8192 w shapeCasts_S1x8192_S8192 i)
def kpad1 (w : Vec F S1x8192 .f32) : Vec F S8192x8 .f32 :=
  Host.scatter scatter_S8192x8_S1_S8192_0_1_1_0 (fun _ b => b)
    (broadcastInDim S8192x8 ![] bcast_S_S8192x8 (constant S_ .f32 0x00000000#32 : Vec F S_ .f32))
    (broadcastInDim S1 ![] bcast_S_S1 (constantI S_ 32 1#32))
    (fun i => shapeCast S8192 w shapeCasts_S1x8192_S8192 i)
def kz (raw : Vec F S8192x8 .f32) (b : Vec F S1 .f32) : Vec F S8192x2 .f32 :=
  concatenate S8192x2 1
    [⟨S8192x1, (addf (extractStridedSlice S8192x1 ![0, 0] raw slices_S8192x8_S8192x1_0_0)
        (broadcastInDim S8192x1 ![0, 1] bcast_S1x1_S8192x1_0_1 (broadcastInDim S1x1 ![1] bcast_S1_S1x1_1 b)) : Vec F S8192x1 .f32)⟩,
     ⟨S8192x1, (addf (extractStridedSlice S8192x1 ![0, 1] raw slices_S8192x8_S8192x1_0_1)
        (broadcastInDim S8192x1 ![0, 1] bcast_S1x1_S8192x1_0_1 (broadcastInDim S1x1 ![1] bcast_S1_S1x1_1 b)) : Vec F S8192x1 .f32)⟩]
    concatenates_S8192x1_S8192x1_S8192x2_d1
def ksm2_max (z : Vec F S8192x2 .f32) : Vec F S8192 .f32 :=
  maximumf (broadcastInDim S8192 ![] bcast_S_S8192 (constant S_ .f32 0xFF800000#32 : Vec F S_ .f32))
    (Host.reduce FloatOps.maximumf z (constant S_ .f32 0xFF800000#32 : Vec F S_ .f32) reducesTo_S8192x2_S8192_d1 h_S_)
def ksm2_exp (z : Vec F S8192x2 .f32) : Vec F S8192x2 .f32 :=
  Host.exp (subf z (broadcastInDim S8192x2 ![0, 1] bcast_S8192x1_S8192x2_0_1
    (broadcastInDim S8192x1 ![0] bcast_S8192_S8192x1_0 (ksm2_max z))))
def ksm2 (z : Vec F S8192x2 .f32) : Vec F S8192x2 .f32 :=
  Host.divf (ksm2_exp z) (broadcastInDim S8192x2 ![0, 1] bcast_S8192x1_S8192x2_0_1
    (broadcastInDim S8192x1 ![0] bcast_S8192_S8192x1_0
      (Host.reduceAdd (ksm2_exp z) (constant S_ .f32 0x00000000#32 : Vec F S_ .f32) reducesTo_S8192x2_S8192_d1 h_S_)))
def ky1 (x : Vec F S8192x512 .f32) (w : Vec F S512x128 .f32) : Vec F S8192x128 .f32 :=
  Host.dotGeneral dot_S8192x512_S512x128_S8192x128_1_0_0_1_n_n none x w
def ky2 (h : Vec F S8192x128 .f32) (w : Vec F S128x128 .f32) : Vec F S8192x128 .f32 :=
  Host.dotGeneral dot_S8192x128_S128x128_S8192x128_1_0_0_1_n_n none h w
def ky3 (h : Vec F S8192x128 .f32) (w : Vec F S128x16 .f32) : Vec F S8192x16 .f32 :=
  Host.dotGeneral dot_S8192x128_S128x16_S8192x16_1_0_0_1_n_n none h w
def ksc0_128 (nz : Vec F S8192x2 .f32) (y : Vec F S8192x128 .f32) : Vec F S8192x128 .f32 :=
  mulf (broadcastInDim S8192x128 ![0, 1] bcast_S8192x1_S8192x128_0_1
    (extractStridedSlice S8192x1 ![0, 0] nz slices_S8192x2_S8192x1_0_0)) y
def ksc1_128 (nz : Vec F S8192x2 .f32) (y : Vec F S8192x128 .f32) : Vec F S8192x128 .f32 :=
  mulf (broadcastInDim S8192x128 ![0, 1] bcast_S8192x1_S8192x128_0_1
    (extractStridedSlice S8192x1 ![0, 1] nz slices_S8192x2_S8192x1_0_1)) y
def ksc0_16 (nz : Vec F S8192x2 .f32) (y : Vec F S8192x16 .f32) : Vec F S8192x16 .f32 :=
  mulf (broadcastInDim S8192x16 ![0, 1] bcast_S8192x1_S8192x16_0_1
    (extractStridedSlice S8192x1 ![0, 0] nz slices_S8192x2_S8192x1_0_0)) y
def ksc1_16 (nz : Vec F S8192x2 .f32) (y : Vec F S8192x16 .f32) : Vec F S8192x16 .f32 :=
  mulf (broadcastInDim S8192x16 ![0, 1] bcast_S8192x1_S8192x16_0_1
    (extractStridedSlice S8192x1 ![0, 1] nz slices_S8192x2_S8192x1_0_1)) y
def kact (o : Vec F S8192x128 .f32) (b : Vec F S128 .f32) : Vec F S8192x128 .f32 :=
  maximumf
    (addf o (broadcastInDim S8192x128 ![0, 1] bcast_S1x128_S8192x128_0_1 (broadcastInDim S1x128 ![1] bcast_S128_S1x128_1 b)))
    (broadcastInDim S8192x128 ![] bcast_S_S8192x128 (constant S_ .f32 0x00000000#32 : Vec F S_ .f32))
def kfin_pre (o : Vec F S8192x16 .f32) (b : Vec F S16 .f32) : Vec F S8192x16 .f32 :=
  addf o (broadcastInDim S8192x16 ![0, 1] bcast_S1x16_S8192x16_0_1 (broadcastInDim S1x16 ![1] bcast_S16_S1x16_1 b))
def kfin_max (z : Vec F S8192x16 .f32) : Vec F S8192 .f32 :=
  maximumf (broadcastInDim S8192 ![] bcast_S_S8192 (constant S_ .f32 0xFF800000#32 : Vec F S_ .f32))
    (Host.reduce FloatOps.maximumf z (constant S_ .f32 0xFF800000#32 : Vec F S_ .f32) reducesTo_S8192x16_S8192_d1 h_S_)
def kfin_exp (z : Vec F S8192x16 .f32) : Vec F S8192x16 .f32 :=
  Host.exp (subf z (broadcastInDim S8192x16 ![0, 1] bcast_S8192x1_S8192x16_0_1
    (broadcastInDim S8192x1 ![0] bcast_S8192_S8192x1_0 (kfin_max z))))
def kfin_sm (z : Vec F S8192x16 .f32) : Vec F S8192x16 .f32 :=
  Host.divf (kfin_exp z) (broadcastInDim S8192x16 ![0, 1] bcast_S8192x1_S8192x16_0_1
    (broadcastInDim S8192x1 ![0] bcast_S8192_S8192x1_0
      (Host.reduceAdd (kfin_exp z) (constant S_ .f32 0x00000000#32 : Vec F S_ .f32) reducesTo_S8192x16_S8192_d1 h_S_)))
def kfin (o : Vec F S8192x16 .f32) (b : Vec F S16 .f32) : Vec F S8192x16 .f32 :=
  kfin_sm (kfin_pre o b)
end Cert.KernelIdeal.Hand
end
-- ==== Proof.KI.HostValues.lean ====
import proofs.«165102_j58428735095548_1_alg».proof.Proof.KI.HostFns
import proofs.«165102_j58428735095548_1_alg».proof.Proof.KI.Chain
set_option maxRecDepth 16384
noncomputable section
namespace Cert.KernelIdeal.Hand
open Cert.KernelIdeal Cert.KernelIdeal.Gen Cert.KernelIdeal.Hand
open Idealize.ShloMosaic Idealize.ShloMosaic.TcCoe Idealize.ShloMosaic.Tactic
variable {F : FTy → Type} [FloatOps F]
theorem after0_v3 (X : Valuation τ sig (Elt F)) :
    StableHlo.after hostOps0 X (Proc.devRef .tc main_v3) = kpad0 (X main_arg3) := by
  after_results_simp
  rfl
theorem after0_v6 (X : Valuation τ sig (Elt F)) :
    StableHlo.after hostOps0 X (Proc.devRef .tc main_v6) = kpad1 (X main_arg3) := by
  after_results_simp
  rfl
theorem after1_v27 (X : Valuation τ sig (Elt F)) :
    StableHlo.after hostOps1 X (Proc.devRef .tc main_v27) = ksm2 (kz (X main_v7) (X main_arg4)) := by
  after_results_simp
  rfl
theorem after1_v28 (X : Valuation τ sig (Elt F)) :
    StableHlo.after hostOps1 X (Proc.devRef .tc main_v28)
      = extractStridedSlice S8192x1 ![0, 0] (ksm2 (kz (X main_v7) (X main_arg4))) slices_S8192x2_S8192x1_0_0 := by
  after_results_simp
  rfl
theorem after1_v29 (X : Valuation τ sig (Elt F)) :
    StableHlo.after hostOps1 X (Proc.devRef .tc main_v29)
      = extractStridedSlice S8192x1 ![0, 1] (ksm2 (kz (X main_v7) (X main_arg4))) slices_S8192x2_S8192x1_0_1 := by
  after_results_simp
  rfl
theorem after1_v32 (X : Valuation τ sig (Elt F)) :
    StableHlo.after hostOps1 X (Proc.devRef .tc main_v32)
      = ksc0_128 (ksm2 (kz (X main_v7) (X main_arg4))) (ky1 (X main_arg2) (X main_arg5)) := by
  after_results_simp
  rfl
theorem after1_v34 (X : Valuation τ sig (Elt F)) :
    StableHlo.after hostOps1 X (Proc.devRef .tc main_v34)
      = ksc1_128 (ksm2 (kz (X main_v7) (X main_arg4))) (ky1 (X main_arg2) (X main_arg5)) := by
  after_results_simp
  rfl
theorem after2_v38 (X : Valuation τ sig (Elt F)) :
    StableHlo.after hostOps2 X (Proc.devRef .tc main_v38)
      = addf (X main_v35 : Vec F S8192x128 .f32)
          (broadcastInDim S8192x128 ![0, 1] bcast_S1x128_S8192x128_0_1
            (broadcastInDim S1x128 ![1] bcast_S128_S1x128_1 (X main_arg6 : Vec F S128 .f32))) := by
  after_results_simp
theorem after21_v39 (X : Valuation τ sig (Elt F)) (o : Vec F S8192x128 .f32) (b : Vec F S128 .f32)
    (h : X main_v38 = addf o (broadcastInDim S8192x128 ![0, 1] bcast_S1x128_S8192x128_0_1
      (broadcastInDim S1x128 ![1] bcast_S128_S1x128_1 b))) :
    StableHlo.after hostOps2_1 X (Proc.devRef .tc main_v39) = kact o b := by
  after_results_simp
  rw [h]
  rfl
theorem after22_v42 (X : Valuation τ sig (Elt F)) (nz : Vec F S8192x2 .f32)
    (h : X main_v28 = extractStridedSlice S8192x1 ![0, 0] nz slices_S8192x2_S8192x1_0_0) :
    StableHlo.after hostOps2_2 X (Proc.devRef .tc main_v42) = ksc0_128 nz (ky2 (X main_v39) (X main_arg7)) := by
  after_results_simp
  rw [h]
  rfl
theorem after22_v44 (X : Valuation τ sig (Elt F)) (nz : Vec F S8192x2 .f32)
    (h : X main_v29 = extractStridedSlice S8192x1 ![0, 1] nz slices_S8192x2_S8192x1_0_1) :
    StableHlo.after hostOps2_2 X (Proc.devRef .tc main_v44) = ksc1_128 nz (ky2 (X main_v39) (X main_arg7)) := by
  after_results_simp
  rw [h]
  rfl
theorem after3_v48 (X : Valuation τ sig (Elt F)) :
    StableHlo.after hostOps3 X (Proc.devRef .tc main_v48)
      = addf (X main_v45 : Vec F S8192x128 .f32)
          (broadcastInDim S8192x128 ![0, 1] bcast_S1x128_S8192x128_0_1
            (broadcastInDim S1x128 ![1] bcast_S128_S1x128_1 (X main_arg8 : Vec F S128 .f32))) := by
  after_results_simp
theorem after31_v49 (X : Valuation τ sig (Elt F)) (o : Vec F S8192x128 .f32) (b : Vec F S128 .f32)
    (h : X main_v48 = addf o (broadcastInDim S8192x128 ![0, 1] bcast_S1x128_S8192x128_0_1
      (broadcastInDim S1x128 ![1] bcast_S128_S1x128_1 b))) :
    StableHlo.after hostOps3_1 X (Proc.devRef .tc main_v49) = kact o b := by
  after_results_simp
  rw [h]
  rfl
theorem after32_v52 (X : Valuation τ sig (Elt F)) (nz : Vec F S8192x2 .f32)
    (h : X main_v28 = extractStridedSlice S8192x1 ![0, 0] nz slices_S8192x2_S8192x1_0_0) :
    StableHlo.after hostOps3_2 X (Proc.devRef .tc main_v52) = ksc0_16 nz (ky3 (X main_v49) (X main_arg9)) := by
  after_results_simp
  rw [h]
  rfl
theorem after32_v54 (X : Valuation τ sig (Elt F)) (nz : Vec F S8192x2 .f32)
    (h : X main_v29 = extractStridedSlice S8192x1 ![0, 1] nz slices_S8192x2_S8192x1_0_1) :
    StableHlo.after hostOps3_2 X (Proc.devRef .tc main_v54) = ksc1_16 nz (ky3 (X main_v49) (X main_arg9)) := by
  after_results_simp
  rw [h]
  rfl
theorem after4_v69 (X : Valuation τ sig (Elt F)) :
    StableHlo.after hostOps4 X (Proc.devRef .tc main_v69) = kfin (X main_v55) (X main_arg10) := by
  after_results_simp
  rfl
variable (m : (ℓ : Loc nD τ sig) → Buf (Elt F) ℓ) (c : Dev nD)
local notation "𝔞[" r "]" => m (Thread.loc (Dev.tc c) r)
theorem W1_step {r : Ref sig .tc} (h : r ∉ hostOps0_W) : W1 m c r = W0 m c r :=
  StableHlo.after_of_writes_sub hostOps0 _ hostOps0_writes h
theorem W2_step {r : Ref sig .tc} (h : r ≠ main_v7) : W2 m c r = W1 m c r := by
  unfold W2; exact Function.update_of_ne (StableHlo.devRef_ne_of_ne h) _ _
theorem W3_step {r : Ref sig .tc} (h : r ∉ hostOps1_W) : W3 m c r = W2 m c r :=
  StableHlo.after_of_writes_sub hostOps1 _ hostOps1_writes h
theorem W4_step {r : Ref sig .tc} (h : r ≠ main_v35) : W4 m c r = W3 m c r := by
  unfold W4; exact Function.update_of_ne (StableHlo.devRef_ne_of_ne h) _ _
theorem W5_step {r : Ref sig .tc} (h : r ∉ hostOps2_W) : W5 m c r = W4 m c r :=
  StableHlo.after_of_writes_sub hostOps2 _ hostOps2_writes h
theorem W6_step {r : Ref sig .tc} (h : r ∉ hostOps2_1_W) : W6 m c r = W5 m c r :=
  StableHlo.after_of_writes_sub hostOps2_1 _ hostOps2_1_writes h
theorem W7_step {r : Ref sig .tc} (h : r ∉ hostOps2_2_W) : W7 m c r = W6 m c r :=
  StableHlo.after_of_writes_sub hostOps2_2 _ hostOps2_2_writes h
theorem W8_step {r : Ref sig .tc} (h : r ≠ main_v45) : W8 m c r = W7 m c r := by
  unfold W8; exact Function.update_of_ne (StableHlo.devRef_ne_of_ne h) _ _
theorem W9_step {r : Ref sig .tc} (h : r ∉ hostOps3_W) : W9 m c r = W8 m c r :=
  StableHlo.after_of_writes_sub hostOps3 _ hostOps3_writes h
theorem W10_step {r : Ref sig .tc} (h : r ∉ hostOps3_1_W) : W10 m c r = W9 m c r :=
  StableHlo.after_of_writes_sub hostOps3_1 _ hostOps3_1_writes h
theorem W11_step {r : Ref sig .tc} (h : r ∉ hostOps3_2_W) : W11 m c r = W10 m c r :=
  StableHlo.after_of_writes_sub hostOps3_2 _ hostOps3_2_writes h
theorem W12_step {r : Ref sig .tc} (h : r ≠ main_v55) : W12 m c r = W11 m c r := by
  unfold W12; exact Function.update_of_ne (StableHlo.devRef_ne_of_ne h) _ _
theorem W2_v7 : W2 m c main_v7 = res0 m c := by unfold W2; exact Function.update_self _ _ _
theorem W4_v35 : W4 m c main_v35 = res1 m c := by unfold W4; exact Function.update_self _ _ _
theorem W8_v45 : W8 m c main_v45 = res2 m c := by unfold W8; exact Function.update_self _ _ _
theorem W12_v55 : W12 m c main_v55 = res3 m c := by unfold W12; exact Function.update_self _ _ _
abbrev Kept (r : Ref sig .tc) : Prop :=
  r ∉ hostOps0_W ∧ r ≠ main_v7 ∧ r ∉ hostOps1_W ∧ r ≠ main_v35 ∧ r ∉ hostOps2_W ∧ r ∉ hostOps2_1_W ∧ r ∉ hostOps2_2_W
    ∧ r ≠ main_v45 ∧ r ∉ hostOps3_W ∧ r ∉ hostOps3_1_W ∧ r ∉ hostOps3_2_W ∧ r ≠ main_v55
theorem keep_W1 {r : Ref sig .tc} (h : Kept r) : W1 m c r = 𝔞[r] := W1_step m c h.1
theorem keep_W2 {r : Ref sig .tc} (h : Kept r) : W2 m c r = 𝔞[r] := (W2_step m c h.2.1).trans (keep_W1 m c h)
theorem keep_W3 {r : Ref sig .tc} (h : Kept r) : W3 m c r = 𝔞[r] := (W3_step m c h.2.2.1).trans (keep_W2 m c h)
theorem keep_W4 {r : Ref sig .tc} (h : Kept r) : W4 m c r = 𝔞[r] := (W4_step m c h.2.2.2.1).trans (keep_W3 m c h)
theorem keep_W5 {r : Ref sig .tc} (h : Kept r) : W5 m c r = 𝔞[r] := (W5_step m c h.2.2.2.2.1).trans (keep_W4 m c h)
theorem keep_W6 {r : Ref sig .tc} (h : Kept r) : W6 m c r = 𝔞[r] := (W6_step m c h.2.2.2.2.2.1).trans (keep_W5 m c h)
theorem keep_W7 {r : Ref sig .tc} (h : Kept r) : W7 m c r = 𝔞[r] := (W7_step m c h.2.2.2.2.2.2.1).trans (keep_W6 m c h)
theorem keep_W8 {r : Ref sig .tc} (h : Kept r) : W8 m c r = 𝔞[r] := (W8_step m c h.2.2.2.2.2.2.2.1).trans (keep_W7 m c h)
theorem keep_W9 {r : Ref sig .tc} (h : Kept r) : W9 m c r = 𝔞[r] := (W9_step m c h.2.2.2.2.2.2.2.2.1).trans (keep_W8 m c h)
theorem keep_W10 {r : Ref sig .tc} (h : Kept r) : W10 m c r = 𝔞[r] :=
  (W10_step m c h.2.2.2.2.2.2.2.2.2.1).trans (keep_W9 m c h)
theorem keep_W11 {r : Ref sig .tc} (h : Kept r) : W11 m c r = 𝔞[r] :=
  (W11_step m c h.2.2.2.2.2.2.2.2.2.2.1).trans (keep_W10 m c h)
theorem keep_W12 {r : Ref sig .tc} (h : Kept r) : W12 m c r = 𝔞[r] :=
  (W12_step m c h.2.2.2.2.2.2.2.2.2.2.2).trans (keep_W11 m c h)
theorem kept_arg0 : Kept main_arg0 := by decide
theorem kept_arg1 : Kept main_arg1 := by decide
theorem kept_arg2 : Kept main_arg2 := by decide
theorem kept_arg4 : Kept main_arg4 := by decide
theorem kept_arg5 : Kept main_arg5 := by decide
theorem kept_arg6 : Kept main_arg6 := by decide
theorem kept_arg7 : Kept main_arg7 := by decide
theorem kept_arg8 : Kept main_arg8 := by decide
theorem kept_arg9 : Kept main_arg9 := by decide
theorem kept_arg10 : Kept main_arg10 := by decide
theorem args_W1 : W1 m c main_arg0 = 𝔞[main_arg0] ∧ W1 m c main_arg1 = 𝔞[main_arg1] :=
  ⟨keep_W1 m c kept_arg0, keep_W1 m c kept_arg1⟩
theorem args_W3 : W3 m c main_arg0 = 𝔞[main_arg0] ∧ W3 m c main_arg1 = 𝔞[main_arg1] :=
  ⟨keep_W3 m c kept_arg0, keep_W3 m c kept_arg1⟩
theorem args_W7 : W7 m c main_arg0 = 𝔞[main_arg0] ∧ W7 m c main_arg1 = 𝔞[main_arg1] :=
  ⟨keep_W7 m c kept_arg0, keep_W7 m c kept_arg1⟩
theorem args_W11 : W11 m c main_arg0 = 𝔞[main_arg0] ∧ W11 m c main_arg1 = 𝔞[main_arg1] :=
  ⟨keep_W11 m c kept_arg0, keep_W11 m c kept_arg1⟩
theorem v3_W1 : W1 m c main_v3 = kpad0 𝔞[main_arg3] := after0_v3 (W0 m c)
theorem v6_W1 : W1 m c main_v6 = kpad1 𝔞[main_arg3] := after0_v6 (W0 m c)
theorem v28_W3 : W3 m c main_v28
    = extractStridedSlice S8192x1 ![0, 0] (ksm2 (kz (res0 m c) 𝔞[main_arg4])) slices_S8192x2_S8192x1_0_0 := by
  show StableHlo.after hostOps1 (W2 m c) (Proc.devRef .tc main_v28) = _
  rw [after1_v28, W2_v7, keep_W2 m c kept_arg4]
theorem v29_W3 : W3 m c main_v29
    = extractStridedSlice S8192x1 ![0, 1] (ksm2 (kz (res0 m c) 𝔞[main_arg4])) slices_S8192x2_S8192x1_0_1 := by
  show StableHlo.after hostOps1 (W2 m c) (Proc.devRef .tc main_v29) = _
  rw [after1_v29, W2_v7, keep_W2 m c kept_arg4]
theorem v32_W3 : W3 m c main_v32
    = ksc0_128 (ksm2 (kz (res0 m c) 𝔞[main_arg4])) (ky1 𝔞[main_arg2] 𝔞[main_arg5]) := by
  show StableHlo.after hostOps1 (W2 m c) (Proc.devRef .tc main_v32) = _
  rw [after1_v32, W2_v7, keep_W2 m c kept_arg4, keep_W2 m c kept_arg2, keep_W2 m c kept_arg5]
theorem v34_W3 : W3 m c main_v34
    = ksc1_128 (ksm2 (kz (res0 m c) 𝔞[main_arg4])) (ky1 𝔞[main_arg2] 𝔞[main_arg5]) := by
  show StableHlo.after hostOps1 (W2 m c) (Proc.devRef .tc main_v34) = _
  rw [after1_v34, W2_v7, keep_W2 m c kept_arg4, keep_W2 m c kept_arg2, keep_W2 m c kept_arg5]
theorem v28_W6 : W6 m c main_v28
    = extractStridedSlice S8192x1 ![0, 0] (ksm2 (kz (res0 m c) 𝔞[main_arg4])) slices_S8192x2_S8192x1_0_0 := by
  rw [W6_step m c (by decide), W5_step m c (by decide), W4_step m c (by decide), v28_W3]
theorem v29_W6 : W6 m c main_v29
    = extractStridedSlice S8192x1 ![0, 1] (ksm2 (kz (res0 m c) 𝔞[main_arg4])) slices_S8192x2_S8192x1_0_1 := by
  rw [W6_step m c (by decide), W5_step m c (by decide), W4_step m c (by decide), v29_W3]
theorem v38_W5 : W5 m c main_v38
    = addf (res1 m c : Vec F S8192x128 .f32) (broadcastInDim S8192x128 ![0, 1] bcast_S1x128_S8192x128_0_1
        (broadcastInDim S1x128 ![1] bcast_S128_S1x128_1 (𝔞[main_arg6] : Vec F S128 .f32))) := by
  show StableHlo.after hostOps2 (W4 m c) (Proc.devRef .tc main_v38) = _
  rw [after2_v38, W4_v35, keep_W4 m c kept_arg6]
theorem v39_W6 : W6 m c main_v39 = kact (res1 m c) 𝔞[main_arg6] :=
  after21_v39 (W5 m c) _ _ (v38_W5 m c)
theorem v42_W7 : W7 m c main_v42
    = ksc0_128 (ksm2 (kz (res0 m c) 𝔞[main_arg4])) (ky2 (kact (res1 m c) 𝔞[main_arg6]) 𝔞[main_arg7]) := by
  show StableHlo.after hostOps2_2 (W6 m c) (Proc.devRef .tc main_v42) = _
  rw [after22_v42 (W6 m c) _ (v28_W6 m c), v39_W6, keep_W6 m c kept_arg7]
theorem v44_W7 : W7 m c main_v44
    = ksc1_128 (ksm2 (kz (res0 m c) 𝔞[main_arg4])) (ky2 (kact (res1 m c) 𝔞[main_arg6]) 𝔞[main_arg7]) := by
  show StableHlo.after hostOps2_2 (W6 m c) (Proc.devRef .tc main_v44) = _
  rw [after22_v44 (W6 m c) _ (v29_W6 m c), v39_W6, keep_W6 m c kept_arg7]
theorem v28_W10 : W10 m c main_v28
    = extractStridedSlice S8192x1 ![0, 0] (ksm2 (kz (res0 m c) 𝔞[main_arg4])) slices_S8192x2_S8192x1_0_0 := by
  rw [W10_step m c (by decide), W9_step m c (by decide), W8_step m c (by decide), W7_step m c (by decide), v28_W6]
theorem v29_W10 : W10 m c main_v29
    = extractStridedSlice S8192x1 ![0, 1] (ksm2 (kz (res0 m c) 𝔞[main_arg4])) slices_S8192x2_S8192x1_0_1 := by
  rw [W10_step m c (by decide), W9_step m c (by decide), W8_step m c (by decide), W7_step m c (by decide), v29_W6]
theorem v48_W9 : W9 m c main_v48
    = addf (res2 m c : Vec F S8192x128 .f32) (broadcastInDim S8192x128 ![0, 1] bcast_S1x128_S8192x128_0_1
        (broadcastInDim S1x128 ![1] bcast_S128_S1x128_1 (𝔞[main_arg8] : Vec F S128 .f32))) := by
  show StableHlo.after hostOps3 (W8 m c) (Proc.devRef .tc main_v48) = _
  rw [after3_v48, W8_v45, keep_W8 m c kept_arg8]
theorem v49_W10 : W10 m c main_v49 = kact (res2 m c) 𝔞[main_arg8] :=
  after31_v49 (W9 m c) _ _ (v48_W9 m c)
theorem v52_W11 : W11 m c main_v52
    = ksc0_16 (ksm2 (kz (res0 m c) 𝔞[main_arg4])) (ky3 (kact (res2 m c) 𝔞[main_arg8]) 𝔞[main_arg9]) := by
  show StableHlo.after hostOps3_2 (W10 m c) (Proc.devRef .tc main_v52) = _
  rw [after32_v52 (W10 m c) _ (v28_W10 m c), v49_W10, keep_W10 m c kept_arg9]
theorem v54_W11 : W11 m c main_v54
    = ksc1_16 (ksm2 (kz (res0 m c) 𝔞[main_arg4])) (ky3 (kact (res2 m c) 𝔞[main_arg8]) 𝔞[main_arg9]) := by
  show StableHlo.after hostOps3_2 (W10 m c) (Proc.devRef .tc main_v54) = _
  rw [after32_v54 (W10 m c) _ (v29_W10 m c), v49_W10, keep_W10 m c kept_arg9]
theorem v69_W13 : W13 m c main_v69 = kfin (res3 m c) 𝔞[main_arg10] := by
  show StableHlo.after hostOps4 (W12 m c) (Proc.devRef .tc main_v69) = _
  rw [after4_v69, W12_v55, keep_W12 m c kept_arg10]
end Cert.KernelIdeal.Hand
end
-- ==== Proof.KI.R0.Value.lean ====
import proofs.«165102_j58428735095548_1_alg».proof.Proof.KI.R0.Data
import Idealize.ShloMosaic.Lib.ValueIdx
import Idealize.ShloMosaic.PureOps.Ideal.Laws

set_option maxRecDepth 16384

noncomputable section

namespace Cert.KernelIdeal.Spmm0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open ValueIdx Cert.Spec

theorem dotLhsRow0 (i : S1024x8.Idx) (r : dot_S1024x1024_S1024x8_S1024x8_1_0_0_1_n_n.contr.Idx) :
    (dot_S1024x1024_S1024x8_S1024x8_1_0_0_1_n_n.lhsIdx i r 0).val = (i 0).val := by
  unfold DotDims.lhsIdx
  rw [dif_neg (show ¬(0 : Fin S1024x1024.rank) ∈ dot_S1024x1024_S1024x8_S1024x8_1_0_0_1_n_n.lhsBatch by decide), dif_pos (show (0 : Fin S1024x1024.rank) ∈ dot_S1024x1024_S1024x8_S1024x8_1_0_0_1_n_n.lhsNonContracting by decide)]
  rfl
theorem dotLhsCol0 (i : S1024x8.Idx) (r : dot_S1024x1024_S1024x8_S1024x8_1_0_0_1_n_n.contr.Idx) :
    (dot_S1024x1024_S1024x8_S1024x8_1_0_0_1_n_n.lhsIdx i r 1).val = (r ⟨0, by decide⟩).val :=
  dot_S1024x1024_S1024x8_S1024x8_1_0_0_1_n_n.lhsIdx_val_of_single rfl i r
theorem dotRhsRow0 (i : S1024x8.Idx) (r : dot_S1024x1024_S1024x8_S1024x8_1_0_0_1_n_n.contr.Idx) :
    (dot_S1024x1024_S1024x8_S1024x8_1_0_0_1_n_n.rhsIdx i r 0).val = (r ⟨0, by decide⟩).val :=
  dot_S1024x1024_S1024x8_S1024x8_1_0_0_1_n_n.rhsIdx_val_of_single rfl i r
theorem dotRhsCol0 (i : S1024x8.Idx) (r : dot_S1024x1024_S1024x8_S1024x8_1_0_0_1_n_n.contr.Idx) :
    (dot_S1024x1024_S1024x8_S1024x8_1_0_0_1_n_n.rhsIdx i r 1).val = (i 1).val := by
  unfold DotDims.rhsIdx
  rw [dif_neg (show ¬(1 : Fin S1024x8.rank) ∈ dot_S1024x1024_S1024x8_S1024x8_1_0_0_1_n_n.rhsBatch by decide), dif_pos (show (1 : Fin S1024x8.rank) ∈ dot_S1024x1024_S1024x8_S1024x8_1_0_0_1_n_n.rhsNonContracting by decide)]
  rfl

theorem matmulAt0 (l : FVec Ideal S1024x1024 .bf16) (r : FVec Ideal S1024x8 .bf16) (p : Fin 1024) (q : Fin 8) :
    matmul (F := Ideal) dot_S1024x1024_S1024x8_S1024x8_1_0_0_1_n_n none l r (constant S1024x8 .f32 0x00000000#32) (ix2 p q)
      = ∑ k : Fin 1024, l (ix2 p k) * r (ix2 k q) := by
  refine (Ideal.matmul_constant_zero_apply dot_S1024x1024_S1024x8_S1024x8_1_0_0_1_n_n none l r (ix2 p q)).trans ?_
  rw [← Equiv.sum_comp (contrEquiv1 dot_S1024x1024_S1024x8_S1024x8_1_0_0_1_n_n 1024 rfl rfl).symm]
  refine Finset.sum_congr rfl fun k _ => ?_
  have hk := contrEquiv1_symm_val dot_S1024x1024_S1024x8_S1024x8_1_0_0_1_n_n 1024 rfl rfl k
  have el : dot_S1024x1024_S1024x8_S1024x8_1_0_0_1_n_n.lhsIdx (ix2 p q) ((contrEquiv1 dot_S1024x1024_S1024x8_S1024x8_1_0_0_1_n_n 1024 rfl rfl).symm k) = ix2 p k := funext fun a => Fin.ext (by
    match a with
    | ⟨0, _⟩ => exact dotLhsRow0 _ _
    | ⟨1, _⟩ => exact (dotLhsCol0 _ _).trans hk)
  have er : dot_S1024x1024_S1024x8_S1024x8_1_0_0_1_n_n.rhsIdx (ix2 p q) ((contrEquiv1 dot_S1024x1024_S1024x8_S1024x8_1_0_0_1_n_n 1024 rfl rfl).symm k) = ix2 k q := funext fun a => Fin.ext (by
    match a with
    | ⟨0, _⟩ => exact (dotRhsRow0 _ _).trans hk
    | ⟨1, _⟩ => exact dotRhsCol0 _ _)
  rw [el, er]

theorem payZeroAt0 (p : Fin 1024) (q : Fin 8) : (k0_pay1 (F := Ideal)) (ix2 p q) = 0 := by
  unfold k0_pay1
  simp only [shapeCast_self]
  exact Ideal.ofBits_zero_f32

theorem payFstAt0 (x0 : FVec Ideal S1024x1024 .f32) (x2 xa : FVec Ideal S1024x8 .f32) (p : Fin 1024) (q : Fin 8) :
    k0_pay2 (F := Ideal) x0 x2 xa (ix2 p q) = xa (ix2 p q) + ∑ k : Fin 1024, x0 (ix2 p k) * x2 (ix2 k q) := by
  unfold k0_pay2
  simp only [shapeCast_self]
  exact congrArg (xa (ix2 p q) + ·) (matmulAt0 _ _ p q)

theorem paySndAt0 (x1 : FVec Ideal S1024x1024 .f32) (x3 xa : FVec Ideal S1024x8 .f32) (p : Fin 1024) (q : Fin 8) :
    k0_pay3 (F := Ideal) x1 x3 xa (ix2 p q) = xa (ix2 p q) + ∑ k : Fin 1024, x1 (ix2 p k) * x3 (ix2 k q) := by
  unfold k0_pay3
  simp only [shapeCast_self]
  exact congrArg (xa (ix2 p q) + ·) (matmulAt0 _ _ p q)

/-- One point's update at an entry: both partial products added. -/
theorem upd0_apply (x0 x1 : FVec Ideal S1024x1024 .f32) (x2 x3 xa : FVec Ideal S1024x8 .f32) (p : Fin 1024) (q : Fin 8) :
    upd0 (F := Ideal) x0 x1 x2 x3 xa (ix2 p q)
      = xa (ix2 p q) + ((∑ k : Fin 1024, x0 (ix2 p k) * x2 (ix2 k q)) + ∑ k : Fin 1024, x1 (ix2 p k) * x3 (ix2 k q)) := by
  unfold upd0
  rw [paySndAt0, payFstAt0, add_assoc]

variable (V : (c : Dev nD) → (b : Ref sig .tc) → Buf (Elt Ideal) ((c : Thread nD τ).loc b))

abbrev aarr0 (c : Dev nD) : Mat 8192 8192 := V c (Pipeline.arrRef spec0 0)
abbrev barr0 (c : Dev nD) : Mat 8192 8192 := V c (Pipeline.arrRef spec0 1)
abbrev yarr0 (c : Dev nD) : Mat 8192 8 := V c (Pipeline.arrRef spec0 2)
abbrev zarr0 (c : Dev nD) : Mat 8192 8 := V c (Pipeline.arrRef spec0 3)

abbrev ablk0 (c : Dev nD) (t : Fin cfg0.N) : FVec Ideal S1024x1024 .f32 := blk0 V c 0 t
abbrev bblk0 (c : Dev nD) (t : Fin cfg0.N) : FVec Ideal S1024x1024 .f32 := blk0 V c 1 t
abbrev yblk0 (c : Dev nD) (t : Fin cfg0.N) : FVec Ideal S1024x8 .f32 := blk0 V c 2 t
abbrev zblk0 (c : Dev nD) (t : Fin cfg0.N) : FVec Ideal S1024x8 .f32 := blk0 V c 3 t

theorem idxFacts0 : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val % 8 ∧ win0_2.index t (1 : Fin 2) = 0
    ∧ win0_3.index t (0 : Fin 2) = t.val % 8 ∧ win0_3.index t (1 : Fin 2) = 0
    ∧ win0_4.index t (0 : Fin 2) = t.val / 8 ∧ win0_4.index t (1 : Fin 2) = 0 :=
  (by decide +kernel : ∀ t : Fin grid0.N, _)

theorem lt_grid0 (t : Fin cfg0.N) : t.val < 64 := lt_of_lt_of_eq t.isLt N_0

theorem ablk0_apply (c : Dev nD) (t : Fin cfg0.N) (p k : Fin 1024) :
    ablk0 V c t (ix2 p k) = aarr0 V c (ix2 (gidx (t.val / 8) p) (gidx (t.val % 8) k)) := by
  have ht := lt_grid0 t
  have hp := p.isLt
  have hk := k.isLt
  obtain ⟨e0, e1, -⟩ := idxFacts0 t
  show V c (Pipeline.arrRef spec0 0) (((cfg0.win 0).blk t).view.emb (ix2 p k)) = V c (Pipeline.arrRef spec0 0) _
  congr 1
  funext a
  apply Fin.ext
  match a with
  | ⟨0, _⟩ => show win0_0.index t (0 : Fin 2) * 1024 + 1 * p.val = (1024 * (t.val / 8) + p.val) % 8192; omega
  | ⟨1, _⟩ => show win0_0.index t (1 : Fin 2) * 1024 + 1 * k.val = (1024 * (t.val % 8) + k.val) % 8192; omega

theorem bblk0_apply (c : Dev nD) (t : Fin cfg0.N) (p k : Fin 1024) :
    bblk0 V c t (ix2 p k) = barr0 V c (ix2 (gidx (t.val / 8) p) (gidx (t.val % 8) k)) := by
  have ht := lt_grid0 t
  have hp := p.isLt
  have hk := k.isLt
  obtain ⟨-, -, e0, e1, -⟩ := idxFacts0 t
  show V c (Pipeline.arrRef spec0 1) (((cfg0.win 1).blk t).view.emb (ix2 p k)) = V c (Pipeline.arrRef spec0 1) _
  congr 1
  funext a
  apply Fin.ext
  match a with
  | ⟨0, _⟩ => show win0_1.index t (0 : Fin 2) * 1024 + 1 * p.val = (1024 * (t.val / 8) + p.val) % 8192; omega
  | ⟨1, _⟩ => show win0_1.index t (1 : Fin 2) * 1024 + 1 * k.val = (1024 * (t.val % 8) + k.val) % 8192; omega

theorem yblk0_apply (c : Dev nD) (t : Fin cfg0.N) (k : Fin 1024) (q : Fin 8) :
    yblk0 V c t (ix2 k q) = yarr0 V c (ix2 (gidx (t.val % 8) k) q) := by
  have ht := lt_grid0 t
  have hk := k.isLt
  obtain ⟨-, -, -, -, e0, e1, -⟩ := idxFacts0 t
  show V c (Pipeline.arrRef spec0 2) (((cfg0.win 2).blk t).view.emb (ix2 k q)) = V c (Pipeline.arrRef spec0 2) _
  congr 1
  funext a
  apply Fin.ext
  match a with
  | ⟨0, _⟩ => show win0_2.index t (0 : Fin 2) * 1024 + 1 * k.val = (1024 * (t.val % 8) + k.val) % 8192; omega
  | ⟨1, _⟩ => show win0_2.index t (1 : Fin 2) * (8 : ℕ) + 1 * q.val = q.val; omega

theorem zblk0_apply (c : Dev nD) (t : Fin cfg0.N) (k : Fin 1024) (q : Fin 8) :
    zblk0 V c t (ix2 k q) = zarr0 V c (ix2 (gidx (t.val % 8) k) q) := by
  have ht := lt_grid0 t
  have hk := k.isLt
  obtain ⟨-, -, -, -, -, -, e0, e1, -⟩ := idxFacts0 t
  show V c (Pipeline.arrRef spec0 3) (((cfg0.win 3).blk t).view.emb (ix2 k q)) = V c (Pipeline.arrRef spec0 3) _
  congr 1
  funext a
  apply Fin.ext
  match a with
  | ⟨0, _⟩ => show win0_3.index t (0 : Fin 2) * 1024 + 1 * k.val = (1024 * (t.val % 8) + k.val) % 8192; omega
  | ⟨1, _⟩ => show win0_3.index t (1 : Fin 2) * (8 : ℕ) + 1 * q.val = q.val; omega

/-- Column block s's share of entry (p, q) of row block i. -/
def colTerm0 (c : Dev nD) (i s : ℕ) (p : Fin 1024) (q : Fin 8) : EReal :=
  (∑ k : Fin 1024, aarr0 V c (ix2 (gidx i p) (gidx s k)) * yarr0 V c (ix2 (gidx s k) q))
    + ∑ k : Fin 1024, barr0 V c (ix2 (gidx i p) (gidx s k)) * zarr0 V c (ix2 (gidx s k) q)

theorem updAt0_apply (c : Dev nD) (t : Fin cfg0.N) (xa : FVec Ideal S1024x8 .f32) (p : Fin 1024) (q : Fin 8) :
    updAt0 V c t xa (ix2 p q) = xa (ix2 p q) + colTerm0 V c (t.val / 8) (t.val % 8) p q := by
  refine (upd0_apply (ablk0 V c t) (bblk0 V c t) (yblk0 V c t) (zblk0 V c t) xa p q).trans ?_
  unfold colTerm0
  exact congrArg (xa (ix2 p q) + ·) (congrArg₂ (· + ·) (Finset.sum_congr rfl fun k _ => by rw [ablk0_apply, yblk0_apply])
    (Finset.sum_congr rfl fun k _ => by rw [bblk0_apply, zblk0_apply]))

/-- By induction on the point: within a row the shares accumulate in order. -/
theorem accAt0_apply (c : Dev nD) : ∀ (n : ℕ) (hn : n < cfg0.N) (p : Fin 1024) (q : Fin 8),
    accAt0 V c n hn (ix2 p q) = ∑ s ∈ Finset.range (n % 8 + 1), colTerm0 V c (n / 8) s p q
  | 0, hn, p, q => by
    refine (updAt0_apply V c ⟨0, hn⟩ _ p q).trans ?_
    rw [payZeroAt0, zero_add]
    show colTerm0 V c (0 / 8) 0 p q = ∑ s ∈ Finset.range 1, colTerm0 V c (0 / 8) s p q
    rw [Finset.sum_range_one]
  | n + 1, hn, p, q => by
    refine (updAt0_apply V c ⟨n + 1, hn⟩ _ p q).trans ?_
    show (if (n + 1) % 8 = 0 then k0_pay1 else accAt0 V c n (Nat.lt_of_succ_lt hn)) (ix2 p q)
      + colTerm0 V c ((n + 1) / 8) ((n + 1) % 8) p q = _
    by_cases h0 : (n + 1) % 8 = 0
    · rw [if_pos h0, payZeroAt0, zero_add, h0, zero_add, Finset.sum_range_one]
    · have hd : (n + 1) / 8 = n / 8 := by omega
      have hr : (n + 1) % 8 = n % 8 + 1 := by omega
      rw [if_neg h0, accAt0_apply c n (Nat.lt_of_succ_lt hn) p q, hr, Finset.sum_range_succ _ (n % 8 + 1), hd]

abbrev want0 (c : Dev nD) : Mat 8192 8 := spmm8 (aarr0 V c) (barr0 V c) (yarr0 V c) (zarr0 V c)

/-- Regrouping a finite sum needs only commutativity and associativity, which hold on the extended reals. -/
theorem sum_colTerm0 (c : Dev nD) (i : ℕ) (p : Fin 1024) (q : Fin 8) :
    ∑ s ∈ Finset.range 8, colTerm0 V c i s p q = spmmAt8 (aarr0 V c) (barr0 V c) (yarr0 V c) (zarr0 V c) (gidx i p) q := by
  unfold colTerm0 spmmAt8
  rw [Finset.sum_add_distrib]
  exact congrArg₂ (· + ·) (sum_gidx (fun j => aarr0 V c (ix2 (gidx i p) j) * yarr0 V c (ix2 j q)))
    (sum_gidx (fun j => barr0 V c (ix2 (gidx i p) j) * zarr0 V c (ix2 j q)))

theorem flushed0_eq (c : Dev nD) (t : Fin cfg0.N) (hf : (cfg0.win 4).flush t = true) :
    (dat0 V c).flushed 4 t = ((cfg0.win 4).blk t).view.read (Elt Ideal) (want0 V c) := by
  have h7 : t.val % 8 = 7 := (flush0_4 t).mp hf
  have ht := lt_grid0 t
  obtain ⟨-, -, -, -, -, -, -, -, e0, e1⟩ := idxFacts0 t
  show (cfg0.win 4).cut (grid0.coords t) ((dat0 V c).after 4 t) = _
  rw [after0_4, if_pos h7]
  funext j
  show accAt0 V c t.val t.isLt j = want0 V c (((cfg0.win 4).blk t).view.emb j)
  have hj0 : (j 0).val < 1024 := (j 0).isLt
  have ej : (j : S1024x8.Idx) = ix2 (⟨(j 0).val, hj0⟩ : Fin 1024) (j 1 : Fin 8) := by
    funext a
    match a with
    | ⟨0, _⟩ => rfl
    | ⟨1, _⟩ => rfl
  have ee : (((cfg0.win 4).blk t).view.emb j : S8192x8.Idx) = ix2 (gidx (t.val / 8) ⟨(j 0).val, hj0⟩) (j 1 : Fin 8) := by
    funext a
    apply Fin.ext
    match a with
    | ⟨0, _⟩ => show win0_4.index t (0 : Fin 2) * 1024 + 1 * (j 0).val = (1024 * (t.val / 8) + (j 0).val) % 8192; omega
    | ⟨1, _⟩ => show win0_4.index t (1 : Fin 2) * (8 : ℕ) + 1 * (j 1).val = (j 1).val; omega
  refine Eq.trans ?_ (congrArg (want0 V c) ee.symm)
  refine (congrArg (accAt0 V c t.val t.isLt) ej).trans ?_
  refine (accAt0_apply V c t.val t.isLt _ _).trans ?_
  rw [h7]
  exact sum_colTerm0 V c (t.val / 8) _ _

theorem mem_blk0 (t : Fin cfg0.N) (i : S8192x8.Idx) :
    i ∈ ((cfg0.win 4).blk t).view.set ↔ ∀ a : Fin 2, win0_4.index t a * S1024x8.size a ≤ (i a).val
      ∧ (i a).val < win0_4.index t a * S1024x8.size a + S1024x8.size a := by
  show i ∈ ((View.whole (Pipeline.arrRef spec0 4)).slice (win0_4.rect t)).set ↔ _
  rw [View.set_slice_whole, Rect.mem_set_unit]
  exact Iff.rfl

theorem cover0 (i : S8192x8.Idx) :
    ∃ t : Fin cfg0.N, (cfg0.win 4).flush t = true ∧ i ∈ ((cfg0.win 4).blk t).view.set := by
  have hi0 : (i 0).val < 8192 := (i 0).isLt
  have hi1 : (i 1).val < (8 : ℕ) := (i 1).isLt
  have hN : cfg0.N = 64 := N_0
  obtain ⟨t, hv⟩ : ∃ t : Fin cfg0.N, t.val = 8 * ((i 0).val / 1024) + 7 := ⟨⟨_, by omega⟩, rfl⟩
  obtain ⟨-, -, -, -, -, -, -, -, e0, e1⟩ := idxFacts0 t
  refine ⟨t, (flush0_4 t).mpr (by omega), ?_⟩
  rw [mem_blk0]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * (8 : ℕ) ≤ (i 1).val ∧ (i 1).val < win0_4.index t (1 : Fin 2) * (8 : ℕ) + (8 : ℕ); omega

theorem result0 (c : Dev nD) :
    ((dat0 (F := Ideal) V c).arrAt 4 cfg0.N : S8192x8.Idx → EReal)
      = spmm8 (V c main_arg0) (V c main_arg1) (V c main_v3) (V c main_v6) :=
  (dat0 V c).arrAt_eq_of_cover 4 (want0 V c) (fun t hf => flushed0_eq V c t hf) cover0

end Cert.KernelIdeal.Spmm0

end
-- ==== Proof.KI.R1.Value.lean ====
import proofs.«165102_j58428735095548_1_alg».proof.Proof.KI.R1.Data
import Idealize.ShloMosaic.Lib.ValueIdx
import Idealize.ShloMosaic.PureOps.Ideal.Laws

set_option maxRecDepth 16384

noncomputable section

namespace Cert.KernelIdeal.Spmm1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open ValueIdx Cert.Spec

theorem dotLhsRow1 (i : S1024x128.Idx) (r : dot_S1024x1024_S1024x128_S1024x128_1_0_0_1_n_n.contr.Idx) :
    (dot_S1024x1024_S1024x128_S1024x128_1_0_0_1_n_n.lhsIdx i r 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem dotLhsCol1 (i : S1024x128.Idx) (r : dot_S1024x1024_S1024x128_S1024x128_1_0_0_1_n_n.contr.Idx) :
    (dot_S1024x1024_S1024x128_S1024x128_1_0_0_1_n_n.lhsIdx i r 1).val = (r ⟨0, by decide⟩).val :=
  dot_S1024x1024_S1024x128_S1024x128_1_0_0_1_n_n.lhsIdx_val_of_single rfl i r
theorem dotRhsRow1 (i : S1024x128.Idx) (r : dot_S1024x1024_S1024x128_S1024x128_1_0_0_1_n_n.contr.Idx) :
    (dot_S1024x1024_S1024x128_S1024x128_1_0_0_1_n_n.rhsIdx i r 0).val = (r ⟨0, by decide⟩).val :=
  dot_S1024x1024_S1024x128_S1024x128_1_0_0_1_n_n.rhsIdx_val_of_single rfl i r
theorem dotRhsCol1 (i : S1024x128.Idx) (r : dot_S1024x1024_S1024x128_S1024x128_1_0_0_1_n_n.contr.Idx) :
    (dot_S1024x1024_S1024x128_S1024x128_1_0_0_1_n_n.rhsIdx i r 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

theorem matmulAt1 (l : FVec Ideal S1024x1024 .bf16) (r : FVec Ideal S1024x128 .bf16) (p : Fin 1024) (q : Fin 128) :
    matmul (F := Ideal) dot_S1024x1024_S1024x128_S1024x128_1_0_0_1_n_n none l r (constant S1024x128 .f32 0x00000000#32) (ix2 p q)
      = ∑ k : Fin 1024, l (ix2 p k) * r (ix2 k q) := by
  refine (Ideal.matmul_constant_zero_apply dot_S1024x1024_S1024x128_S1024x128_1_0_0_1_n_n none l r (ix2 p q)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun a => Fin.ext (by
    match a with
    | ⟨0, _⟩ => exact dotLhsRow1 _ _
    | ⟨1, _⟩ => exact (dotLhsCol1 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun a => Fin.ext (by
    match a with
    | ⟨0, _⟩ => exact (dotRhsRow1 _ _).trans hk
    | ⟨1, _⟩ => exact dotRhsCol1 _ _)
  rw [el, er]

theorem payZeroAt1 (p : Fin 1024) (q : Fin 128) : (k1_pay1 (F := Ideal)) (ix2 p q) = 0 := by
  unfold k1_pay1
  simp only [shapeCast_self]
  exact Ideal.ofBits_zero_f32

theorem payFstAt1 (x0 : FVec Ideal S1024x1024 .f32) (x2 xa : FVec Ideal S1024x128 .f32) (p : Fin 1024) (q : Fin 128) :
    k1_pay2 (F := Ideal) x0 x2 xa (ix2 p q) = xa (ix2 p q) + ∑ k : Fin 1024, x0 (ix2 p k) * x2 (ix2 k q) := by
  unfold k1_pay2
  simp only [shapeCast_self]
  exact congrArg (xa (ix2 p q) + ·) (matmulAt1 _ _ p q)

theorem paySndAt1 (x1 : FVec Ideal S1024x1024 .f32) (x3 xa : FVec Ideal S1024x128 .f32) (p : Fin 1024) (q : Fin 128) :
    k1_pay3 (F := Ideal) x1 x3 xa (ix2 p q) = xa (ix2 p q) + ∑ k : Fin 1024, x1 (ix2 p k) * x3 (ix2 k q) := by
  unfold k1_pay3
  simp only [shapeCast_self]
  exact congrArg (xa (ix2 p q) + ·) (matmulAt1 _ _ p q)

/-- One point's update at an entry: both partial products added. -/
theorem upd1_apply (x0 x1 : FVec Ideal S1024x1024 .f32) (x2 x3 xa : FVec Ideal S1024x128 .f32) (p : Fin 1024) (q : Fin 128) :
    upd1 (F := Ideal) x0 x1 x2 x3 xa (ix2 p q)
      = xa (ix2 p q) + ((∑ k : Fin 1024, x0 (ix2 p k) * x2 (ix2 k q)) + ∑ k : Fin 1024, x1 (ix2 p k) * x3 (ix2 k q)) := by
  unfold upd1
  rw [paySndAt1, payFstAt1, add_assoc]

variable (V : (c : Dev nD) → (b : Ref sig .tc) → Buf (Elt Ideal) ((c : Thread nD τ).loc b))

abbrev aarr1 (c : Dev nD) : Mat 8192 8192 := V c (Pipeline.arrRef spec1 0)
abbrev barr1 (c : Dev nD) : Mat 8192 8192 := V c (Pipeline.arrRef spec1 1)
abbrev yarr1 (c : Dev nD) : Mat 8192 128 := V c (Pipeline.arrRef spec1 2)
abbrev zarr1 (c : Dev nD) : Mat 8192 128 := V c (Pipeline.arrRef spec1 3)

abbrev ablk1 (c : Dev nD) (t : Fin cfg1.N) : FVec Ideal S1024x1024 .f32 := blk1 V c 0 t
abbrev bblk1 (c : Dev nD) (t : Fin cfg1.N) : FVec Ideal S1024x1024 .f32 := blk1 V c 1 t
abbrev yblk1 (c : Dev nD) (t : Fin cfg1.N) : FVec Ideal S1024x128 .f32 := blk1 V c 2 t
abbrev zblk1 (c : Dev nD) (t : Fin cfg1.N) : FVec Ideal S1024x128 .f32 := blk1 V c 3 t

theorem idxFacts1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val % 8 ∧ win1_2.index t (1 : Fin 2) = 0
    ∧ win1_3.index t (0 : Fin 2) = t.val % 8 ∧ win1_3.index t (1 : Fin 2) = 0
    ∧ win1_4.index t (0 : Fin 2) = t.val / 8 ∧ win1_4.index t (1 : Fin 2) = 0 :=
  (by decide +kernel : ∀ t : Fin grid1.N, _)

theorem lt_grid1 (t : Fin cfg1.N) : t.val < 64 := lt_of_lt_of_eq t.isLt N_1

theorem ablk1_apply (c : Dev nD) (t : Fin cfg1.N) (p k : Fin 1024) :
    ablk1 V c t (ix2 p k) = aarr1 V c (ix2 (gidx (t.val / 8) p) (gidx (t.val % 8) k)) := by
  have ht := lt_grid1 t
  have hp := p.isLt
  have hk := k.isLt
  obtain ⟨e0, e1, -⟩ := idxFacts1 t
  show V c (Pipeline.arrRef spec1 0) (((cfg1.win 0).blk t).view.emb (ix2 p k)) = V c (Pipeline.arrRef spec1 0) _
  congr 1
  funext a
  apply Fin.ext
  match a with
  | ⟨0, _⟩ => show win1_0.index t (0 : Fin 2) * 1024 + 1 * p.val = (1024 * (t.val / 8) + p.val) % 8192; omega
  | ⟨1, _⟩ => show win1_0.index t (1 : Fin 2) * 1024 + 1 * k.val = (1024 * (t.val % 8) + k.val) % 8192; omega

theorem bblk1_apply (c : Dev nD) (t : Fin cfg1.N) (p k : Fin 1024) :
    bblk1 V c t (ix2 p k) = barr1 V c (ix2 (gidx (t.val / 8) p) (gidx (t.val % 8) k)) := by
  have ht := lt_grid1 t
  have hp := p.isLt
  have hk := k.isLt
  obtain ⟨-, -, e0, e1, -⟩ := idxFacts1 t
  show V c (Pipeline.arrRef spec1 1) (((cfg1.win 1).blk t).view.emb (ix2 p k)) = V c (Pipeline.arrRef spec1 1) _
  congr 1
  funext a
  apply Fin.ext
  match a with
  | ⟨0, _⟩ => show win1_1.index t (0 : Fin 2) * 1024 + 1 * p.val = (1024 * (t.val / 8) + p.val) % 8192; omega
  | ⟨1, _⟩ => show win1_1.index t (1 : Fin 2) * 1024 + 1 * k.val = (1024 * (t.val % 8) + k.val) % 8192; omega

theorem yblk1_apply (c : Dev nD) (t : Fin cfg1.N) (k : Fin 1024) (q : Fin 128) :
    yblk1 V c t (ix2 k q) = yarr1 V c (ix2 (gidx (t.val % 8) k) q) := by
  have ht := lt_grid1 t
  have hk := k.isLt
  obtain ⟨-, -, -, -, e0, e1, -⟩ := idxFacts1 t
  show V c (Pipeline.arrRef spec1 2) (((cfg1.win 2).blk t).view.emb (ix2 k q)) = V c (Pipeline.arrRef spec1 2) _
  congr 1
  funext a
  apply Fin.ext
  match a with
  | ⟨0, _⟩ => show win1_2.index t (0 : Fin 2) * 1024 + 1 * k.val = (1024 * (t.val % 8) + k.val) % 8192; omega
  | ⟨1, _⟩ => show win1_2.index t (1 : Fin 2) * (128 : ℕ) + 1 * q.val = q.val; omega

theorem zblk1_apply (c : Dev nD) (t : Fin cfg1.N) (k : Fin 1024) (q : Fin 128) :
    zblk1 V c t (ix2 k q) = zarr1 V c (ix2 (gidx (t.val % 8) k) q) := by
  have ht := lt_grid1 t
  have hk := k.isLt
  obtain ⟨-, -, -, -, -, -, e0, e1, -⟩ := idxFacts1 t
  show V c (Pipeline.arrRef spec1 3) (((cfg1.win 3).blk t).view.emb (ix2 k q)) = V c (Pipeline.arrRef spec1 3) _
  congr 1
  funext a
  apply Fin.ext
  match a with
  | ⟨0, _⟩ => show win1_3.index t (0 : Fin 2) * 1024 + 1 * k.val = (1024 * (t.val % 8) + k.val) % 8192; omega
  | ⟨1, _⟩ => show win1_3.index t (1 : Fin 2) * (128 : ℕ) + 1 * q.val = q.val; omega

/-- Column block s's share of entry (p, q) of row block i. -/
def colTerm1 (c : Dev nD) (i s : ℕ) (p : Fin 1024) (q : Fin 128) : EReal :=
  (∑ k : Fin 1024, aarr1 V c (ix2 (gidx i p) (gidx s k)) * yarr1 V c (ix2 (gidx s k) q))
    + ∑ k : Fin 1024, barr1 V c (ix2 (gidx i p) (gidx s k)) * zarr1 V c (ix2 (gidx s k) q)

theorem updAt1_apply (c : Dev nD) (t : Fin cfg1.N) (xa : FVec Ideal S1024x128 .f32) (p : Fin 1024) (q : Fin 128) :
    updAt1 V c t xa (ix2 p q) = xa (ix2 p q) + colTerm1 V c (t.val / 8) (t.val % 8) p q := by
  refine (upd1_apply (ablk1 V c t) (bblk1 V c t) (yblk1 V c t) (zblk1 V c t) xa p q).trans ?_
  unfold colTerm1
  exact congrArg (xa (ix2 p q) + ·) (congrArg₂ (· + ·) (Finset.sum_congr rfl fun k _ => by rw [ablk1_apply, yblk1_apply])
    (Finset.sum_congr rfl fun k _ => by rw [bblk1_apply, zblk1_apply]))

/-- By induction on the point: within a row the shares accumulate in order. -/
theorem accAt1_apply (c : Dev nD) : ∀ (n : ℕ) (hn : n < cfg1.N) (p : Fin 1024) (q : Fin 128),
    accAt1 V c n hn (ix2 p q) = ∑ s ∈ Finset.range (n % 8 + 1), colTerm1 V c (n / 8) s p q
  | 0, hn, p, q => by
    refine (updAt1_apply V c ⟨0, hn⟩ _ p q).trans ?_
    rw [payZeroAt1, zero_add]
    show colTerm1 V c (0 / 8) 0 p q = ∑ s ∈ Finset.range 1, colTerm1 V c (0 / 8) s p q
    rw [Finset.sum_range_one]
  | n + 1, hn, p, q => by
    refine (updAt1_apply V c ⟨n + 1, hn⟩ _ p q).trans ?_
    show (if (n + 1) % 8 = 0 then k1_pay1 else accAt1 V c n (Nat.lt_of_succ_lt hn)) (ix2 p q)
      + colTerm1 V c ((n + 1) / 8) ((n + 1) % 8) p q = _
    by_cases h0 : (n + 1) % 8 = 0
    · rw [if_pos h0, payZeroAt1, zero_add, h0, zero_add, Finset.sum_range_one]
    · have hd : (n + 1) / 8 = n / 8 := by omega
      have hr : (n + 1) % 8 = n % 8 + 1 := by omega
      rw [if_neg h0, accAt1_apply c n (Nat.lt_of_succ_lt hn) p q, hr, Finset.sum_range_succ _ (n % 8 + 1), hd]

abbrev want1 (c : Dev nD) : Mat 8192 128 := spmm128 (aarr1 V c) (barr1 V c) (yarr1 V c) (zarr1 V c)

/-- Regrouping a finite sum needs only commutativity and associativity, which hold on the extended reals. -/
theorem sum_colTerm1 (c : Dev nD) (i : ℕ) (p : Fin 1024) (q : Fin 128) :
    ∑ s ∈ Finset.range 8, colTerm1 V c i s p q = spmmAt128 (aarr1 V c) (barr1 V c) (yarr1 V c) (zarr1 V c) (gidx i p) q := by
  unfold colTerm1 spmmAt128
  rw [Finset.sum_add_distrib]
  exact congrArg₂ (· + ·) (sum_gidx (fun j => aarr1 V c (ix2 (gidx i p) j) * yarr1 V c (ix2 j q)))
    (sum_gidx (fun j => barr1 V c (ix2 (gidx i p) j) * zarr1 V c (ix2 j q)))

theorem flushed1_eq (c : Dev nD) (t : Fin cfg1.N) (hf : (cfg1.win 4).flush t = true) :
    (dat1 V c).flushed 4 t = ((cfg1.win 4).blk t).view.read (Elt Ideal) (want1 V c) := by
  have h7 : t.val % 8 = 7 := (flush1_4 t).mp hf
  have ht := lt_grid1 t
  obtain ⟨-, -, -, -, -, -, -, -, e0, e1⟩ := idxFacts1 t
  show (cfg1.win 4).cut (grid1.coords t) ((dat1 V c).after 4 t) = _
  rw [after1_4, if_pos h7]
  funext j
  show accAt1 V c t.val t.isLt j = want1 V c (((cfg1.win 4).blk t).view.emb j)
  have hj0 : (j 0).val < 1024 := (j 0).isLt
  have ej : (j : S1024x128.Idx) = ix2 (⟨(j 0).val, hj0⟩ : Fin 1024) (j 1 : Fin 128) := by
    funext a
    match a with
    | ⟨0, _⟩ => rfl
    | ⟨1, _⟩ => rfl
  have ee : (((cfg1.win 4).blk t).view.emb j : S8192x128.Idx) = ix2 (gidx (t.val / 8) ⟨(j 0).val, hj0⟩) (j 1 : Fin 128) := by
    funext a
    apply Fin.ext
    match a with
    | ⟨0, _⟩ => show win1_4.index t (0 : Fin 2) * 1024 + 1 * (j 0).val = (1024 * (t.val / 8) + (j 0).val) % 8192; omega
    | ⟨1, _⟩ => show win1_4.index t (1 : Fin 2) * (128 : ℕ) + 1 * (j 1).val = (j 1).val; omega
  refine Eq.trans ?_ (congrArg (want1 V c) ee.symm)
  refine (congrArg (accAt1 V c t.val t.isLt) ej).trans ?_
  refine (accAt1_apply V c t.val t.isLt _ _).trans ?_
  rw [h7]
  exact sum_colTerm1 V c (t.val / 8) _ _

theorem mem_blk1 (t : Fin cfg1.N) (i : S8192x128.Idx) :
    i ∈ ((cfg1.win 4).blk t).view.set ↔ ∀ a : Fin 2, win1_4.index t a * S1024x128.size a ≤ (i a).val
      ∧ (i a).val < win1_4.index t a * S1024x128.size a + S1024x128.size a := by
  show i ∈ ((View.whole (Pipeline.arrRef spec1 4)).slice (win1_4.rect t)).set ↔ _
  rw [View.set_slice_whole, Rect.mem_set_unit]
  exact Iff.rfl

theorem cover1 (i : S8192x128.Idx) :
    ∃ t : Fin cfg1.N, (cfg1.win 4).flush t = true ∧ i ∈ ((cfg1.win 4).blk t).view.set := by
  have hi0 : (i 0).val < 8192 := (i 0).isLt
  have hi1 : (i 1).val < (128 : ℕ) := (i 1).isLt
  have hN : cfg1.N = 64 := N_1
  obtain ⟨t, hv⟩ : ∃ t : Fin cfg1.N, t.val = 8 * ((i 0).val / 1024) + 7 := ⟨⟨_, by omega⟩, rfl⟩
  obtain ⟨-, -, -, -, -, -, -, -, e0, e1⟩ := idxFacts1 t
  refine ⟨t, (flush1_4 t).mpr (by omega), ?_⟩
  rw [mem_blk1]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * (128 : ℕ) ≤ (i 1).val ∧ (i 1).val < win1_4.index t (1 : Fin 2) * (128 : ℕ) + (128 : ℕ); omega

theorem result1 (c : Dev nD) :
    ((dat1 (F := Ideal) V c).arrAt 4 cfg1.N : S8192x128.Idx → EReal)
      = spmm128 (V c main_arg0) (V c main_arg1) (V c main_v32) (V c main_v34) :=
  (dat1 V c).arrAt_eq_of_cover 4 (want1 V c) (fun t hf => flushed1_eq V c t hf) cover1

end Cert.KernelIdeal.Spmm1

end
-- ==== Proof.KI.R2.Value.lean ====
import proofs.«165102_j58428735095548_1_alg».proof.Proof.KI.R2.Data
import Idealize.ShloMosaic.Lib.ValueIdx
import Idealize.ShloMosaic.PureOps.Ideal.Laws

set_option maxRecDepth 16384

noncomputable section

namespace Cert.KernelIdeal.Spmm2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open ValueIdx Cert.Spec

theorem dotLhsRow2 (i : S1024x128.Idx) (r : dot_S1024x1024_S1024x128_S1024x128_1_0_0_1_n_n.contr.Idx) :
    (dot_S1024x1024_S1024x128_S1024x128_1_0_0_1_n_n.lhsIdx i r 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem dotLhsCol2 (i : S1024x128.Idx) (r : dot_S1024x1024_S1024x128_S1024x128_1_0_0_1_n_n.contr.Idx) :
    (dot_S1024x1024_S1024x128_S1024x128_1_0_0_1_n_n.lhsIdx i r 1).val = (r ⟨0, by decide⟩).val :=
  dot_S1024x1024_S1024x128_S1024x128_1_0_0_1_n_n.lhsIdx_val_of_single rfl i r
theorem dotRhsRow2 (i : S1024x128.Idx) (r : dot_S1024x1024_S1024x128_S1024x128_1_0_0_1_n_n.contr.Idx) :
    (dot_S1024x1024_S1024x128_S1024x128_1_0_0_1_n_n.rhsIdx i r 0).val = (r ⟨0, by decide⟩).val :=
  dot_S1024x1024_S1024x128_S1024x128_1_0_0_1_n_n.rhsIdx_val_of_single rfl i r
theorem dotRhsCol2 (i : S1024x128.Idx) (r : dot_S1024x1024_S1024x128_S1024x128_1_0_0_1_n_n.contr.Idx) :
    (dot_S1024x1024_S1024x128_S1024x128_1_0_0_1_n_n.rhsIdx i r 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

theorem matmulAt2 (l : FVec Ideal S1024x1024 .bf16) (r : FVec Ideal S1024x128 .bf16) (p : Fin 1024) (q : Fin 128) :
    matmul (F := Ideal) dot_S1024x1024_S1024x128_S1024x128_1_0_0_1_n_n none l r (constant S1024x128 .f32 0x00000000#32) (ix2 p q)
      = ∑ k : Fin 1024, l (ix2 p k) * r (ix2 k q) := by
  refine (Ideal.matmul_constant_zero_apply dot_S1024x1024_S1024x128_S1024x128_1_0_0_1_n_n none l r (ix2 p q)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun a => Fin.ext (by
    match a with
    | ⟨0, _⟩ => exact dotLhsRow2 _ _
    | ⟨1, _⟩ => exact (dotLhsCol2 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun a => Fin.ext (by
    match a with
    | ⟨0, _⟩ => exact (dotRhsRow2 _ _).trans hk
    | ⟨1, _⟩ => exact dotRhsCol2 _ _)
  rw [el, er]

theorem payZeroAt2 (p : Fin 1024) (q : Fin 128) : (k2_pay1 (F := Ideal)) (ix2 p q) = 0 := by
  unfold k2_pay1
  simp only [shapeCast_self]
  exact Ideal.ofBits_zero_f32

theorem payFstAt2 (x0 : FVec Ideal S1024x1024 .f32) (x2 xa : FVec Ideal S1024x128 .f32) (p : Fin 1024) (q : Fin 128) :
    k2_pay2 (F := Ideal) x0 x2 xa (ix2 p q) = xa (ix2 p q) + ∑ k : Fin 1024, x0 (ix2 p k) * x2 (ix2 k q) := by
  unfold k2_pay2
  simp only [shapeCast_self]
  exact congrArg (xa (ix2 p q) + ·) (matmulAt2 _ _ p q)

theorem paySndAt2 (x1 : FVec Ideal S1024x1024 .f32) (x3 xa : FVec Ideal S1024x128 .f32) (p : Fin 1024) (q : Fin 128) :
    k2_pay3 (F := Ideal) x1 x3 xa (ix2 p q) = xa (ix2 p q) + ∑ k : Fin 1024, x1 (ix2 p k) * x3 (ix2 k q) := by
  unfold k2_pay3
  simp only [shapeCast_self]
  exact congrArg (xa (ix2 p q) + ·) (matmulAt2 _ _ p q)

/-- One point's update at an entry: both partial products added. -/
theorem upd2_apply (x0 x1 : FVec Ideal S1024x1024 .f32) (x2 x3 xa : FVec Ideal S1024x128 .f32) (p : Fin 1024) (q : Fin 128) :
    upd2 (F := Ideal) x0 x1 x2 x3 xa (ix2 p q)
      = xa (ix2 p q) + ((∑ k : Fin 1024, x0 (ix2 p k) * x2 (ix2 k q)) + ∑ k : Fin 1024, x1 (ix2 p k) * x3 (ix2 k q)) := by
  unfold upd2
  rw [paySndAt2, payFstAt2, add_assoc]

variable (V : (c : Dev nD) → (b : Ref sig .tc) → Buf (Elt Ideal) ((c : Thread nD τ).loc b))

abbrev aarr2 (c : Dev nD) : Mat 8192 8192 := V c (Pipeline.arrRef spec2 0)
abbrev barr2 (c : Dev nD) : Mat 8192 8192 := V c (Pipeline.arrRef spec2 1)
abbrev yarr2 (c : Dev nD) : Mat 8192 128 := V c (Pipeline.arrRef spec2 2)
abbrev zarr2 (c : Dev nD) : Mat 8192 128 := V c (Pipeline.arrRef spec2 3)

abbrev ablk2 (c : Dev nD) (t : Fin cfg2.N) : FVec Ideal S1024x1024 .f32 := blk2 V c 0 t
abbrev bblk2 (c : Dev nD) (t : Fin cfg2.N) : FVec Ideal S1024x1024 .f32 := blk2 V c 1 t
abbrev yblk2 (c : Dev nD) (t : Fin cfg2.N) : FVec Ideal S1024x128 .f32 := blk2 V c 2 t
abbrev zblk2 (c : Dev nD) (t : Fin cfg2.N) : FVec Ideal S1024x128 .f32 := blk2 V c 3 t

theorem idxFacts2 : ∀ t : Fin cfg2.N,
    win2_0.index t (0 : Fin 2) = t.val / 8 ∧ win2_0.index t (1 : Fin 2) = t.val % 8
    ∧ win2_1.index t (0 : Fin 2) = t.val / 8 ∧ win2_1.index t (1 : Fin 2) = t.val % 8
    ∧ win2_2.index t (0 : Fin 2) = t.val % 8 ∧ win2_2.index t (1 : Fin 2) = 0
    ∧ win2_3.index t (0 : Fin 2) = t.val % 8 ∧ win2_3.index t (1 : Fin 2) = 0
    ∧ win2_4.index t (0 : Fin 2) = t.val / 8 ∧ win2_4.index t (1 : Fin 2) = 0 :=
  (by decide +kernel : ∀ t : Fin grid2.N, _)

theorem lt_grid2 (t : Fin cfg2.N) : t.val < 64 := lt_of_lt_of_eq t.isLt N_2

theorem ablk2_apply (c : Dev nD) (t : Fin cfg2.N) (p k : Fin 1024) :
    ablk2 V c t (ix2 p k) = aarr2 V c (ix2 (gidx (t.val / 8) p) (gidx (t.val % 8) k)) := by
  have ht := lt_grid2 t
  have hp := p.isLt
  have hk := k.isLt
  obtain ⟨e0, e1, -⟩ := idxFacts2 t
  show V c (Pipeline.arrRef spec2 0) (((cfg2.win 0).blk t).view.emb (ix2 p k)) = V c (Pipeline.arrRef spec2 0) _
  congr 1
  funext a
  apply Fin.ext
  match a with
  | ⟨0, _⟩ => show win2_0.index t (0 : Fin 2) * 1024 + 1 * p.val = (1024 * (t.val / 8) + p.val) % 8192; omega
  | ⟨1, _⟩ => show win2_0.index t (1 : Fin 2) * 1024 + 1 * k.val = (1024 * (t.val % 8) + k.val) % 8192; omega

theorem bblk2_apply (c : Dev nD) (t : Fin cfg2.N) (p k : Fin 1024) :
    bblk2 V c t (ix2 p k) = barr2 V c (ix2 (gidx (t.val / 8) p) (gidx (t.val % 8) k)) := by
  have ht := lt_grid2 t
  have hp := p.isLt
  have hk := k.isLt
  obtain ⟨-, -, e0, e1, -⟩ := idxFacts2 t
  show V c (Pipeline.arrRef spec2 1) (((cfg2.win 1).blk t).view.emb (ix2 p k)) = V c (Pipeline.arrRef spec2 1) _
  congr 1
  funext a
  apply Fin.ext
  match a with
  | ⟨0, _⟩ => show win2_1.index t (0 : Fin 2) * 1024 + 1 * p.val = (1024 * (t.val / 8) + p.val) % 8192; omega
  | ⟨1, _⟩ => show win2_1.index t (1 : Fin 2) * 1024 + 1 * k.val = (1024 * (t.val % 8) + k.val) % 8192; omega

theorem yblk2_apply (c : Dev nD) (t : Fin cfg2.N) (k : Fin 1024) (q : Fin 128) :
    yblk2 V c t (ix2 k q) = yarr2 V c (ix2 (gidx (t.val % 8) k) q) := by
  have ht := lt_grid2 t
  have hk := k.isLt
  obtain ⟨-, -, -, -, e0, e1, -⟩ := idxFacts2 t
  show V c (Pipeline.arrRef spec2 2) (((cfg2.win 2).blk t).view.emb (ix2 k q)) = V c (Pipeline.arrRef spec2 2) _
  congr 1
  funext a
  apply Fin.ext
  match a with
  | ⟨0, _⟩ => show win2_2.index t (0 : Fin 2) * 1024 + 1 * k.val = (1024 * (t.val % 8) + k.val) % 8192; omega
  | ⟨1, _⟩ => show win2_2.index t (1 : Fin 2) * (128 : ℕ) + 1 * q.val = q.val; omega

theorem zblk2_apply (c : Dev nD) (t : Fin cfg2.N) (k : Fin 1024) (q : Fin 128) :
    zblk2 V c t (ix2 k q) = zarr2 V c (ix2 (gidx (t.val % 8) k) q) := by
  have ht := lt_grid2 t
  have hk := k.isLt
  obtain ⟨-, -, -, -, -, -, e0, e1, -⟩ := idxFacts2 t
  show V c (Pipeline.arrRef spec2 3) (((cfg2.win 3).blk t).view.emb (ix2 k q)) = V c (Pipeline.arrRef spec2 3) _
  congr 1
  funext a
  apply Fin.ext
  match a with
  | ⟨0, _⟩ => show win2_3.index t (0 : Fin 2) * 1024 + 1 * k.val = (1024 * (t.val % 8) + k.val) % 8192; omega
  | ⟨1, _⟩ => show win2_3.index t (1 : Fin 2) * (128 : ℕ) + 1 * q.val = q.val; omega

/-- Column block s's share of entry (p, q) of row block i. -/
def colTerm2 (c : Dev nD) (i s : ℕ) (p : Fin 1024) (q : Fin 128) : EReal :=
  (∑ k : Fin 1024, aarr2 V c (ix2 (gidx i p) (gidx s k)) * yarr2 V c (ix2 (gidx s k) q))
    + ∑ k : Fin 1024, barr2 V c (ix2 (gidx i p) (gidx s k)) * zarr2 V c (ix2 (gidx s k) q)

theorem updAt2_apply (c : Dev nD) (t : Fin cfg2.N) (xa : FVec Ideal S1024x128 .f32) (p : Fin 1024) (q : Fin 128) :
    updAt2 V c t xa (ix2 p q) = xa (ix2 p q) + colTerm2 V c (t.val / 8) (t.val % 8) p q := by
  refine (upd2_apply (ablk2 V c t) (bblk2 V c t) (yblk2 V c t) (zblk2 V c t) xa p q).trans ?_
  unfold colTerm2
  exact congrArg (xa (ix2 p q) + ·) (congrArg₂ (· + ·) (Finset.sum_congr rfl fun k _ => by rw [ablk2_apply, yblk2_apply])
    (Finset.sum_congr rfl fun k _ => by rw [bblk2_apply, zblk2_apply]))

/-- By induction on the point: within a row the shares accumulate in order. -/
theorem accAt2_apply (c : Dev nD) : ∀ (n : ℕ) (hn : n < cfg2.N) (p : Fin 1024) (q : Fin 128),
    accAt2 V c n hn (ix2 p q) = ∑ s ∈ Finset.range (n % 8 + 1), colTerm2 V c (n / 8) s p q
  | 0, hn, p, q => by
    refine (updAt2_apply V c ⟨0, hn⟩ _ p q).trans ?_
    rw [payZeroAt2, zero_add]
    show colTerm2 V c (0 / 8) 0 p q = ∑ s ∈ Finset.range 1, colTerm2 V c (0 / 8) s p q
    rw [Finset.sum_range_one]
  | n + 1, hn, p, q => by
    refine (updAt2_apply V c ⟨n + 1, hn⟩ _ p q).trans ?_
    show (if (n + 1) % 8 = 0 then k2_pay1 else accAt2 V c n (Nat.lt_of_succ_lt hn)) (ix2 p q)
      + colTerm2 V c ((n + 1) / 8) ((n + 1) % 8) p q = _
    by_cases h0 : (n + 1) % 8 = 0
    · rw [if_pos h0, payZeroAt2, zero_add, h0, zero_add, Finset.sum_range_one]
    · have hd : (n + 1) / 8 = n / 8 := by omega
      have hr : (n + 1) % 8 = n % 8 + 1 := by omega
      rw [if_neg h0, accAt2_apply c n (Nat.lt_of_succ_lt hn) p q, hr, Finset.sum_range_succ _ (n % 8 + 1), hd]

abbrev want2 (c : Dev nD) : Mat 8192 128 := spmm128 (aarr2 V c) (barr2 V c) (yarr2 V c) (zarr2 V c)

/-- Regrouping a finite sum needs only commutativity and associativity, which hold on the extended reals. -/
theorem sum_colTerm2 (c : Dev nD) (i : ℕ) (p : Fin 1024) (q : Fin 128) :
    ∑ s ∈ Finset.range 8, colTerm2 V c i s p q = spmmAt128 (aarr2 V c) (barr2 V c) (yarr2 V c) (zarr2 V c) (gidx i p) q := by
  unfold colTerm2 spmmAt128
  rw [Finset.sum_add_distrib]
  exact congrArg₂ (· + ·) (sum_gidx (fun j => aarr2 V c (ix2 (gidx i p) j) * yarr2 V c (ix2 j q)))
    (sum_gidx (fun j => barr2 V c (ix2 (gidx i p) j) * zarr2 V c (ix2 j q)))

theorem flushed2_eq (c : Dev nD) (t : Fin cfg2.N) (hf : (cfg2.win 4).flush t = true) :
    (dat2 V c).flushed 4 t = ((cfg2.win 4).blk t).view.read (Elt Ideal) (want2 V c) := by
  have h7 : t.val % 8 = 7 := (flush2_4 t).mp hf
  have ht := lt_grid2 t
  obtain ⟨-, -, -, -, -, -, -, -, e0, e1⟩ := idxFacts2 t
  show (cfg2.win 4).cut (grid2.coords t) ((dat2 V c).after 4 t) = _
  rw [after2_4, if_pos h7]
  funext j
  show accAt2 V c t.val t.isLt j = want2 V c (((cfg2.win 4).blk t).view.emb j)
  have hj0 : (j 0).val < 1024 := (j 0).isLt
  have ej : (j : S1024x128.Idx) = ix2 (⟨(j 0).val, hj0⟩ : Fin 1024) (j 1 : Fin 128) := by
    funext a
    match a with
    | ⟨0, _⟩ => rfl
    | ⟨1, _⟩ => rfl
  have ee : (((cfg2.win 4).blk t).view.emb j : S8192x128.Idx) = ix2 (gidx (t.val / 8) ⟨(j 0).val, hj0⟩) (j 1 : Fin 128) := by
    funext a
    apply Fin.ext
    match a with
    | ⟨0, _⟩ => show win2_4.index t (0 : Fin 2) * 1024 + 1 * (j 0).val = (1024 * (t.val / 8) + (j 0).val) % 8192; omega
    | ⟨1, _⟩ => show win2_4.index t (1 : Fin 2) * (128 : ℕ) + 1 * (j 1).val = (j 1).val; omega
  refine Eq.trans ?_ (congrArg (want2 V c) ee.symm)
  refine (congrArg (accAt2 V c t.val t.isLt) ej).trans ?_
  refine (accAt2_apply V c t.val t.isLt _ _).trans ?_
  rw [h7]
  exact sum_colTerm2 V c (t.val / 8) _ _

theorem mem_blk2 (t : Fin cfg2.N) (i : S8192x128.Idx) :
    i ∈ ((cfg2.win 4).blk t).view.set ↔ ∀ a : Fin 2, win2_4.index t a * S1024x128.size a ≤ (i a).val
      ∧ (i a).val < win2_4.index t a * S1024x128.size a + S1024x128.size a := by
  show i ∈ ((View.whole (Pipeline.arrRef spec2 4)).slice (win2_4.rect t)).set ↔ _
  rw [View.set_slice_whole, Rect.mem_set_unit]
  exact Iff.rfl

theorem cover2 (i : S8192x128.Idx) :
    ∃ t : Fin cfg2.N, (cfg2.win 4).flush t = true ∧ i ∈ ((cfg2.win 4).blk t).view.set := by
  have hi0 : (i 0).val < 8192 := (i 0).isLt
  have hi1 : (i 1).val < (128 : ℕ) := (i 1).isLt
  have hN : cfg2.N = 64 := N_2
  obtain ⟨t, hv⟩ : ∃ t : Fin cfg2.N, t.val = 8 * ((i 0).val / 1024) + 7 := ⟨⟨_, by omega⟩, rfl⟩
  obtain ⟨-, -, -, -, -, -, -, -, e0, e1⟩ := idxFacts2 t
  refine ⟨t, (flush2_4 t).mpr (by omega), ?_⟩
  rw [mem_blk2]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * (128 : ℕ) ≤ (i 1).val ∧ (i 1).val < win2_4.index t (1 : Fin 2) * (128 : ℕ) + (128 : ℕ); omega

theorem result2 (c : Dev nD) :
    ((dat2 (F := Ideal) V c).arrAt 4 cfg2.N : S8192x128.Idx → EReal)
      = spmm128 (V c main_arg0) (V c main_arg1) (V c main_v42) (V c main_v44) :=
  (dat2 V c).arrAt_eq_of_cover 4 (want2 V c) (fun t hf => flushed2_eq V c t hf) cover2

end Cert.KernelIdeal.Spmm2

end
-- ==== Proof.KI.R3.Value.lean ====
import proofs.«165102_j58428735095548_1_alg».proof.Proof.KI.R3.Data
import Idealize.ShloMosaic.Lib.ValueIdx
import Idealize.ShloMosaic.PureOps.Ideal.Laws

set_option maxRecDepth 16384

noncomputable section

namespace Cert.KernelIdeal.Spmm3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open ValueIdx Cert.Spec

theorem dotLhsRow3 (i : S1024x16.Idx) (r : dot_S1024x1024_S1024x16_S1024x16_1_0_0_1_n_n.contr.Idx) :
    (dot_S1024x1024_S1024x16_S1024x16_1_0_0_1_n_n.lhsIdx i r 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem dotLhsCol3 (i : S1024x16.Idx) (r : dot_S1024x1024_S1024x16_S1024x16_1_0_0_1_n_n.contr.Idx) :
    (dot_S1024x1024_S1024x16_S1024x16_1_0_0_1_n_n.lhsIdx i r 1).val = (r ⟨0, by decide⟩).val :=
  dot_S1024x1024_S1024x16_S1024x16_1_0_0_1_n_n.lhsIdx_val_of_single rfl i r
theorem dotRhsRow3 (i : S1024x16.Idx) (r : dot_S1024x1024_S1024x16_S1024x16_1_0_0_1_n_n.contr.Idx) :
    (dot_S1024x1024_S1024x16_S1024x16_1_0_0_1_n_n.rhsIdx i r 0).val = (r ⟨0, by decide⟩).val :=
  dot_S1024x1024_S1024x16_S1024x16_1_0_0_1_n_n.rhsIdx_val_of_single rfl i r
theorem dotRhsCol3 (i : S1024x16.Idx) (r : dot_S1024x1024_S1024x16_S1024x16_1_0_0_1_n_n.contr.Idx) :
    (dot_S1024x1024_S1024x16_S1024x16_1_0_0_1_n_n.rhsIdx i r 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

theorem matmulAt3 (l : FVec Ideal S1024x1024 .bf16) (r : FVec Ideal S1024x16 .bf16) (p : Fin 1024) (q : Fin 16) :
    matmul (F := Ideal) dot_S1024x1024_S1024x16_S1024x16_1_0_0_1_n_n none l r (constant S1024x16 .f32 0x00000000#32) (ix2 p q)
      = ∑ k : Fin 1024, l (ix2 p k) * r (ix2 k q) := by
  refine (Ideal.matmul_constant_zero_apply dot_S1024x1024_S1024x16_S1024x16_1_0_0_1_n_n none l r (ix2 p q)).trans ?_
  rw [← Equiv.sum_comp (contrEquiv1 dot_S1024x1024_S1024x16_S1024x16_1_0_0_1_n_n 1024 rfl rfl).symm]
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 p q) ((contrEquiv1 dot_S1024x1024_S1024x16_S1024x16_1_0_0_1_n_n 1024 rfl rfl).symm k) = ix2 p k := funext fun a => Fin.ext (by
    match a with
    | ⟨0, _⟩ => exact dotLhsRow3 _ _
    | ⟨1, _⟩ => exact (dotLhsCol3 _ _).trans hk)
  have er : dot_S1024x1024_S1024x16_S1024x16_1_0_0_1_n_n.rhsIdx (ix2 p q) ((contrEquiv1 dot_S1024x1024_S1024x16_S1024x16_1_0_0_1_n_n 1024 rfl rfl).symm k) = ix2 k q := funext fun a => Fin.ext (by
    match a with
    | ⟨0, _⟩ => exact (dotRhsRow3 _ _).trans hk
    | ⟨1, _⟩ => exact dotRhsCol3 _ _)
  rw [el, er]

theorem payZeroAt3 (p : Fin 1024) (q : Fin 16) : (k3_pay1 (F := Ideal)) (ix2 p q) = 0 := by
  unfold k3_pay1
  simp only [shapeCast_self]
  exact Ideal.ofBits_zero_f32

theorem payFstAt3 (x0 : FVec Ideal S1024x1024 .f32) (x2 xa : FVec Ideal S1024x16 .f32) (p : Fin 1024) (q : Fin 16) :
    k3_pay2 (F := Ideal) x0 x2 xa (ix2 p q) = xa (ix2 p q) + ∑ k : Fin 1024, x0 (ix2 p k) * x2 (ix2 k q) := by
  unfold k3_pay2
  simp only [shapeCast_self]
  exact congrArg (xa (ix2 p q) + ·) (matmulAt3 _ _ p q)

theorem paySndAt3 (x1 : FVec Ideal S1024x1024 .f32) (x3 xa : FVec Ideal S1024x16 .f32) (p : Fin 1024) (q : Fin 16) :
    k3_pay3 (F := Ideal) x1 x3 xa (ix2 p q) = xa (ix2 p q) + ∑ k : Fin 1024, x1 (ix2 p k) * x3 (ix2 k q) := by
  unfold k3_pay3
  simp only [shapeCast_self]
  exact congrArg (xa (ix2 p q) + ·) (matmulAt3 _ _ p q)

/-- One point's update at an entry: both partial products added. -/
theorem upd3_apply (x0 x1 : FVec Ideal S1024x1024 .f32) (x2 x3 xa : FVec Ideal S1024x16 .f32) (p : Fin 1024) (q : Fin 16) :
    upd3 (F := Ideal) x0 x1 x2 x3 xa (ix2 p q)
      = xa (ix2 p q) + ((∑ k : Fin 1024, x0 (ix2 p k) * x2 (ix2 k q)) + ∑ k : Fin 1024, x1 (ix2 p k) * x3 (ix2 k q)) := by
  unfold upd3
  rw [paySndAt3, payFstAt3, add_assoc]

variable (V : (c : Dev nD) → (b : Ref sig .tc) → Buf (Elt Ideal) ((c : Thread nD τ).loc b))

abbrev aarr3 (c : Dev nD) : Mat 8192 8192 := V c (Pipeline.arrRef spec3 0)
abbrev barr3 (c : Dev nD) : Mat 8192 8192 := V c (Pipeline.arrRef spec3 1)
abbrev yarr3 (c : Dev nD) : Mat 8192 16 := V c (Pipeline.arrRef spec3 2)
abbrev zarr3 (c : Dev nD) : Mat 8192 16 := V c (Pipeline.arrRef spec3 3)

abbrev ablk3 (c : Dev nD) (t : Fin cfg3.N) : FVec Ideal S1024x1024 .f32 := blk3 V c 0 t
abbrev bblk3 (c : Dev nD) (t : Fin cfg3.N) : FVec Ideal S1024x1024 .f32 := blk3 V c 1 t
abbrev yblk3 (c : Dev nD) (t : Fin cfg3.N) : FVec Ideal S1024x16 .f32 := blk3 V c 2 t
abbrev zblk3 (c : Dev nD) (t : Fin cfg3.N) : FVec Ideal S1024x16 .f32 := blk3 V c 3 t

theorem idxFacts3 : ∀ t : Fin cfg3.N,
    win3_0.index t (0 : Fin 2) = t.val / 8 ∧ win3_0.index t (1 : Fin 2) = t.val % 8
    ∧ win3_1.index t (0 : Fin 2) = t.val / 8 ∧ win3_1.index t (1 : Fin 2) = t.val % 8
    ∧ win3_2.index t (0 : Fin 2) = t.val % 8 ∧ win3_2.index t (1 : Fin 2) = 0
    ∧ win3_3.index t (0 : Fin 2) = t.val % 8 ∧ win3_3.index t (1 : Fin 2) = 0
    ∧ win3_4.index t (0 : Fin 2) = t.val / 8 ∧ win3_4.index t (1 : Fin 2) = 0 :=
  (by decide +kernel : ∀ t : Fin grid3.N, _)

theorem lt_grid3 (t : Fin cfg3.N) : t.val < 64 := lt_of_lt_of_eq t.isLt N_3

theorem ablk3_apply (c : Dev nD) (t : Fin cfg3.N) (p k : Fin 1024) :
    ablk3 V c t (ix2 p k) = aarr3 V c (ix2 (gidx (t.val / 8) p) (gidx (t.val % 8) k)) := by
  have ht := lt_grid3 t
  have hp := p.isLt
  have hk := k.isLt
  obtain ⟨e0, e1, -⟩ := idxFacts3 t
  show V c (Pipeline.arrRef spec3 0) (((cfg3.win 0).blk t).view.emb (ix2 p k)) = V c (Pipeline.arrRef spec3 0) _
  congr 1
  funext a
  apply Fin.ext
  match a with
  | ⟨0, _⟩ => show win3_0.index t (0 : Fin 2) * 1024 + 1 * p.val = (1024 * (t.val / 8) + p.val) % 8192; omega
  | ⟨1, _⟩ => show win3_0.index t (1 : Fin 2) * 1024 + 1 * k.val = (1024 * (t.val % 8) + k.val) % 8192; omega

theorem bblk3_apply (c : Dev nD) (t : Fin cfg3.N) (p k : Fin 1024) :
    bblk3 V c t (ix2 p k) = barr3 V c (ix2 (gidx (t.val / 8) p) (gidx (t.val % 8) k)) := by
  have ht := lt_grid3 t
  have hp := p.isLt
  have hk := k.isLt
  obtain ⟨-, -, e0, e1, -⟩ := idxFacts3 t
  show V c (Pipeline.arrRef spec3 1) (((cfg3.win 1).blk t).view.emb (ix2 p k)) = V c (Pipeline.arrRef spec3 1) _
  congr 1
  funext a
  apply Fin.ext
  match a with
  | ⟨0, _⟩ => show win3_1.index t (0 : Fin 2) * 1024 + 1 * p.val = (1024 * (t.val / 8) + p.val) % 8192; omega
  | ⟨1, _⟩ => show win3_1.index t (1 : Fin 2) * 1024 + 1 * k.val = (1024 * (t.val % 8) + k.val) % 8192; omega

theorem yblk3_apply (c : Dev nD) (t : Fin cfg3.N) (k : Fin 1024) (q : Fin 16) :
    yblk3 V c t (ix2 k q) = yarr3 V c (ix2 (gidx (t.val % 8) k) q) := by
  have ht := lt_grid3 t
  have hk := k.isLt
  obtain ⟨-, -, -, -, e0, e1, -⟩ := idxFacts3 t
  show V c (Pipeline.arrRef spec3 2) (((cfg3.win 2).blk t).view.emb (ix2 k q)) = V c (Pipeline.arrRef spec3 2) _
  congr 1
  funext a
  apply Fin.ext
  match a with
  | ⟨0, _⟩ => show win3_2.index t (0 : Fin 2) * 1024 + 1 * k.val = (1024 * (t.val % 8) + k.val) % 8192; omega
  | ⟨1, _⟩ => show win3_2.index t (1 : Fin 2) * (16 : ℕ) + 1 * q.val = q.val; omega

theorem zblk3_apply (c : Dev nD) (t : Fin cfg3.N) (k : Fin 1024) (q : Fin 16) :
    zblk3 V c t (ix2 k q) = zarr3 V c (ix2 (gidx (t.val % 8) k) q) := by
  have ht := lt_grid3 t
  have hk := k.isLt
  obtain ⟨-, -, -, -, -, -, e0, e1, -⟩ := idxFacts3 t
  show V c (Pipeline.arrRef spec3 3) (((cfg3.win 3).blk t).view.emb (ix2 k q)) = V c (Pipeline.arrRef spec3 3) _
  congr 1
  funext a
  apply Fin.ext
  match a with
  | ⟨0, _⟩ => show win3_3.index t (0 : Fin 2) * 1024 + 1 * k.val = (1024 * (t.val % 8) + k.val) % 8192; omega
  | ⟨1, _⟩ => show win3_3.index t (1 : Fin 2) * (16 : ℕ) + 1 * q.val = q.val; omega

/-- Column block s's share of entry (p, q) of row block i. -/
def colTerm3 (c : Dev nD) (i s : ℕ) (p : Fin 1024) (q : Fin 16) : EReal :=
  (∑ k : Fin 1024, aarr3 V c (ix2 (gidx i p) (gidx s k)) * yarr3 V c (ix2 (gidx s k) q))
    + ∑ k : Fin 1024, barr3 V c (ix2 (gidx i p) (gidx s k)) * zarr3 V c (ix2 (gidx s k) q)

theorem updAt3_apply (c : Dev nD) (t : Fin cfg3.N) (xa : FVec Ideal S1024x16 .f32) (p : Fin 1024) (q : Fin 16) :
    updAt3 V c t xa (ix2 p q) = xa (ix2 p q) + colTerm3 V c (t.val / 8) (t.val % 8) p q := by
  refine (upd3_apply (ablk3 V c t) (bblk3 V c t) (yblk3 V c t) (zblk3 V c t) xa p q).trans ?_
  unfold colTerm3
  exact congrArg (xa (ix2 p q) + ·) (congrArg₂ (· + ·) (Finset.sum_congr rfl fun k _ => by rw [ablk3_apply, yblk3_apply])
    (Finset.sum_congr rfl fun k _ => by rw [bblk3_apply, zblk3_apply]))

/-- By induction on the point: within a row the shares accumulate in order. -/
theorem accAt3_apply (c : Dev nD) : ∀ (n : ℕ) (hn : n < cfg3.N) (p : Fin 1024) (q : Fin 16),
    accAt3 V c n hn (ix2 p q) = ∑ s ∈ Finset.range (n % 8 + 1), colTerm3 V c (n / 8) s p q
  | 0, hn, p, q => by
    refine (updAt3_apply V c ⟨0, hn⟩ _ p q).trans ?_
    rw [payZeroAt3, zero_add]
    show colTerm3 V c (0 / 8) 0 p q = ∑ s ∈ Finset.range 1, colTerm3 V c (0 / 8) s p q
    rw [Finset.sum_range_one]
  | n + 1, hn, p, q => by
    refine (updAt3_apply V c ⟨n + 1, hn⟩ _ p q).trans ?_
    show (if (n + 1) % 8 = 0 then k3_pay1 else accAt3 V c n (Nat.lt_of_succ_lt hn)) (ix2 p q)
      + colTerm3 V c ((n + 1) / 8) ((n + 1) % 8) p q = _
    by_cases h0 : (n + 1) % 8 = 0
    · rw [if_pos h0, payZeroAt3, zero_add, h0, zero_add, Finset.sum_range_one]
    · have hd : (n + 1) / 8 = n / 8 := by omega
      have hr : (n + 1) % 8 = n % 8 + 1 := by omega
      rw [if_neg h0, accAt3_apply c n (Nat.lt_of_succ_lt hn) p q, hr, Finset.sum_range_succ _ (n % 8 + 1), hd]

abbrev want3 (c : Dev nD) : Mat 8192 16 := spmm16 (aarr3 V c) (barr3 V c) (yarr3 V c) (zarr3 V c)

/-- Regrouping a finite sum needs only commutativity and associativity, which hold on the extended reals. -/
theorem sum_colTerm3 (c : Dev nD) (i : ℕ) (p : Fin 1024) (q : Fin 16) :
    ∑ s ∈ Finset.range 8, colTerm3 V c i s p q = spmmAt16 (aarr3 V c) (barr3 V c) (yarr3 V c) (zarr3 V c) (gidx i p) q := by
  unfold colTerm3 spmmAt16
  rw [Finset.sum_add_distrib]
  exact congrArg₂ (· + ·) (sum_gidx (fun j => aarr3 V c (ix2 (gidx i p) j) * yarr3 V c (ix2 j q)))
    (sum_gidx (fun j => barr3 V c (ix2 (gidx i p) j) * zarr3 V c (ix2 j q)))

theorem flushed3_eq (c : Dev nD) (t : Fin cfg3.N) (hf : (cfg3.win 4).flush t = true) :
    (dat3 V c).flushed 4 t = ((cfg3.win 4).blk t).view.read (Elt Ideal) (want3 V c) := by
  have h7 : t.val % 8 = 7 := (flush3_4 t).mp hf
  have ht := lt_grid3 t
  obtain ⟨-, -, -, -, -, -, -, -, e0, e1⟩ := idxFacts3 t
  show (cfg3.win 4).cut (grid3.coords t) ((dat3 V c).after 4 t) = _
  rw [after3_4, if_pos h7]
  funext j
  show accAt3 V c t.val t.isLt j = want3 V c (((cfg3.win 4).blk t).view.emb j)
  have hj0 : (j 0).val < 1024 := (j 0).isLt
  have ej : (j : S1024x16.Idx) = ix2 (⟨(j 0).val, hj0⟩ : Fin 1024) (j 1 : Fin 16) := by
    funext a
    match a with
    | ⟨0, _⟩ => rfl
    | ⟨1, _⟩ => rfl
  have ee : (((cfg3.win 4).blk t).view.emb j : S8192x16.Idx) = ix2 (gidx (t.val / 8) ⟨(j 0).val, hj0⟩) (j 1 : Fin 16) := by
    funext a
    apply Fin.ext
    match a with
    | ⟨0, _⟩ => show win3_4.index t (0 : Fin 2) * 1024 + 1 * (j 0).val = (1024 * (t.val / 8) + (j 0).val) % 8192; omega
    | ⟨1, _⟩ => show win3_4.index t (1 : Fin 2) * (16 : ℕ) + 1 * (j 1).val = (j 1).val; omega
  refine Eq.trans ?_ (congrArg (want3 V c) ee.symm)
  refine (congrArg (accAt3 V c t.val t.isLt) ej).trans ?_
  refine (accAt3_apply V c t.val t.isLt _ _).trans ?_
  rw [h7]
  exact sum_colTerm3 V c (t.val / 8) _ _

theorem mem_blk3 (t : Fin cfg3.N) (i : S8192x16.Idx) :
    i ∈ ((cfg3.win 4).blk t).view.set ↔ ∀ a : Fin 2, win3_4.index t a * S1024x16.size a ≤ (i a).val
      ∧ (i a).val < win3_4.index t a * S1024x16.size a + S1024x16.size a := by
  show i ∈ ((View.whole (Pipeline.arrRef spec3 4)).slice (win3_4.rect t)).set ↔ _
  rw [View.set_slice_whole, Rect.mem_set_unit]
  exact Iff.rfl

theorem cover3 (i : S8192x16.Idx) :
    ∃ t : Fin cfg3.N, (cfg3.win 4).flush t = true ∧ i ∈ ((cfg3.win 4).blk t).view.set := by
  have hi0 : (i 0).val < 8192 := (i 0).isLt
  have hi1 : (i 1).val < (16 : ℕ) := (i 1).isLt
  have hN : cfg3.N = 64 := N_3
  obtain ⟨t, hv⟩ : ∃ t : Fin cfg3.N, t.val = 8 * ((i 0).val / 1024) + 7 := ⟨⟨_, by omega⟩, rfl⟩
  obtain ⟨-, -, -, -, -, -, -, -, e0, e1⟩ := idxFacts3 t
  refine ⟨t, (flush3_4 t).mpr (by omega), ?_⟩
  rw [mem_blk3]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * (16 : ℕ) ≤ (i 1).val ∧ (i 1).val < win3_4.index t (1 : Fin 2) * (16 : ℕ) + (16 : ℕ); omega

theorem result3 (c : Dev nD) :
    ((dat3 (F := Ideal) V c).arrAt 4 cfg3.N : S8192x16.Idx → EReal)
      = spmm16 (V c main_arg0) (V c main_arg1) (V c main_v52) (V c main_v54) :=
  (dat3 V c).arrAt_eq_of_cover 4 (want3 V c) (fun t hf => flushed3_eq V c t hf) cover3

end Cert.KernelIdeal.Spmm3

end
-- ==== Proof.Bridge.Shared.lean ====
import proofs.«165102_j58428735095548_1_alg».proof.Proof.KI.HostFns
import proofs.«165102_j58428735095548_1_alg».proof.Proof.Ref.ReadP
noncomputable section
namespace Cert.Spec
open Idealize.ShloMosaic Cert.ReferenceIdeal Cert.ReferenceIdeal.ReadP Cert.KernelIdeal.Hand
variable {F : FTy → Type} [FloatOps F] [Cert.KernelIdeal.Facts₀]
variable (x0 x1 : Vec F S8192x8192 .f32) (x2 : Vec F S8192x512 .f32) (x3 : Vec F S1x8192 .f32)
  (x4 : Vec F S1 .f32) (x5 : Vec F S512x128 .f32) (x6 : Vec F S128 .f32) (x7 : Vec F S128x128 .f32)
  (x8 : Vec F S128 .f32) (x9 : Vec F S128x16 .f32) (x10 : Vec F S16 .f32)
theorem sm2_eq :
    val_main_v21 (F := F) x0 x1 x3 x4 = ksm2 (val_main_v10 (F := F) x0 x1 x3 x4) := by
  unfold val_main_v21 val_main_v20 val_main_v19 val_main_v18 val_main_v17 val_main_v16 val_main_v15
    val_main_v14 val_main_v13 val_main_v12 val_main_v11 val_main_cst val_main_cst_0 val_main_cst_1
    ksm2 ksm2_exp ksm2_max
  rfl
theorem y1_eq : val_main_v33 (F := F) x2 x5 = ky1 x2 x5 := by
  unfold val_main_v33 ky1
  rfl
theorem lay1_def :
    val_main_v34 (F := F) x0 x1 x2 x3 x4 x5
      = Host.dotGeneral Cert.ReferenceIdeal.dot_S8192x8192_S8192x128_S8192x128_1_0_0_1_n_n none
          (val_main_v32 (F := F) x0 x1 x3 x4) (val_main_v33 (F := F) x2 x5) := rfl
theorem act1_eq :
    val_main_v38 (F := F) x0 x1 x2 x3 x4 x5 x6 = kact (val_main_v34 (F := F) x0 x1 x2 x3 x4 x5) x6 := by
  unfold val_main_v38 val_main_v37 val_main_v36 val_main_v35 val_main_call0_v0 val_main_call0_cst kact
  rfl
theorem y2_eq :
    val_main_v39 (F := F) x0 x1 x2 x3 x4 x5 x6 x7 = ky2 (val_main_v38 (F := F) x0 x1 x2 x3 x4 x5 x6) x7 := by
  unfold val_main_v39 ky2
  rfl
theorem lay2_def :
    val_main_v40 (F := F) x0 x1 x2 x3 x4 x5 x6 x7
      = Host.dotGeneral Cert.ReferenceIdeal.dot_S8192x8192_S8192x128_S8192x128_1_0_0_1_n_n none
          (val_main_v32 (F := F) x0 x1 x3 x4) (val_main_v39 (F := F) x0 x1 x2 x3 x4 x5 x6 x7) := rfl
theorem act2_eq :
    val_main_v44 (F := F) x0 x1 x2 x3 x4 x5 x6 x7 x8
      = kact (val_main_v40 (F := F) x0 x1 x2 x3 x4 x5 x6 x7) x8 := by
  unfold val_main_v44 val_main_v43 val_main_v42 val_main_v41 val_main_call1_v0 val_main_call1_cst kact
  rfl
theorem y3_eq :
    val_main_v45 (F := F) x0 x1 x2 x3 x4 x5 x6 x7 x8 x9
      = ky3 (val_main_v44 (F := F) x0 x1 x2 x3 x4 x5 x6 x7 x8) x9 := by
  unfold val_main_v45 ky3
  rfl
theorem lay3_def :
    val_main_v46 (F := F) x0 x1 x2 x3 x4 x5 x6 x7 x8 x9
      = Host.dotGeneral Cert.ReferenceIdeal.dot_S8192x8192_S8192x16_S8192x16_1_0_0_1_n_n none
          (val_main_v32 (F := F) x0 x1 x3 x4) (val_main_v45 (F := F) x0 x1 x2 x3 x4 x5 x6 x7 x8 x9) := rfl
theorem fin_eq :
    val_main_v60 (F := F) x0 x1 x2 x3 x4 x5 x6 x7 x8 x9 x10
      = kfin (val_main_v46 (F := F) x0 x1 x2 x3 x4 x5 x6 x7 x8 x9) x10 := by
  unfold val_main_v60 val_main_v59 val_main_v58 val_main_v57 val_main_v56 val_main_v55 val_main_v54
    val_main_v53 val_main_v52 val_main_v51 val_main_v50 val_main_v49 val_main_v48 val_main_v47
    val_main_cst_2 val_main_cst_3 val_main_cst_4 kfin kfin_sm kfin_exp kfin_max kfin_pre
  rfl
end Cert.Spec
end
-- ==== Proof.Math.Scatter.lean ====
import proofs.«165102_j58428735095548_1_alg».proof.KernelIdeal
import Idealize.ShloMosaic.Lib.ValueIdx
import Mathlib.Data.List.Nodup
import Mathlib.Data.List.FinRange
namespace Cert.KernelIdeal.Hand
open Idealize.ShloMosaic Cert.KernelIdeal
section Fold
variable {ι κ α : Type*}
theorem foldl_write_miss (g : κ → Option ι) (step : (ι → α) → κ → (ι → α))
    (hnone : ∀ r n, g n = none → step r n = r)
    (hne : ∀ r n i, g n = some i → ∀ i', i' ≠ i → step r n i' = r i')
    (i' : ι) :
    ∀ (l : List κ) (x : ι → α), (∀ n ∈ l, g n ≠ some i') → l.foldl step x i' = x i' := by
  intro l
  induction l with
  | nil => intro x _; rfl
  | cons a t ih =>
    intro x h
    rw [List.foldl_cons, ih _ (fun n hn => h n (List.mem_cons_of_mem _ hn))]
    have ha := h a List.mem_cons_self
    cases hg : g a with
    | none => rw [hnone _ _ hg]
    | some i =>
      refine hne _ _ _ hg _ ?_
      rintro rfl; exact ha hg
theorem foldl_write_hit (g : κ → Option ι) (v : κ → α) (step : (ι → α) → κ → (ι → α))
    (hnone : ∀ r n, g n = none → step r n = r)
    (heq : ∀ r n i, g n = some i → step r n i = v n)
    (hne : ∀ r n i, g n = some i → ∀ i', i' ≠ i → step r n i' = r i')
    (i' : ι) (n0 : κ) (h0 : g n0 = some i') :
    ∀ (l : List κ) (x : ι → α), l.Nodup → n0 ∈ l → (∀ n ∈ l, g n = some i' → n = n0) →
      l.foldl step x i' = v n0 := by
  intro l
  induction l with
  | nil => intro x _ h; cases h
  | cons a t ih =>
    intro x hnd hmem huniq
    rw [List.nodup_cons] at hnd
    rw [List.foldl_cons]
    by_cases ha : n0 = a
    · subst ha
      rw [foldl_write_miss g step hnone hne i' t]
      · exact heq _ _ _ h0
      · intro n hn hg
        have := huniq n (List.mem_cons_of_mem _ hn) hg
        subst this; exact hnd.1 hn
    · refine ih _ hnd.2 ?_ (fun n hn => huniq n (List.mem_cons_of_mem _ hn))
      rcases List.mem_cons.1 hmem with h | h
      · exact absurd h ha
      · exact h
end Fold
section Scatter
variable {s si u : Shape} {w : Nat} {α : Type}
theorem scatter_apply_of_miss (d : ScatterDims s si u) (f : α → α → α) (x : s.Idx → α) (idx : IVec si w)
    (upd : u.Idx → α) (i' : s.Idx) (h : ∀ j, d.resultIdx? j idx ≠ some i') :
    Host.scatter d f x idx upd i' = x i' := by
  unfold Host.scatter
  refine foldl_write_miss (fun n => d.resultIdx? (u.rowMajor.symm n) idx) _ ?_ ?_ i' _ x (fun n _ => h _)
  · intro r n hg
    simp only [hg]
  · intro r n i hg i' hi
    simp only [hg, if_neg hi]
theorem scatter_set_apply_of_hit (d : ScatterDims s si u) (x : s.Idx → α) (idx : IVec si w)
    (upd : u.Idx → α) (i' : s.Idx) (j0 : u.Idx) (h0 : d.resultIdx? j0 idx = some i')
    (huniq : ∀ j, d.resultIdx? j idx = some i' → j = j0) :
    Host.scatter d (fun _ b => b) x idx upd i' = upd j0 := by
  unfold Host.scatter
  refine (foldl_write_hit (fun n => d.resultIdx? (u.rowMajor.symm n) idx) (fun n => upd (u.rowMajor.symm n))
    _ ?_ ?_ ?_ i' (u.rowMajor j0) ?_ (List.finRange u.numel) x (List.nodup_finRange _)
    (List.mem_finRange _) ?_).trans ?_
  · intro r n hg
    simp only [hg]
  · intro r n i hg
    simp only [hg, ↓reduceIte]
  · intro r n i hg i' hi
    simp only [hg, if_neg hi]
  · show d.resultIdx? (u.rowMajor.symm (u.rowMajor j0)) idx = some i'
    rw [Equiv.symm_apply_apply]; exact h0
  · intro n _ hg
    have := huniq _ hg
    rw [← this, Equiv.apply_symm_apply]
  · show upd (u.rowMajor.symm (u.rowMajor j0)) = upd j0
    rw [Equiv.symm_apply_apply]
end Scatter
section Record
variable [Facts₀]
local notation "dS" => scatter_S8192x8_S1_S8192_0_1_1_0
theorem sKept_eq : (dS).sKept = [0] := by
  show S8192x8.kept [1] = [0]
  decide
theorem start_row (j : S8192.Idx) (idx : IVec S1 32) : (dS).start j idx 0 = 0 := by
  unfold ScatterDims.start
  rw [dif_neg (by show (0 : Fin 2) ∉ [1]; decide)]
theorem start_col (j : S8192.Idx) (idx : IVec S1 32) :
    (dS).start j idx 1 = (idx (ValueIdx.ix1 0)).toInt := by
  unfold ScatterDims.start
  rw [dif_pos (by show (1 : Fin 2) ∈ [1]; decide)]
  congr 2
  funext b
  match b with
  | ⟨0, _⟩ => rfl
theorem window_row (j : S8192.Idx) : (dS).window j 0 = (j 0).val := by
  unfold ScatterDims.window
  rw [dif_pos (by rw [sKept_eq]; decide)]
  rfl
theorem window_col (j : S8192.Idx) : (dS).window j 1 = 0 := by
  unfold ScatterDims.window
  rw [dif_neg (by rw [sKept_eq]; decide)]
theorem toInt_col : ∀ col : Fin 8, (BitVec.ofNat 32 col.val).toInt = (col.val : Int) := by decide
theorem resultIdx_col (idx : IVec S1 32) (col : Fin 8)
    (hidx : idx (ValueIdx.ix1 0) = BitVec.ofNat 32 col.val) (j : Fin 8192) :
    (dS).resultIdx? (ValueIdx.ix1 j) idx = some (ValueIdx.ix2 j col) := by
  have hs : (dS).start (ValueIdx.ix1 j) idx 1 = (col.val : Int) := by
    rw [start_col, hidx, toInt_col]
  have hj : j.val < 8192 := j.isLt
  have hc : col.val < 8 := col.isLt
  unfold ScatterDims.resultIdx?
  rw [dif_pos]
  · congr 1
    funext a
    match a with
    | ⟨0, _⟩ =>
      apply Fin.ext
      show ((dS).start (ValueIdx.ix1 j) idx 0 + ((dS).window (ValueIdx.ix1 j) 0 : Nat)).toNat = j.val
      rw [start_row, window_row]
      show ((0 : Int) + (j.val : Nat)).toNat = j.val
      omega
    | ⟨1, _⟩ =>
      apply Fin.ext
      show ((dS).start (ValueIdx.ix1 j) idx 1 + ((dS).window (ValueIdx.ix1 j) 1 : Nat)).toNat = col.val
      rw [hs, window_col]
      omega
  · intro a
    match a with
    | ⟨0, _⟩ =>
      show 0 ≤ (dS).start (ValueIdx.ix1 j) idx 0 + ((dS).window (ValueIdx.ix1 j) 0 : Nat) ∧
        (dS).start (ValueIdx.ix1 j) idx 0 + ((dS).window (ValueIdx.ix1 j) 0 : Nat) < (8192 : Nat)
      rw [start_row, window_row]
      show (0 : Int) ≤ 0 + (j.val : Nat) ∧ (0 : Int) + (j.val : Nat) < (8192 : Nat)
      omega
    | ⟨1, _⟩ =>
      show 0 ≤ (dS).start (ValueIdx.ix1 j) idx 1 + ((dS).window (ValueIdx.ix1 j) 1 : Nat) ∧
        (dS).start (ValueIdx.ix1 j) idx 1 + ((dS).window (ValueIdx.ix1 j) 1 : Nat) < (8 : Nat)
      rw [hs, window_col]
      omega
theorem scatter_col {α : Type} (x : S8192x8.Idx → α) (idx : IVec S1 32) (u : S8192.Idx → α) (col : Fin 8)
    (hidx : idx (ValueIdx.ix1 0) = BitVec.ofNat 32 col.val) (j : Fin 8192) (q : Fin 8) :
    Host.scatter scatter_S8192x8_S1_S8192_0_1_1_0 (fun _ b => b) x idx u (ValueIdx.ix2 j q)
      = if q = col then u (ValueIdx.ix1 j) else x (ValueIdx.ix2 j q) := by
  have hland : ∀ j' : S8192.Idx, (dS).resultIdx? j' idx = some (ValueIdx.ix2 (j' 0) col) := by
    intro j'
    conv_lhs => rw [ValueIdx.eq_ix1 j']
    exact resultIdx_col idx col hidx (j' 0)
  by_cases hq : q = col
  · subst hq
    rw [if_pos rfl]
    refine scatter_set_apply_of_hit (dS) x idx u _ _ (resultIdx_col idx q hidx j) ?_
    intro j' h
    rw [hland j'] at h
    have h0 := congrFun (Option.some.inj h) 0
    rw [ValueIdx.eq_ix1 j']
    exact congrArg ValueIdx.ix1 h0
  · rw [if_neg hq]
    refine scatter_apply_of_miss (dS) _ x idx u _ ?_
    intro j' h
    rw [hland j'] at h
    have h1 : col = q := congrFun (Option.some.inj h) 1
    exact hq h1.symm
theorem scatter_col0 {α : Type} (x : S8192x8.Idx → α) (idx : IVec S1 32) (u : S8192.Idx → α)
    (hidx : idx = fun _ => 0#32) (j : Fin 8192) (q : Fin 8) :
    Host.scatter scatter_S8192x8_S1_S8192_0_1_1_0 (fun _ b => b) x idx u (ValueIdx.ix2 j q)
      = if q = 0 then u (ValueIdx.ix1 j) else x (ValueIdx.ix2 j q) :=
  scatter_col x idx u 0 (by rw [hidx]; rfl) j q
theorem scatter_col1 {α : Type} (x : S8192x8.Idx → α) (idx : IVec S1 32) (u : S8192.Idx → α)
    (hidx : idx = fun _ => 1#32) (j : Fin 8192) (q : Fin 8) :
    Host.scatter scatter_S8192x8_S1_S8192_0_1_1_0 (fun _ b => b) x idx u (ValueIdx.ix2 j q)
      = if q = 1 then u (ValueIdx.ix1 j) else x (ValueIdx.ix2 j q) :=
  scatter_col x idx u 1 (by rw [hidx]; rfl) j q
end Record
end Cert.KernelIdeal.Hand
-- ==== Proof.Math.IsFin.lean ====
import Mathlib.Data.EReal.Basic
namespace Cert.Spec
def IsFin (x : EReal) : Prop := x ≠ ⊤ ∧ x ≠ ⊥
def AllFin {ι : Type*} (v : ι → EReal) : Prop := ∀ i, IsFin (v i)
end Cert.Spec
-- ==== Proof.LibCoe.lean ====
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum
noncomputable section
namespace Cert.LibCoe
open Idealize.ShloMosaic
open Finset BigOperators
theorem add_coe (a b : ℝ) : (a : EReal) + (b : EReal) = ((a + b : ℝ) : EReal) :=
  (EReal.coe_add a b).symm
theorem sub_coe (a b : ℝ) : (a : EReal) - (b : EReal) = ((a - b : ℝ) : EReal) :=
  (EReal.coe_sub a b).symm
theorem mul_coe (a b : ℝ) : (a : EReal) * (b : EReal) = ((a * b : ℝ) : EReal) :=
  (EReal.coe_mul a b).symm
theorem div_coe_coe (a : ℝ) {b : ℝ} (hb : b ≠ 0) :
    Ideal.div (a : EReal) (b : EReal) = ((a / b : ℝ) : EReal) := by
  rw [Ideal.div_coe hb, ← EReal.coe_mul, mul_one_div]
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]
theorem exp_coe (r : ℝ) : Ideal.exp (r : EReal) = ((Real.exp r : ℝ) : EReal) := rfl
theorem ofBits_zero : Ideal.ofBits .f32 0x00000000#32 = ((0 : ℝ) : EReal) := by
  rw [Ideal.ofBits_zero_f32, EReal.coe_zero]
theorem ofBits_neg_inf : Ideal.ofBits .f32 0xFF800000#32 = (⊥ : EReal) := by
  simp [Ideal.ofBits, Ideal.ieee]
end Cert.LibCoe
end
-- ==== Proof.Math.Fin.lean ====
import proofs.«165102_j58428735095548_1_alg».proof.Proof.Math.IsFin
import proofs.«165102_j58428735095548_1_alg».proof.Proof.LibCoe
import Idealize.ShloMosaic.PureOps.Ideal
import Mathlib.Data.EReal.Basic
import Mathlib.Data.EReal.Operations
import Mathlib.Analysis.SpecialFunctions.Exp
import Mathlib.Algebra.BigOperators.Group.Finset.Basic
import Mathlib.Data.Fintype.BigOperators
import Mathlib.Logic.Equiv.Fin.Basic
import Mathlib.Tactic.Ring
noncomputable section
namespace Cert.Spec
open Idealize.ShloMosaic
open Finset BigOperators
theorem IsFin.coe (r : ℝ) : IsFin (r : EReal) :=
  ⟨EReal.coe_ne_top r, EReal.coe_ne_bot r⟩
theorem IsFin.exists_coe {x : EReal} (h : IsFin x) : ∃ r : ℝ, x = (r : EReal) :=
  ⟨x.toReal, (EReal.coe_toReal h.1 h.2).symm⟩
theorem IsFin.zero : IsFin (0 : EReal) := by
  rw [← EReal.coe_zero]; exact IsFin.coe 0
theorem IsFin.add {x y : EReal} (hx : IsFin x) (hy : IsFin y) : IsFin (x + y) := by
  obtain ⟨a, rfl⟩ := hx.exists_coe
  obtain ⟨b, rfl⟩ := hy.exists_coe
  rw [LibCoe.add_coe]; exact IsFin.coe _
theorem IsFin.sub {x y : EReal} (hx : IsFin x) (hy : IsFin y) : IsFin (x - y) := by
  obtain ⟨a, rfl⟩ := hx.exists_coe
  obtain ⟨b, rfl⟩ := hy.exists_coe
  rw [LibCoe.sub_coe]; exact IsFin.coe _
theorem IsFin.mul {x y : EReal} (hx : IsFin x) (hy : IsFin y) : IsFin (x * y) := by
  obtain ⟨a, rfl⟩ := hx.exists_coe
  obtain ⟨b, rfl⟩ := hy.exists_coe
  rw [LibCoe.mul_coe]; exact IsFin.coe _
theorem IsFin.max {x y : EReal} (hx : IsFin x) (hy : IsFin y) : IsFin (max x y) := by
  rcases max_choice x y with h | h <;> rw [h] <;> assumption
theorem IsFin.sum {ι : Type*} (s : Finset ι) (f : ι → EReal) (h : ∀ i ∈ s, IsFin (f i)) :
    IsFin (∑ i ∈ s, f i) :=
  Finset.sum_induction f IsFin (fun _ _ => IsFin.add) IsFin.zero h
theorem IsFin.exp {x : EReal} (h : IsFin x) : IsFin (Ideal.exp x) ∧ 0 < Ideal.exp x := by
  obtain ⟨r, rfl⟩ := h.exists_coe
  rw [LibCoe.exp_coe]
  exact ⟨IsFin.coe _, EReal.coe_pos.mpr (Real.exp_pos r)⟩
theorem IsFin.div {x y : EReal} (hx : IsFin x) (hy : IsFin y) (h0 : y ≠ 0) : IsFin (Ideal.div x y) := by
  obtain ⟨a, rfl⟩ := hx.exists_coe
  obtain ⟨b, rfl⟩ := hy.exists_coe
  have hb : b ≠ 0 := fun hb => h0 (by rw [hb, EReal.coe_zero])
  rw [LibCoe.div_coe_coe a hb]; exact IsFin.coe _
theorem max_bot_left (x : EReal) : max ⊥ x = x := max_eq_right bot_le
theorem maximumf_neg_inf_left (x : Ideal .f32) :
    FloatOps.maximumf (F := Ideal) (FloatOps.ofBits .f32 0xFF800000#32) x = x := by
  show Max.max (Ideal.ofBits .f32 0xFF800000#32) x = x
  rw [LibCoe.ofBits_neg_inf]; exact max_bot_left x
theorem mix_term {n0 n1 a0 a1 y : EReal} (hn0 : IsFin n0) (hn1 : IsFin n1) (ha0 : IsFin a0)
    (ha1 : IsFin a1) (hy : IsFin y) :
    (n0 * a0 + n1 * a1) * y = a0 * (n0 * y) + a1 * (n1 * y) := by
  obtain ⟨p, rfl⟩ := hn0.exists_coe
  obtain ⟨q, rfl⟩ := hn1.exists_coe
  obtain ⟨u, rfl⟩ := ha0.exists_coe
  obtain ⟨v, rfl⟩ := ha1.exists_coe
  obtain ⟨w, rfl⟩ := hy.exists_coe
  simp only [LibCoe.mul_coe, LibCoe.add_coe]
  congr 1; ring
theorem mix_sum {J : Type*} [Fintype J] (n0 n1 a0 a1 y : J → EReal) (hn0 : AllFin n0) (hn1 : AllFin n1)
    (ha0 : AllFin a0) (ha1 : AllFin a1) (hy : AllFin y) :
    ∑ j, (n0 j * a0 j + n1 j * a1 j) * y j
      = (∑ j, a0 j * (n0 j * y j)) + ∑ j, a1 j * (n1 j * y j) := by
  rw [← Finset.sum_add_distrib]
  exact Finset.sum_congr rfl fun j _ => mix_term (hn0 j) (hn1 j) (ha0 j) (ha1 j) (hy j)
theorem sum_mul_zero {J : Type*} [Fintype J] (a : J → EReal) : ∑ j, a j * 0 = 0 :=
  Finset.sum_eq_zero fun j _ => mul_zero (a j)
theorem block_index_lt {m n : ℕ} (k : Fin m) (l : Fin n) : n * k.val + l.val < m * n :=
  calc n * k.val + l.val < n * k.val + n := Nat.add_lt_add_left l.isLt _
    _ = n * (k.val + 1) := (Nat.mul_succ n k.val).symm
    _ ≤ n * m := Nat.mul_le_mul_left n k.isLt
    _ = m * n := Nat.mul_comm n m
theorem sum_fin_blocks {M : Type*} [AddCommMonoid M] (m n : ℕ) (g : Fin (m * n) → M) :
    ∑ j : Fin (m * n), g j = ∑ k : Fin m, ∑ l : Fin n, g ⟨n * k.val + l.val, block_index_lt k l⟩ := by
  rw [← Fintype.sum_prod_type' (fun (k : Fin m) (l : Fin n) => g ⟨n * k.val + l.val, block_index_lt k l⟩)]
  refine (Fintype.sum_equiv finProdFinEquiv _ _ fun p => ?_).symm
  congr 1
  exact Fin.ext (Nat.add_comm _ _)
theorem sum_blocks (g : Fin 8192 → EReal) :
    ∑ j : Fin 8192, g j = ∑ k : Fin 8, ∑ l : Fin 1024, g ⟨1024 * k.val + l.val, by omega⟩ :=
  sum_fin_blocks 8 1024 g
end Cert.Spec
end
-- ==== Proof.Bridge.Logits.lean ====
import proofs.«165102_j58428735095548_1_alg».proof.Proof.KI.HostFns
import proofs.«165102_j58428735095548_1_alg».proof.Proof.Ref.ReadP
import proofs.«165102_j58428735095548_1_alg».proof.Proof.Math.Scatter
import proofs.«165102_j58428735095548_1_alg».proof.Proof.Math.Spmm
import proofs.«165102_j58428735095548_1_alg».proof.Proof.Math.Fin
import Idealize.ShloMosaic.Lib.Pipeline.Value
import Idealize.ShloMosaic.Lib.ValueIdx
import Idealize.ShloMosaic.PureOps.Ideal.Laws
noncomputable section
namespace Cert.Spec
open Idealize.ShloMosaic Idealize.ShloMosaic.ValueIdx
open Cert.ReferenceIdeal Cert.ReferenceIdeal.Gen Cert.ReferenceIdeal.ReadP
open Finset BigOperators
section Pad
variable [Cert.KernelIdeal.Facts₀]
theorem col_apply (w : (⟨S1x8192, .f32⟩ : BufTy).Contents (Elt Ideal)) (j : Fin 8192) :
    shapeCast Cert.KernelIdeal.S8192 w Cert.KernelIdeal.Facts₀.shapeCasts_S1x8192_S8192 (ix1 j)
      = w (ix2 (0 : Fin 1) j) := by
  refine shapeCast_apply w _ (ix1 j) (ix2 (0 : Fin 1) j) ?_
  rw [Shape.rowMajor_val_two, Shape.rowMajor_val_one]
  show (0 : Nat) * 8192 + j.val = j.val
  omega
theorem kpad0_apply (w : (⟨S1x8192, .f32⟩ : BufTy).Contents (Elt Ideal)) (j : Fin 8192) (q : Fin 8) :
    Cert.KernelIdeal.Hand.kpad0 (F := Ideal) w (ix2 j q) = if q = 0 then w (ix2 (0 : Fin 1) j) else 0 := by
  unfold Cert.KernelIdeal.Hand.kpad0
  refine (Cert.KernelIdeal.Hand.scatter_col0 _ _ _ (funext fun _ => rfl) j q).trans ?_
  by_cases hq : q = 0
  · rw [if_pos hq, if_pos hq]
    exact col_apply w j
  · rw [if_neg hq, if_neg hq]
    exact Ideal.ofBits_zero_f32
theorem kpad1_apply (w : (⟨S1x8192, .f32⟩ : BufTy).Contents (Elt Ideal)) (j : Fin 8192) (q : Fin 8) :
    Cert.KernelIdeal.Hand.kpad1 (F := Ideal) w (ix2 j q) = if q = 1 then w (ix2 (0 : Fin 1) j) else 0 := by
  unfold Cert.KernelIdeal.Hand.kpad1
  refine (Cert.KernelIdeal.Hand.scatter_col1 _ _ _ (funext fun _ => rfl) j q).trans ?_
  by_cases hq : q = 1
  · rw [if_pos hq, if_pos hq]
    exact col_apply w j
  · rw [if_neg hq, if_neg hq]
    exact Ideal.ofBits_zero_f32
end Pad
section Cols
variable [Cert.KernelIdeal.Facts₀]
variable (x0 x1 : (⟨S8192x8192, .f32⟩ : BufTy).Contents (Elt Ideal))
  (x3 : (⟨S1x8192, .f32⟩ : BufTy).Contents (Elt Ideal)) (x4 : (⟨S1, .f32⟩ : BufTy).Contents (Elt Ideal))
theorem raw_col0 (i : Fin 8192) :
    spmm8 x0 x1 (Cert.KernelIdeal.Hand.kpad0 (F := Ideal) x3) (Cert.KernelIdeal.Hand.kpad1 (F := Ideal) x3)
        (ix2 i (0 : Fin 8))
      = ∑ j : Fin 8192, x0 (ix2 i j) * x3 (ix2 (0 : Fin 1) j) := by
  have h0 : ∀ j : Fin 8192, Cert.KernelIdeal.Hand.kpad0 (F := Ideal) x3 (ix2 j (0 : Fin 8)) = x3 (ix2 (0 : Fin 1) j) :=
    fun j => (kpad0_apply x3 j 0).trans (if_pos rfl)
  have h1 : ∀ j : Fin 8192, Cert.KernelIdeal.Hand.kpad1 (F := Ideal) x3 (ix2 j (0 : Fin 8)) = 0 :=
    fun j => (kpad1_apply x3 j 0).trans (if_neg (by decide))
  rw [spmm8_apply]
  unfold spmmAt8
  rw [Finset.sum_congr rfl fun j _ => congrArg (x0 (ix2 i j) * ·) (h0 j),
    Finset.sum_congr rfl fun j _ => congrArg (x1 (ix2 i j) * ·) (h1 j), sum_mul_zero, add_zero]
theorem raw_col1 (i : Fin 8192) :
    spmm8 x0 x1 (Cert.KernelIdeal.Hand.kpad0 (F := Ideal) x3) (Cert.KernelIdeal.Hand.kpad1 (F := Ideal) x3)
        (ix2 i (1 : Fin 8))
      = ∑ j : Fin 8192, x1 (ix2 i j) * x3 (ix2 (0 : Fin 1) j) := by
  have h0 : ∀ j : Fin 8192, Cert.KernelIdeal.Hand.kpad0 (F := Ideal) x3 (ix2 j (1 : Fin 8)) = 0 :=
    fun j => (kpad0_apply x3 j 1).trans (if_neg (by decide))
  have h1 : ∀ j : Fin 8192, Cert.KernelIdeal.Hand.kpad1 (F := Ideal) x3 (ix2 j (1 : Fin 8)) = x3 (ix2 (0 : Fin 1) j) :=
    fun j => (kpad1_apply x3 j 1).trans (if_pos rfl)
  rw [spmm8_apply]
  unfold spmmAt8
  rw [Finset.sum_congr rfl fun j _ => congrArg (x0 (ix2 i j) * ·) (h0 j),
    Finset.sum_congr rfl fun j _ => congrArg (x1 (ix2 i j) * ·) (h1 j), sum_mul_zero, zero_add]
theorem slice0_apply (raw : Vec Ideal Cert.KernelIdeal.S8192x8 .f32) (i : Fin 8192) (c : Fin 1) :
    extractStridedSlice Cert.KernelIdeal.S8192x1 ![0, 0] raw
        Cert.KernelIdeal.Facts₀.slices_S8192x8_S8192x1_0_0 (ix2 i c)
      = raw (ix2 i (0 : Fin 8)) := by
  refine extractStridedSlice_apply _ raw _ (ix2 i c) (ix2 i (0 : Fin 8)) fun a => ?_
  have hc := c.isLt
  match a with
  | ⟨0, _⟩ => show i.val = 0 + i.val; omega
  | ⟨1, _⟩ => show (0 : Nat) = 0 + c.val; omega
theorem slice1_apply (raw : Vec Ideal Cert.KernelIdeal.S8192x8 .f32) (i : Fin 8192) (c : Fin 1) :
    extractStridedSlice Cert.KernelIdeal.S8192x1 ![0, 1] raw
        Cert.KernelIdeal.Facts₀.slices_S8192x8_S8192x1_0_1 (ix2 i c)
      = raw (ix2 i (1 : Fin 8)) := by
  refine extractStridedSlice_apply _ raw _ (ix2 i c) (ix2 i (1 : Fin 8)) fun a => ?_
  have hc := c.isLt
  match a with
  | ⟨0, _⟩ => show i.val = 0 + i.val; omega
  | ⟨1, _⟩ => show (1 : Nat) = 1 + c.val; omega
theorem ref_col0 (i : Fin 8192) (c : Fin 1) :
    val_main_v1 (F := Ideal) x0 x3 (ix2 i c) = ∑ j : Fin 8192, x0 (ix2 i j) * x3 (ix2 (0 : Fin 1) j) := by
  rw [val_main_v1_apply]
  refine Finset.sum_congr rfl fun k _ => ?_
  rw [val_main_v0_apply]
  have hc := c.isLt
  have e1 : lidx_main_v1 (ix2 i c) k = ix2 i k := by
    funext a
    match a with
    | ⟨0, _⟩ => rfl
    | ⟨1, _⟩ => rfl
  have e2 : idx_main_v0 (ridx_main_v1 (ix2 i c) k) = ix2 (0 : Fin 1) k := by
    funext a
    match a with
    | ⟨0, _⟩ => exact Fin.ext (by show c.val = 0; omega)
    | ⟨1, _⟩ => rfl
  rw [e1, e2]
theorem ref_col1 (i : Fin 8192) (c : Fin 1) :
    val_main_v6 (F := Ideal) x1 x3 (ix2 i c) = ∑ j : Fin 8192, x1 (ix2 i j) * x3 (ix2 (0 : Fin 1) j) := by
  rw [val_main_v6_apply]
  refine Finset.sum_congr rfl fun k _ => ?_
  rw [val_main_v5_apply]
  have hc := c.isLt
  have e1 : lidx_main_v6 (ix2 i c) k = ix2 i k := by
    funext a
    match a with
    | ⟨0, _⟩ => rfl
    | ⟨1, _⟩ => rfl
  have e2 : idx_main_v5 (ridx_main_v6 (ix2 i c) k) = ix2 (0 : Fin 1) k := by
    funext a
    match a with
    | ⟨0, _⟩ => exact Fin.ext (by show c.val = 0; omega)
    | ⟨1, _⟩ => rfl
  rw [e1, e2]
theorem piece0 :
    extractStridedSlice Cert.KernelIdeal.S8192x1 ![0, 0]
        (spmm8 x0 x1 (Cert.KernelIdeal.Hand.kpad0 (F := Ideal) x3) (Cert.KernelIdeal.Hand.kpad1 (F := Ideal) x3))
        Cert.KernelIdeal.Facts₀.slices_S8192x8_S8192x1_0_0
      = val_main_v1 (F := Ideal) x0 x3 := by
  funext idx
  obtain ⟨i, c, rfl⟩ : ∃ (i : Fin 8192) (c : Fin 1), idx = ix2 i c := ⟨idx 0, idx 1, eq_ix2 idx⟩
  rw [slice0_apply, raw_col0, ref_col0]
theorem piece1 :
    extractStridedSlice Cert.KernelIdeal.S8192x1 ![0, 1]
        (spmm8 x0 x1 (Cert.KernelIdeal.Hand.kpad0 (F := Ideal) x3) (Cert.KernelIdeal.Hand.kpad1 (F := Ideal) x3))
        Cert.KernelIdeal.Facts₀.slices_S8192x8_S8192x1_0_1
      = val_main_v6 (F := Ideal) x1 x3 := by
  funext idx
  obtain ⟨i, c, rfl⟩ : ∃ (i : Fin 8192) (c : Fin 1), idx = ix2 i c := ⟨idx 0, idx 1, eq_ix2 idx⟩
  rw [slice1_apply, raw_col1, ref_col1]
end Cols
theorem logits_eq [Cert.KernelIdeal.Facts₀] [Cert.ReferenceIdeal.Facts₀]
    (x0 x1 : (⟨S8192x8192, .f32⟩ : BufTy).Contents (Elt Ideal))
    (x3 : (⟨S1x8192, .f32⟩ : BufTy).Contents (Elt Ideal)) (x4 : (⟨S1, .f32⟩ : BufTy).Contents (Elt Ideal)) :
    Cert.KernelIdeal.Hand.kz (F := Ideal)
        (spmm8 x0 x1 (Cert.KernelIdeal.Hand.kpad0 (F := Ideal) x3) (Cert.KernelIdeal.Hand.kpad1 (F := Ideal) x3)) x4
      = val_main_v10 (F := Ideal) x0 x1 x3 x4 := by
  unfold Cert.KernelIdeal.Hand.kz val_main_v10 val_main_v4 val_main_v9
  rw [piece0, piece1]
  rfl
end Cert.Spec
end
-- ==== Proof.Bridge.AdjRow.lean ====
import proofs.«165102_j58428735095548_1_alg».proof.Proof.Ref.ReadP
import proofs.«165102_j58428735095548_1_alg».proof.Proof.Math.Fin
import Idealize.ShloMosaic.Lib.ValueIdx
noncomputable section
namespace Cert.Spec
open Idealize.ShloMosaic Idealize.ShloMosaic.ValueIdx Cert.ReferenceIdeal Cert.ReferenceIdeal.Gen
  Cert.ReferenceIdeal.ReadP
open Finset BigOperators
variable (x0 x1 : (⟨S8192x8192, .f32⟩ : BufTy).Contents (Elt Ideal))
  (x3 : (⟨S1x8192, .f32⟩ : BufTy).Contents (Elt Ideal)) (x4 : (⟨S1, .f32⟩ : BufTy).Contents (Elt Ideal))
theorem idx_col0 (i j : Fin 8192) :
    idx_main_v22 (idx_main_v23 (idx_main_v24 (idx_main_v25 (ix2 i j)))) = ix2 j (0 : Fin 2) := by
  funext a
  match a with
  | ⟨0, _⟩ => exact Fin.ext (Nat.div_one _)
  | ⟨1, _⟩ => rfl
theorem idx_col1 (i j : Fin 8192) :
    idx_main_v27 (idx_main_v28 (idx_main_v29 (idx_main_v30 (ix2 i j)))) = ix2 j (1 : Fin 2) := by
  funext a
  match a with
  | ⟨0, _⟩ => exact Fin.ext (Nat.div_one _)
  | ⟨1, _⟩ => rfl
theorem adj_apply (i j : Fin 8192) :
    val_main_v32 (F := Ideal) x0 x1 x3 x4 (ix2 i j)
      = val_main_v21 (F := Ideal) x0 x1 x3 x4 (ix2 j 0) * x0 (ix2 i j)
        + val_main_v21 (F := Ideal) x0 x1 x3 x4 (ix2 j 1) * x1 (ix2 i j) := by
  rw [val_main_v32_apply, val_main_v26_apply, val_main_v25_apply, val_main_v24_apply, val_main_v23_apply,
    val_main_v22_apply, val_main_v31_apply, val_main_v30_apply, val_main_v29_apply, val_main_v28_apply,
    val_main_v27_apply, idx_col0, idx_col1]
  rfl
theorem adj_row (hx0 : AllFin x0) (hx1 : AllFin x1) (hnz : AllFin (val_main_v21 (F := Ideal) x0 x1 x3 x4))
    (y : Fin 8192 → EReal) (hy : AllFin y) (i : Fin 8192) :
    ∑ j : Fin 8192, val_main_v32 (F := Ideal) x0 x1 x3 x4 (ix2 i j) * y j
      = (∑ j : Fin 8192, x0 (ix2 i j) * (val_main_v21 (F := Ideal) x0 x1 x3 x4 (ix2 j 0) * y j))
        + ∑ j : Fin 8192, x1 (ix2 i j) * (val_main_v21 (F := Ideal) x0 x1 x3 x4 (ix2 j 1) * y j) := by
  rw [Finset.sum_congr rfl fun j _ => congrArg (· * y j) (adj_apply x0 x1 x3 x4 i j)]
  exact mix_sum (fun j => val_main_v21 (F := Ideal) x0 x1 x3 x4 (ix2 j 0))
    (fun j => val_main_v21 (F := Ideal) x0 x1 x3 x4 (ix2 j 1)) (fun j => x0 (ix2 i j)) (fun j => x1 (ix2 i j)) y
    (fun j => hnz (ix2 j 0)) (fun j => hnz (ix2 j 1)) (fun j => hx0 (ix2 i j)) (fun j => hx1 (ix2 i j)) hy
end Cert.Spec
end
-- ==== Proof.Bridge.Layers.lean ====
import proofs.«165102_j58428735095548_1_alg».proof.Proof.KI.HostFns
import proofs.«165102_j58428735095548_1_alg».proof.Proof.Ref.ReadP
import proofs.«165102_j58428735095548_1_alg».proof.Proof.Math.Spmm
import proofs.«165102_j58428735095548_1_alg».proof.Proof.Math.Fin
import proofs.«165102_j58428735095548_1_alg».proof.Proof.Bridge.AdjRow
import Idealize.ShloMosaic.Lib.Pipeline.Value
import Idealize.ShloMosaic.Lib.ValueIdx
import Idealize.ShloMosaic.PureOps.Ideal.Laws
noncomputable section
namespace Cert.Spec
open Idealize.ShloMosaic Idealize.ShloMosaic.ValueIdx Cert.ReferenceIdeal Cert.ReferenceIdeal.Gen
  Cert.ReferenceIdeal.ReadP
open Finset BigOperators
theorem ksc0_128_apply [Cert.KernelIdeal.Facts₀] (nz : (⟨S8192x2, .f32⟩ : BufTy).Contents (Elt Ideal))
    (y : (⟨S8192x128, .f32⟩ : BufTy).Contents (Elt Ideal)) (j : Fin 8192) (f : Fin 128) :
    Cert.KernelIdeal.Hand.ksc0_128 (F := Ideal) nz y (ix2 j f) = nz (ix2 j 0) * y (ix2 j f) := by
  unfold Cert.KernelIdeal.Hand.ksc0_128
  show FloatOps.mulf _ _ = _
  rw [broadcastInDim_apply _ Cert.KernelIdeal.Facts₀.bcast_S8192x1_S8192x128_0_1 _ (ix2 j f) (ix2 j (0 : Fin 1))
      (fun a => match a with
        | ⟨0, _⟩ => by show j.val = if (8192 : Nat) = 1 then 0 else j.val; rw [if_neg (by decide)]
        | ⟨1, _⟩ => by show 0 = if (1 : Nat) = 1 then 0 else f.val; rw [if_pos rfl]),
    extractStridedSlice_apply ![0, 0] nz Cert.KernelIdeal.Facts₀.slices_S8192x2_S8192x1_0_0 (ix2 j (0 : Fin 1))
      (ix2 j (0 : Fin 2))
      (fun a => match a with
        | ⟨0, _⟩ => by show j.val = 0 + j.val; omega
        | ⟨1, _⟩ => by show 0 = 0 + 0; rfl)]
  rfl
theorem ksc1_128_apply [Cert.KernelIdeal.Facts₀] (nz : (⟨S8192x2, .f32⟩ : BufTy).Contents (Elt Ideal))
    (y : (⟨S8192x128, .f32⟩ : BufTy).Contents (Elt Ideal)) (j : Fin 8192) (f : Fin 128) :
    Cert.KernelIdeal.Hand.ksc1_128 (F := Ideal) nz y (ix2 j f) = nz (ix2 j 1) * y (ix2 j f) := by
  unfold Cert.KernelIdeal.Hand.ksc1_128
  show FloatOps.mulf _ _ = _
  rw [broadcastInDim_apply _ Cert.KernelIdeal.Facts₀.bcast_S8192x1_S8192x128_0_1 _ (ix2 j f) (ix2 j (0 : Fin 1))
      (fun a => match a with
        | ⟨0, _⟩ => by show j.val = if (8192 : Nat) = 1 then 0 else j.val; rw [if_neg (by decide)]
        | ⟨1, _⟩ => by show 0 = if (1 : Nat) = 1 then 0 else f.val; rw [if_pos rfl]),
    extractStridedSlice_apply ![0, 1] nz Cert.KernelIdeal.Facts₀.slices_S8192x2_S8192x1_0_1 (ix2 j (0 : Fin 1))
      (ix2 j (1 : Fin 2))
      (fun a => match a with
        | ⟨0, _⟩ => by show j.val = 0 + j.val; omega
        | ⟨1, _⟩ => by show 1 = 1 + 0; rfl)]
  rfl
theorem ksc0_16_apply [Cert.KernelIdeal.Facts₀] (nz : (⟨S8192x2, .f32⟩ : BufTy).Contents (Elt Ideal))
    (y : (⟨S8192x16, .f32⟩ : BufTy).Contents (Elt Ideal)) (j : Fin 8192) (f : Fin 16) :
    Cert.KernelIdeal.Hand.ksc0_16 (F := Ideal) nz y (ix2 j f) = nz (ix2 j 0) * y (ix2 j f) := by
  unfold Cert.KernelIdeal.Hand.ksc0_16
  show FloatOps.mulf _ _ = _
  rw [broadcastInDim_apply _ Cert.KernelIdeal.Facts₀.bcast_S8192x1_S8192x16_0_1 _ (ix2 j f) (ix2 j (0 : Fin 1))
      (fun a => match a with
        | ⟨0, _⟩ => by show j.val = if (8192 : Nat) = 1 then 0 else j.val; rw [if_neg (by decide)]
        | ⟨1, _⟩ => by show 0 = if (1 : Nat) = 1 then 0 else f.val; rw [if_pos rfl]),
    extractStridedSlice_apply ![0, 0] nz Cert.KernelIdeal.Facts₀.slices_S8192x2_S8192x1_0_0 (ix2 j (0 : Fin 1))
      (ix2 j (0 : Fin 2))
      (fun a => match a with
        | ⟨0, _⟩ => by show j.val = 0 + j.val; omega
        | ⟨1, _⟩ => by show 0 = 0 + 0; rfl)]
  rfl
theorem ksc1_16_apply [Cert.KernelIdeal.Facts₀] (nz : (⟨S8192x2, .f32⟩ : BufTy).Contents (Elt Ideal))
    (y : (⟨S8192x16, .f32⟩ : BufTy).Contents (Elt Ideal)) (j : Fin 8192) (f : Fin 16) :
    Cert.KernelIdeal.Hand.ksc1_16 (F := Ideal) nz y (ix2 j f) = nz (ix2 j 1) * y (ix2 j f) := by
  unfold Cert.KernelIdeal.Hand.ksc1_16
  show FloatOps.mulf _ _ = _
  rw [broadcastInDim_apply _ Cert.KernelIdeal.Facts₀.bcast_S8192x1_S8192x16_0_1 _ (ix2 j f) (ix2 j (0 : Fin 1))
      (fun a => match a with
        | ⟨0, _⟩ => by show j.val = if (8192 : Nat) = 1 then 0 else j.val; rw [if_neg (by decide)]
        | ⟨1, _⟩ => by show 0 = if (1 : Nat) = 1 then 0 else f.val; rw [if_pos rfl]),
    extractStridedSlice_apply ![0, 1] nz Cert.KernelIdeal.Facts₀.slices_S8192x2_S8192x1_0_1 (ix2 j (0 : Fin 1))
      (ix2 j (1 : Fin 2))
      (fun a => match a with
        | ⟨0, _⟩ => by show j.val = 0 + j.val; omega
        | ⟨1, _⟩ => by show 1 = 1 + 0; rfl)]
  rfl
theorem dot128_apply [Cert.ReferenceIdeal.Facts₀] (a : (⟨S8192x8192, .f32⟩ : BufTy).Contents (Elt Ideal))
    (y : (⟨S8192x128, .f32⟩ : BufTy).Contents (Elt Ideal)) (i : Fin 8192) (f : Fin 128) :
    Host.dotGeneral (F := Ideal) (φ₁ := .f32) (φ₂ := .f32) dot_S8192x8192_S8192x128_S8192x128_1_0_0_1_n_n none a y (ix2 i f)
      = ∑ j : Fin 8192, a (ix2 i j) * y (ix2 j f) := by
  simp only [Host.dotGeneral]
  rw [Ideal.dotGeneral_apply, ← Equiv.sum_comp (ValueIdx.contrEquiv1 dot_S8192x8192_S8192x128_S8192x128_1_0_0_1_n_n 8192 rfl rfl).symm]
  refine Finset.sum_congr rfl fun k _ => ?_
  have hk := ValueIdx.contrEquiv1_symm_val dot_S8192x8192_S8192x128_S8192x128_1_0_0_1_n_n 8192 rfl rfl k
  have el : dot_S8192x8192_S8192x128_S8192x128_1_0_0_1_n_n.lhsIdx (ix2 i f) ((ValueIdx.contrEquiv1 dot_S8192x8192_S8192x128_S8192x128_1_0_0_1_n_n 8192 rfl rfl).symm k) = ix2 i k :=
    funext fun c => Fin.ext (by
      match c with
      | ⟨0, _⟩ => exact lhs_main_v34_0 _ _
      | ⟨1, _⟩ => exact (lhs_main_v34_1 _ _).trans hk)
  have er : dot_S8192x8192_S8192x128_S8192x128_1_0_0_1_n_n.rhsIdx (ix2 i f) ((ValueIdx.contrEquiv1 dot_S8192x8192_S8192x128_S8192x128_1_0_0_1_n_n 8192 rfl rfl).symm k) = ix2 k f :=
    funext fun c => Fin.ext (by
      match c with
      | ⟨0, _⟩ => exact (rhs_main_v34_0 _ _).trans hk
      | ⟨1, _⟩ => exact rhs_main_v34_1 _ _)
  rw [el, er]
theorem dot16_apply [Cert.ReferenceIdeal.Facts₀] (a : (⟨S8192x8192, .f32⟩ : BufTy).Contents (Elt Ideal))
    (y : (⟨S8192x16, .f32⟩ : BufTy).Contents (Elt Ideal)) (i : Fin 8192) (f : Fin 16) :
    Host.dotGeneral (F := Ideal) (φ₁ := .f32) (φ₂ := .f32) dot_S8192x8192_S8192x16_S8192x16_1_0_0_1_n_n none a y (ix2 i f)
      = ∑ j : Fin 8192, a (ix2 i j) * y (ix2 j f) := by
  simp only [Host.dotGeneral]
  rw [Ideal.dotGeneral_apply, ← Equiv.sum_comp (ValueIdx.contrEquiv1 dot_S8192x8192_S8192x16_S8192x16_1_0_0_1_n_n 8192 rfl rfl).symm]
  refine Finset.sum_congr rfl fun k _ => ?_
  have hk := ValueIdx.contrEquiv1_symm_val dot_S8192x8192_S8192x16_S8192x16_1_0_0_1_n_n 8192 rfl rfl k
  have el : dot_S8192x8192_S8192x16_S8192x16_1_0_0_1_n_n.lhsIdx (ix2 i f) ((ValueIdx.contrEquiv1 dot_S8192x8192_S8192x16_S8192x16_1_0_0_1_n_n 8192 rfl rfl).symm k) = ix2 i k :=
    funext fun c => Fin.ext (by
      match c with
      | ⟨0, _⟩ => exact lhs_main_v46_0 _ _
      | ⟨1, _⟩ => exact (lhs_main_v46_1 _ _).trans hk)
  have er : dot_S8192x8192_S8192x16_S8192x16_1_0_0_1_n_n.rhsIdx (ix2 i f) ((ValueIdx.contrEquiv1 dot_S8192x8192_S8192x16_S8192x16_1_0_0_1_n_n 8192 rfl rfl).symm k) = ix2 k f :=
    funext fun c => Fin.ext (by
      match c with
      | ⟨0, _⟩ => exact (rhs_main_v46_0 _ _).trans hk
      | ⟨1, _⟩ => exact rhs_main_v46_1 _ _)
  rw [el, er]
theorem layer128 [Cert.KernelIdeal.Facts₀] [Cert.ReferenceIdeal.Facts₀]
    (x0 x1 : (⟨S8192x8192, .f32⟩ : BufTy).Contents (Elt Ideal))
    (x3 : (⟨S1x8192, .f32⟩ : BufTy).Contents (Elt Ideal)) (x4 : (⟨S1, .f32⟩ : BufTy).Contents (Elt Ideal))
    (y : (⟨S8192x128, .f32⟩ : BufTy).Contents (Elt Ideal))
    (hx0 : AllFin x0) (hx1 : AllFin x1) (hnz : AllFin (val_main_v21 (F := Ideal) x0 x1 x3 x4)) (hy : AllFin y) :
    spmm128 x0 x1
        (Cert.KernelIdeal.Hand.ksc0_128 (F := Ideal) (val_main_v21 (F := Ideal) x0 x1 x3 x4) y)
        (Cert.KernelIdeal.Hand.ksc1_128 (F := Ideal) (val_main_v21 (F := Ideal) x0 x1 x3 x4) y)
      = Host.dotGeneral (F := Ideal) (φ₁ := .f32) (φ₂ := .f32) dot_S8192x8192_S8192x128_S8192x128_1_0_0_1_n_n none
          (val_main_v32 (F := Ideal) x0 x1 x3 x4) y := by
  funext o
  obtain ⟨i, f, rfl⟩ : ∃ (i : Fin 8192) (f : Fin 128), o = ix2 i f := ⟨o 0, o 1, eq_ix2 o⟩
  rw [spmm128_apply, dot128_apply,
    adj_row x0 x1 x3 x4 hx0 hx1 hnz (fun j => y (ix2 j f)) (fun j => hy (ix2 j f)) i]
  unfold spmmAt128
  simp only [ksc0_128_apply, ksc1_128_apply]
theorem layer16 [Cert.KernelIdeal.Facts₀] [Cert.ReferenceIdeal.Facts₀]
    (x0 x1 : (⟨S8192x8192, .f32⟩ : BufTy).Contents (Elt Ideal))
    (x3 : (⟨S1x8192, .f32⟩ : BufTy).Contents (Elt Ideal)) (x4 : (⟨S1, .f32⟩ : BufTy).Contents (Elt Ideal))
    (y : (⟨S8192x16, .f32⟩ : BufTy).Contents (Elt Ideal))
    (hx0 : AllFin x0) (hx1 : AllFin x1) (hnz : AllFin (val_main_v21 (F := Ideal) x0 x1 x3 x4)) (hy : AllFin y) :
    spmm16 x0 x1
        (Cert.KernelIdeal.Hand.ksc0_16 (F := Ideal) (val_main_v21 (F := Ideal) x0 x1 x3 x4) y)
        (Cert.KernelIdeal.Hand.ksc1_16 (F := Ideal) (val_main_v21 (F := Ideal) x0 x1 x3 x4) y)
      = Host.dotGeneral (F := Ideal) (φ₁ := .f32) (φ₂ := .f32) dot_S8192x8192_S8192x16_S8192x16_1_0_0_1_n_n none
          (val_main_v32 (F := Ideal) x0 x1 x3 x4) y := by
  funext o
  obtain ⟨i, f, rfl⟩ : ∃ (i : Fin 8192) (f : Fin 16), o = ix2 i f := ⟨o 0, o 1, eq_ix2 o⟩
  rw [spmm16_apply, dot16_apply,
    adj_row x0 x1 x3 x4 hx0 hx1 hnz (fun j => y (ix2 j f)) (fun j => hy (ix2 j f)) i]
  unfold spmmAt16
  simp only [ksc0_16_apply, ksc1_16_apply]
end Cert.Spec
end
-- ==== Proof.Ref.Finite.lean ====
import proofs.«165102_j58428735095548_1_alg».proof.Proof.Ref.ReadP
import proofs.«165102_j58428735095548_1_alg».proof.Proof.Math.Fin
import Idealize.ShloMosaic.Lib.Pipeline.Value
import Idealize.ShloMosaic.PureOps.Reduce
import Idealize.ShloMosaic.PureOps.Ideal.Laws
import Mathlib.Data.Finset.Fold
import Mathlib.Algebra.BigOperators.Fin
import Mathlib.Algebra.Order.Monoid.Unbundled.Basic
noncomputable section
namespace Cert.Spec
open Cert.ReferenceIdeal Cert.ReferenceIdeal.Gen Cert.ReferenceIdeal.ReadP Idealize.ShloMosaic
open Finset BigOperators
abbrev Arr (s : Shape) : Type := (⟨s, .f32⟩ : BufTy).Contents (Elt Ideal)
theorem isFin_sum_mul {n : ℕ} (f g : Fin n → EReal) (hf : ∀ k, IsFin (f k)) (hg : ∀ k, IsFin (g k)) :
    IsFin (∑ k, f k * g k) :=
  IsFin.sum _ _ fun k _ => IsFin.mul (hf k) (hg k)
theorem isFin_ofBits_zero : IsFin (Ideal.ofBits .f32 0x00000000#32) := by
  rw [LibCoe.ofBits_zero]; exact IsFin.coe 0
theorem isFin_relu {x : EReal} (hx : IsFin x) :
    IsFin (FloatOps.maximumf (F := Ideal) (φ := .f32) x (FloatOps.ofBits .f32 0x00000000#32)) :=
  IsFin.max hx isFin_ofBits_zero
variable (x0 x1 : Arr S8192x8192) (x2 : Arr S8192x512) (x3 : Arr S1x8192) (x4 : Arr S1) (x5 : Arr S512x128)
  (x6 : Arr S128) (x7 : Arr S128x128) (x8 : Arr S128) (x9 : Arr S128x16)
  (h0 : AllFin x0) (h1 : AllFin x1) (h2 : AllFin x2) (h3 : AllFin x3) (h4 : AllFin x4) (h5 : AllFin x5)
  (h6 : AllFin x6) (h7 : AllFin x7) (h8 : AllFin x8) (h9 : AllFin x9)
include h0 h3 h4 in
theorem fin_v4 : AllFin (val_main_v4 (F := Ideal) x0 x3 x4) := by
  intro i
  rw [val_main_v4_apply, val_main_v1_apply, val_main_v3_apply, val_main_v2_apply]
  refine IsFin.add (isFin_sum_mul _ _ (fun k => h0 _) (fun k => ?_)) (h4 _)
  rw [val_main_v0_apply]; exact h3 _
include h1 h3 h4 in
theorem fin_v9 : AllFin (val_main_v9 (F := Ideal) x1 x3 x4) := by
  intro i
  rw [val_main_v9_apply, val_main_v6_apply, val_main_v8_apply, val_main_v7_apply]
  refine IsFin.add (isFin_sum_mul _ _ (fun k => h1 _) (fun k => ?_)) (h4 _)
  rw [val_main_v5_apply]; exact h3 _
abbrev rowIdx (j : S8192x2.Idx) : S8192x1.Idx := fun a => match a with
  | ⟨0, _⟩ => ⟨(j 0).val, (j 0).isLt⟩
  | ⟨1, _⟩ => ⟨0, Nat.one_pos⟩
theorem val_main_v10_col0 (j : S8192x2.Idx) (hj : (j 1).val = 0) :
    val_main_v10 (F := Ideal) x0 x1 x3 x4 j = val_main_v4 (F := Ideal) x0 x3 x4 (rowIdx j) := by
  unfold val_main_v10
  exact concatenate_pair_apply_left 1 _ _ concatenates_S8192x1_S8192x1_S8192x2_d1 j rfl (rowIdx j)
    (fun b => match b with
      | ⟨0, _⟩ => rfl
      | ⟨1, _⟩ => hj.symm)
theorem val_main_v10_col1 (j : S8192x2.Idx) (hj : (j 1).val = 1) :
    val_main_v10 (F := Ideal) x0 x1 x3 x4 j = val_main_v9 (F := Ideal) x1 x3 x4 (rowIdx j) := by
  unfold val_main_v10
  exact concatenate_pair_apply_right 1 _ _ concatenates_S8192x1_S8192x1_S8192x2_d1 j rfl rfl (rowIdx j)
    (fun b hb => match b, hb with
      | ⟨0, _⟩, _ => rfl
      | ⟨1, _⟩, hb => absurd rfl hb)
    (by show 0 + 1 = (j 1).val; omega)
include h0 h1 h3 h4 in
theorem fin_v10 : AllFin (val_main_v10 (F := Ideal) x0 x1 x3 x4) := by
  intro j
  have hj : (j 1).val < 2 := (j 1).isLt
  rcases Nat.lt_or_ge (j 1).val 1 with h | h
  · rw [val_main_v10_col0 x0 x1 x3 x4 j (by omega)]; exact fin_v4 x0 x3 x4 h0 h3 h4 _
  · rw [val_main_v10_col1 x0 x1 x3 x4 j (by omega)]; exact fin_v9 x1 x3 x4 h1 h3 h4 _
theorem isFin_fold_max {ι : Type*} (s : Finset ι) (hs : s.Nonempty) (b : EReal) (hb : b ≠ ⊤) (f : ι → EReal)
    (hf : ∀ k ∈ s, IsFin (f k)) : IsFin (s.fold max b f) := by
  constructor
  · refine ne_of_lt ?_
    rw [Finset.fold_max_lt]
    exact ⟨lt_top_iff_ne_top.mpr hb, fun k hk => lt_top_iff_ne_top.mpr (hf k hk).1⟩
  · refine ne_of_gt ?_
    rw [Finset.lt_fold_max]
    obtain ⟨k, hk⟩ := hs
    exact Or.inr ⟨k, hk, bot_lt_iff_ne_bot.mpr (hf k hk).2⟩
theorem val_main_v11_read (i : S8192.Idx) :
    val_main_v11 (F := Ideal) x0 x1 x3 x4 i
      = (Finset.univ : Finset (Fin (S8192x2.size 1))).fold (FloatOps.maximumf (F := Ideal) (φ := .f32))
          (FloatOps.ofBits .f32 0xFF800000#32)
          (val_main_v10 (F := Ideal) x0 x1 x3 x4 ∘ (by decide : S8192x2.Reduces [1] S8192).lift i) := by
  unfold val_main_v11
  exact Host.reduce_eq_fold_single _ _ _ reducesTo_S8192x2_S8192_d1 (by decide) h_S_ i
include h0 h1 h3 h4 in
theorem fin_v11 : AllFin (val_main_v11 (F := Ideal) x0 x1 x3 x4) := by
  intro i
  rw [val_main_v11_read]
  refine isFin_fold_max _ ⟨⟨0, by decide⟩, Finset.mem_univ _⟩ _ ?_ _ (fun k _ => fin_v10 x0 x1 x3 x4 h0 h1 h3 h4 _)
  show Ideal.ofBits .f32 0xFF800000#32 ≠ ⊤
  rw [LibCoe.ofBits_neg_inf]; exact bot_ne_top
theorem val_main_v13_eq (i : S8192.Idx) :
    val_main_v13 (F := Ideal) x0 x1 x3 x4 i = val_main_v11 (F := Ideal) x0 x1 x3 x4 i := by
  rw [val_main_v13_apply, val_main_v12_apply, val_main_cst_0_apply]
  exact maximumf_neg_inf_left _
include h0 h1 h3 h4 in
theorem pos_v17 (i : S8192x2.Idx) :
    IsFin (val_main_v17 (F := Ideal) x0 x1 x3 x4 i) ∧ 0 < val_main_v17 (F := Ideal) x0 x1 x3 x4 i := by
  rw [val_main_v17_apply]
  refine IsFin.exp ?_
  rw [val_main_v16_apply, val_main_v15_apply, val_main_v14_apply, val_main_v13_eq]
  exact IsFin.sub (fin_v10 x0 x1 x3 x4 h0 h1 h3 h4 i) (fin_v11 x0 x1 x3 x4 h0 h1 h3 h4 _)
include h0 h1 h3 h4 in
theorem pos_v18 (i : S8192.Idx) :
    IsFin (val_main_v18 (F := Ideal) x0 x1 x3 x4 i) ∧ 0 < val_main_v18 (F := Ideal) x0 x1 x3 x4 i := by
  have h17 := pos_v17 x0 x1 x3 x4 h0 h1 h3 h4
  rw [val_main_v18_apply, val_main_cst_1_apply, Fin.sum_univ_two]
  have hz : FloatOps.ofBits (F := Ideal) .f32 0x00000000#32 = 0 := by
    show Ideal.ofBits .f32 0x00000000#32 = 0
    rw [LibCoe.ofBits_zero, EReal.coe_zero]
  rw [hz, zero_add]
  exact ⟨IsFin.add (h17 _).1 (h17 _).1, add_pos_of_pos_of_nonneg (h17 _).2 (h17 _).2.le⟩
include h0 h1 h3 h4 in
theorem fin_v21 : AllFin (val_main_v21 (F := Ideal) x0 x1 x3 x4) := by
  intro i
  rw [val_main_v21_apply, val_main_v20_apply, val_main_v19_apply]
  have h18 := pos_v18 x0 x1 x3 x4 h0 h1 h3 h4 (idx_main_v19 (idx_main_v20 i))
  exact IsFin.div (pos_v17 x0 x1 x3 x4 h0 h1 h3 h4 i).1 h18.1 (ne_of_gt h18.2)
include h0 h1 h3 h4 in
theorem fin_v32 : AllFin (val_main_v32 (F := Ideal) x0 x1 x3 x4) := by
  intro i
  have h21 := fin_v21 x0 x1 x3 x4 h0 h1 h3 h4
  rw [val_main_v32_apply, val_main_v26_apply, val_main_v31_apply, val_main_v25_apply, val_main_v24_apply,
    val_main_v23_apply, val_main_v22_apply, val_main_v30_apply, val_main_v29_apply, val_main_v28_apply,
    val_main_v27_apply]
  exact IsFin.add (IsFin.mul (h21 _) (h0 i)) (IsFin.mul (h21 _) (h1 i))
include h2 h5 in
theorem fin_v33 : AllFin (val_main_v33 (F := Ideal) x2 x5) := by
  intro i
  rw [val_main_v33_apply]
  exact isFin_sum_mul _ _ (fun k => h2 _) (fun k => h5 _)
include h0 h1 h2 h3 h4 h5 h6 in
theorem fin_v38 : AllFin (val_main_v38 (F := Ideal) x0 x1 x2 x3 x4 x5 x6) := by
  intro i
  rw [val_main_v38_apply, val_main_call0_v0_apply, val_main_call0_cst_apply]
  refine isFin_relu ?_
  rw [val_main_v37_apply, val_main_v36_apply, val_main_v35_apply, val_main_v34_apply]
  exact IsFin.add (isFin_sum_mul _ _ (fun k => fin_v32 x0 x1 x3 x4 h0 h1 h3 h4 _) (fun k => fin_v33 x2 x5 h2 h5 _)) (h6 _)
include h0 h1 h2 h3 h4 h5 h6 h7 in
theorem fin_v39 : AllFin (val_main_v39 (F := Ideal) x0 x1 x2 x3 x4 x5 x6 x7) := by
  intro i
  rw [val_main_v39_apply]
  exact isFin_sum_mul _ _ (fun k => fin_v38 x0 x1 x2 x3 x4 x5 x6 h0 h1 h2 h3 h4 h5 h6 _) (fun k => h7 _)
include h0 h1 h2 h3 h4 h5 h6 h7 h8 in
theorem fin_v44 : AllFin (val_main_v44 (F := Ideal) x0 x1 x2 x3 x4 x5 x6 x7 x8) := by
  intro i
  rw [val_main_v44_apply, val_main_call1_v0_apply, val_main_call1_cst_apply]
  refine isFin_relu ?_
  rw [val_main_v43_apply, val_main_v42_apply, val_main_v41_apply, val_main_v40_apply]
  exact IsFin.add (isFin_sum_mul _ _ (fun k => fin_v32 x0 x1 x3 x4 h0 h1 h3 h4 _)
    (fun k => fin_v39 x0 x1 x2 x3 x4 x5 x6 x7 h0 h1 h2 h3 h4 h5 h6 h7 _)) (h8 _)
include h0 h1 h2 h3 h4 h5 h6 h7 h8 h9 in
theorem fin_v45 : AllFin (val_main_v45 (F := Ideal) x0 x1 x2 x3 x4 x5 x6 x7 x8 x9) := by
  intro i
  rw [val_main_v45_apply]
  exact isFin_sum_mul _ _ (fun k => fin_v44 x0 x1 x2 x3 x4 x5 x6 x7 x8 h0 h1 h2 h3 h4 h5 h6 h7 h8 _) (fun k => h9 _)
end Cert.Spec
end
-- ==== Proof.Bridge.Final.lean ====
import proofs.«165102_j58428735095548_1_alg».proof.Proof.KI.HostValues
import proofs.«165102_j58428735095548_1_alg».proof.Proof.KI.R0.Value
import proofs.«165102_j58428735095548_1_alg».proof.Proof.KI.R1.Value
import proofs.«165102_j58428735095548_1_alg».proof.Proof.KI.R2.Value
import proofs.«165102_j58428735095548_1_alg».proof.Proof.KI.R3.Value
import proofs.«165102_j58428735095548_1_alg».proof.Proof.Bridge.Shared
import proofs.«165102_j58428735095548_1_alg».proof.Proof.Bridge.Logits
import proofs.«165102_j58428735095548_1_alg».proof.Proof.Bridge.Layers
import proofs.«165102_j58428735095548_1_alg».proof.Proof.Ref.Finite
noncomputable section
namespace Cert.KernelIdeal.Hand
open Cert.KernelIdeal Cert.KernelIdeal.Gen
open Idealize.ShloMosaic Idealize.ShloMosaic.TcCoe
open Cert.Spec Cert.ReferenceIdeal.ReadP
variable (m : (ℓ : Loc nD τ sig) → Buf (Elt Ideal) ℓ) (c : Dev nD)
local notation "𝔞[" r "]" => m (Thread.loc (Dev.tc c) r)
theorem res0_eq : (res0 (F := Ideal) m c : S8192x8.Idx → EReal)
    = spmm8 𝔞[main_arg0] 𝔞[main_arg1] (kpad0 (F := Ideal) 𝔞[main_arg3]) (kpad1 (F := Ideal) 𝔞[main_arg3]) := by
  unfold res0
  rw [Spmm0.result0]
  show spmm8 (W1 m c main_arg0) (W1 m c main_arg1) (W1 m c main_v3) (W1 m c main_v6) = _
  rw [(args_W1 m c).1, (args_W1 m c).2, v3_W1, v6_W1]
theorem nz_eq : ksm2 (F := Ideal) (kz (res0 m c) 𝔞[main_arg4])
    = val_main_v21 (F := Ideal) 𝔞[main_arg0] 𝔞[main_arg1] 𝔞[main_arg3] 𝔞[main_arg4] := by
  rw [res0_eq, logits_eq]
  exact (sm2_eq (F := Ideal) _ _ _ _).symm
theorem res1_eq (h0 : AllFin (ι := S8192x8192.Idx) 𝔞[main_arg0]) (h1 : AllFin (ι := S8192x8192.Idx) 𝔞[main_arg1]) (h2 : AllFin (ι := S8192x512.Idx) 𝔞[main_arg2]) (h3 : AllFin (ι := S1x8192.Idx) 𝔞[main_arg3]) (h4 : AllFin (ι := S1.Idx) 𝔞[main_arg4]) (h5 : AllFin (ι := S512x128.Idx) 𝔞[main_arg5]) : (res1 (F := Ideal) m c : S8192x128.Idx → EReal)
    = val_main_v34 (F := Ideal) 𝔞[main_arg0] 𝔞[main_arg1] 𝔞[main_arg2] 𝔞[main_arg3] 𝔞[main_arg4] 𝔞[main_arg5] := by
  unfold res1
  rw [Spmm1.result1]
  show spmm128 (W3 m c main_arg0) (W3 m c main_arg1) (W3 m c main_v32) (W3 m c main_v34) = _
  rw [(args_W3 m c).1, (args_W3 m c).2, v32_W3, v34_W3, nz_eq, ← y1_eq (F := Ideal)]
  rw [layer128 _ _ _ _ _ h0 h1 (fin_v21 _ _ _ _ h0 h1 h3 h4) (fin_v33 _ _ h2 h5)]
  exact (lay1_def (F := Ideal) _ _ _ _ _ _).symm
theorem res2_eq (h0 : AllFin (ι := S8192x8192.Idx) 𝔞[main_arg0]) (h1 : AllFin (ι := S8192x8192.Idx) 𝔞[main_arg1]) (h2 : AllFin (ι := S8192x512.Idx) 𝔞[main_arg2]) (h3 : AllFin (ι := S1x8192.Idx) 𝔞[main_arg3]) (h4 : AllFin (ι := S1.Idx) 𝔞[main_arg4]) (h5 : AllFin (ι := S512x128.Idx) 𝔞[main_arg5]) (h6 : AllFin (ι := S128.Idx) 𝔞[main_arg6]) (h7 : AllFin (ι := S128x128.Idx) 𝔞[main_arg7]) : (res2 (F := Ideal) m c : S8192x128.Idx → EReal)
    = val_main_v40 (F := Ideal) 𝔞[main_arg0] 𝔞[main_arg1] 𝔞[main_arg2] 𝔞[main_arg3] 𝔞[main_arg4] 𝔞[main_arg5] 𝔞[main_arg6] 𝔞[main_arg7] := by
  unfold res2
  rw [Spmm2.result2]
  show spmm128 (W7 m c main_arg0) (W7 m c main_arg1) (W7 m c main_v42) (W7 m c main_v44) = _
  rw [(args_W7 m c).1, (args_W7 m c).2, v42_W7, v44_W7, nz_eq, res1_eq m c h0 h1 h2 h3 h4 h5,
    ← act1_eq (F := Ideal), ← y2_eq (F := Ideal)]
  rw [layer128 _ _ _ _ _ h0 h1 (fin_v21 _ _ _ _ h0 h1 h3 h4) (fin_v39 _ _ _ _ _ _ _ _ h0 h1 h2 h3 h4 h5 h6 h7)]
  exact (lay2_def (F := Ideal) _ _ _ _ _ _ _ _).symm
theorem res3_eq (h0 : AllFin (ι := S8192x8192.Idx) 𝔞[main_arg0]) (h1 : AllFin (ι := S8192x8192.Idx) 𝔞[main_arg1]) (h2 : AllFin (ι := S8192x512.Idx) 𝔞[main_arg2]) (h3 : AllFin (ι := S1x8192.Idx) 𝔞[main_arg3]) (h4 : AllFin (ι := S1.Idx) 𝔞[main_arg4]) (h5 : AllFin (ι := S512x128.Idx) 𝔞[main_arg5]) (h6 : AllFin (ι := S128.Idx) 𝔞[main_arg6]) (h7 : AllFin (ι := S128x128.Idx) 𝔞[main_arg7]) (h8 : AllFin (ι := S128.Idx) 𝔞[main_arg8]) (h9 : AllFin (ι := S128x16.Idx) 𝔞[main_arg9]) : (res3 (F := Ideal) m c : S8192x16.Idx → EReal)
    = val_main_v46 (F := Ideal) 𝔞[main_arg0] 𝔞[main_arg1] 𝔞[main_arg2] 𝔞[main_arg3] 𝔞[main_arg4] 𝔞[main_arg5] 𝔞[main_arg6] 𝔞[main_arg7] 𝔞[main_arg8] 𝔞[main_arg9] := by
  unfold res3
  rw [Spmm3.result3]
  show spmm16 (W11 m c main_arg0) (W11 m c main_arg1) (W11 m c main_v52) (W11 m c main_v54) = _
  rw [(args_W11 m c).1, (args_W11 m c).2, v52_W11, v54_W11, nz_eq, res2_eq m c h0 h1 h2 h3 h4 h5 h6 h7,
    ← act2_eq (F := Ideal), ← y3_eq (F := Ideal)]
  rw [layer16 _ _ _ _ _ h0 h1 (fin_v21 _ _ _ _ h0 h1 h3 h4) (fin_v45 _ _ _ _ _ _ _ _ _ _ h0 h1 h2 h3 h4 h5 h6 h7 h8 h9)]
  exact (lay3_def (F := Ideal) _ _ _ _ _ _ _ _ _ _).symm
theorem result_eq (h0 : AllFin (ι := S8192x8192.Idx) 𝔞[main_arg0]) (h1 : AllFin (ι := S8192x8192.Idx) 𝔞[main_arg1]) (h2 : AllFin (ι := S8192x512.Idx) 𝔞[main_arg2]) (h3 : AllFin (ι := S1x8192.Idx) 𝔞[main_arg3]) (h4 : AllFin (ι := S1.Idx) 𝔞[main_arg4]) (h5 : AllFin (ι := S512x128.Idx) 𝔞[main_arg5]) (h6 : AllFin (ι := S128.Idx) 𝔞[main_arg6]) (h7 : AllFin (ι := S128x128.Idx) 𝔞[main_arg7]) (h8 : AllFin (ι := S128.Idx) 𝔞[main_arg8]) (h9 : AllFin (ι := S128x16.Idx) 𝔞[main_arg9]) : (W13 (F := Ideal) m c main_v69 : S8192x16.Idx → EReal)
    = val_main_v60 (F := Ideal) 𝔞[main_arg0] 𝔞[main_arg1] 𝔞[main_arg2] 𝔞[main_arg3] 𝔞[main_arg4] 𝔞[main_arg5] 𝔞[main_arg6] 𝔞[main_arg7] 𝔞[main_arg8] 𝔞[main_arg9] 𝔞[main_arg10] := by
  rw [v69_W13, res3_eq m c h0 h1 h2 h3 h4 h5 h6 h7 h8 h9]
  exact (fin_eq (F := Ideal) _ _ _ _ _ _ _ _ _ _ _).symm
end Cert.KernelIdeal.Hand
end
-- ==== Proof.Ref.Inputs.lean ====
import proofs.«165102_j58428735095548_1_alg».proof.Pre_finite_inputs
import proofs.«165102_j58428735095548_1_alg».proof.Proof.Gen.Pre_finite_inputs
import proofs.«165102_j58428735095548_1_alg».proof.Proof.Math.IsFin
import Idealize.ShloMosaic.Lib.ReduceAll
import Idealize.ShloMosaic.Lib.IdealHost
import Idealize.ShloMosaic.Lib.StableHlo.Predicate
import Mathlib.Data.EReal.Basic
namespace Cert.Spec
open Idealize.ShloMosaic Idealize.ShloMosaic.ValueIdx Cert.Pre_finite_inputs
theorem ofBits_f32_inf : Ideal.ofBits .f32 0x7F800000#32 = (⊤ : EReal) := by
  simp [Ideal.ofBits, Ideal.ieee]
theorem isFin_of_abs_lt_top (x : EReal) (h : max x (-x) < ⊤) : IsFin x := by
  induction x using EReal.rec with
  | bot => simp at h
  | top => simp at h
  | coe r => exact ⟨EReal.coe_ne_top r, EReal.coe_ne_bot r⟩
instance subsingleton_S_Idx : Subsingleton S_.Idx := ⟨fun a b => funext fun d => d.elim0⟩
theorem allFin_of_all_abs_lt_inf {s : Shape} {axes : List (Fin s.rank)}
    (hb : S_.BroadcastsInDim s (![] : Fin 0 → Fin s.rank)) (hr : s.ReducesTo axes S_) (h0 : 0 < S_.numel)
    (x : FVec Ideal s .f32)
    (h : Host.reduce IntOp.andi
          (cmpf .olt (Host.absf x) (broadcastInDim s ![] hb (constant (F := Ideal) S_ .f32 0x7F800000#32)))
          (constantI S_ 1 1#1) hr h0 ix0 = 1#1) :
    AllFin x := by
  intro i
  have e := Host.reduce_andi_all _ _ hr h0 ix0 h i
  rw [cmpf_apply, broadcastInDim_scalar_apply, constant_apply, ofBits_f32_inf] at e
  change BitVec.ofBool (decide (max (x i) (-(x i)) < ⊤)) = 1#1 at e
  rw [StableHlo.Predicate.ofBool_eq_one_iff, decide_eq_true_eq] at e
  exact isFin_of_abs_lt_top _ e
theorem inputs_finite [Facts] (x0 x1 : FVec Ideal S8192x8192 .f32) (x2 : FVec Ideal S8192x512 .f32)
    (x3 : FVec Ideal S1x8192 .f32) (x4 : FVec Ideal S1 .f32) (x5 : FVec Ideal S512x128 .f32)
    (x6 : FVec Ideal S128 .f32) (x7 : FVec Ideal S128x128 .f32) (x8 : FVec Ideal S128 .f32)
    (x9 : FVec Ideal S128x16 .f32) (x10 : FVec Ideal S16 .f32)
    (h : Cert.Pre_finite_inputs.fn (F := Ideal) x0 x1 x2 x3 x4 x5 x6 x7 x8 x9 x10 = fun _ => 1#1) :
    AllFin x0 ∧ AllFin x1 ∧ AllFin x2 ∧ AllFin x3 ∧ AllFin x4 ∧ AllFin x5 ∧ AllFin x6 ∧ AllFin x7 ∧ AllFin x8 ∧
      AllFin x9 ∧ AllFin x10 := by
  have e := congrFun h ix0
  dsimp only [Cert.Pre_finite_inputs.fn, fn_part1, fn_part2, fn_part3, andi] at e
  simp only [IntOp.andi_eq_one] at e
  obtain ⟨⟨⟨⟨⟨⟨⟨⟨⟨⟨e0, e1⟩, e2⟩, e3⟩, e4⟩, e5⟩, e6⟩, e7⟩, e8⟩, e9⟩, e10⟩ := e
  exact ⟨allFin_of_all_abs_lt_inf _ _ _ x0 e0, allFin_of_all_abs_lt_inf _ _ _ x1 e1,
    allFin_of_all_abs_lt_inf _ _ _ x2 e2, allFin_of_all_abs_lt_inf _ _ _ x3 e3,
    allFin_of_all_abs_lt_inf _ _ _ x4 e4, allFin_of_all_abs_lt_inf _ _ _ x5 e5,
    allFin_of_all_abs_lt_inf _ _ _ x6 e6, allFin_of_all_abs_lt_inf _ _ _ x7 e7,
    allFin_of_all_abs_lt_inf _ _ _ x8 e8, allFin_of_all_abs_lt_inf _ _ _ x9 e9,
    allFin_of_all_abs_lt_inf _ _ _ x10 e10⟩
end Cert.Spec
-- ==== Proof.lean ====
import proofs.«165102_j58428735095548_1_alg».proof.Defs
import proofs.«165102_j58428735095548_1_alg».proof.Proof.Gen.Kernel
import proofs.«165102_j58428735095548_1_alg».proof.Proof.Gen.KernelIdeal
import proofs.«165102_j58428735095548_1_alg».proof.Proof.Gen.ReferenceIdeal
import proofs.«165102_j58428735095548_1_alg».proof.Proof.Gen.Pre_finite_inputs
import proofs.«165102_j58428735095548_1_alg».proof.Proof.KB.Frame
import proofs.«165102_j58428735095548_1_alg».proof.Proof.KI.Frame
import proofs.«165102_j58428735095548_1_alg».proof.Proof.KI.RunValue
import proofs.«165102_j58428735095548_1_alg».proof.Proof.Bridge.Final
import proofs.«165102_j58428735095548_1_alg».proof.Proof.Ref.Inputs
import Idealize.ShloMosaic.Adequacy
import Idealize.ShloMosaic.Init
noncomputable section
namespace Cert.Proof
open Idealize.ShloMosaic Idealize.ShloMosaic.TcCoe Idealize.SL.Sem
theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)
theorem algebraic : Cert.algebraic_KernelIdeal_ReferenceIdeal := by
  intro m ρ m' ρ' hpre hagree
  refine ⟨fun c => Cert.KernelIdeal.Hand.W13 (F := Ideal) m c Cert.KernelIdeal.main_v69, Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, -⟩ := Cert.Spec.inputs_finite _ _ _ _ _ _ _ _ _ _ _ (hpre c)
  rw [Cert.ReferenceIdeal.ReadP.val_main_v60_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]
  exact (Cert.KernelIdeal.Hand.result_eq m c h0 h1 h2 h3 h4 h5 h6 h7 h8 h9).symm
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩
end Cert.Proof
end
